-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v179)) (v1 : (c : Dev Cert.KernelIdeal.nD) → Buf (Elt Ideal) ((c.tc : Thread Cert.KernelIdeal.nD Cert.KernelIdeal.τ).loc Cert.KernelIdeal.main_v180)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v179) = v0 c
          ∧ r.2.mem ((c.tc : Thread Cert.KernelIdeal.nD Cert.KernelIdeal.τ).loc Cert.KernelIdeal.main_v180) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v490) = v0 c
          ∧ r.2.mem ((c.tc : Thread Cert.ReferenceIdeal.nD Cert.ReferenceIdeal.τ).loc Cert.ReferenceIdeal.main_v494) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S5x500000 : Shape := ⟨2, ![5, 500000]⟩
abbrev S50000x1 : Shape := ⟨2, ![50000, 1]⟩
abbrev S5x4 : Shape := ⟨2, ![5, 4]⟩
abbrev S4x1024x64 : Shape := ⟨3, ![4, 1024, 64]⟩
abbrev S960x256 : Shape := ⟨2, ![960, 256]⟩
abbrev S256 : Shape := ⟨1, ![256]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S5x4 : S_.BroadcastsInDim S5x4 (![] : Fin 0 → Fin S5x4.rank)
  reducesTo_S5x4_S_d0_1 : S5x4.ReducesTo [0, 1] S_
  bcast_S_S4x1024x64 : S_.BroadcastsInDim S4x1024x64 (![] : Fin 0 → Fin S4x1024x64.rank)
  reducesTo_S4x1024x64_S_d0_1_2 : S4x1024x64.ReducesTo [0, 1, 2] S_
  bcast_S_S960x256 : S_.BroadcastsInDim S960x256 (![] : Fin 0 → Fin S960x256.rank)
  reducesTo_S960x256_S_d0_1 : S960x256.ReducesTo [0, 1] S_
  bcast_S_S256 : S_.BroadcastsInDim S256 (![] : Fin 0 → Fin S256.rank)
  reducesTo_S256_S_d0 : S256.ReducesTo [0] S_
  bcast_S_S50000x3 : S_.BroadcastsInDim S50000x3 (![] : Fin 0 → Fin S50000x3.rank)
  reducesTo_S50000x3_S_d0_1 : S50000x3.ReducesTo [0, 1] S_

variable [Facts]

def fn_part3 {F : FTy → Type} [FloatOps F] (main_v45 : IVec S_ 1) (main_v50 : IVec S50000x3 1) : IVec S_ 1 :=
  let main_c_19 : IVec S_ 1 := constantI S_ 1 1#1
  let main_v51 : IVec S_ 1 := (fun x v => Host.reduce IntOp.andi x v reducesTo_S50000x3_S_d0_1 h_S_) main_v50 main_c_19
  let main_v52 : IVec S_ 1 := andi main_v45 main_v51
  main_v52

def fn_part2 {F : FTy → Type} [FloatOps F] (main_arg0 : IVec S50000x3 32) (main_arg1 : IVec S50000x3 32) (main_arg11 : FVec F S256 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_c_14 : IVec S_ 32 := constantI S_ 32 0#32
  let main_v39 : IVec S50000x3 32 := broadcastInDim S50000x3 ![] bcast_S_S50000x3 main_c_14
  let main_v40 : IVec S50000x3 1 := cmpi .sge main_arg0 main_v39
  let main_c_15 : IVec S_ 32 := constantI S_ 32 1024#32
  let main_v41 : IVec S50000x3 32 := broadcastInDim S50000x3 ![] bcast_S_S50000x3 main_c_15
  let main_v42 : IVec S50000x3 1 := cmpi .slt main_arg0 main_v41
  let main_v43 : IVec S50000x3 1 := andi main_v40 main_v42
  let main_c_16 : IVec S_ 1 := constantI S_ 1 1#1
  let main_v44 : IVec S_ 1 := (fun x v => Host.reduce IntOp.andi x v reducesTo_S50000x3_S_d0_1 h_S_) main_v43 main_c_16
  let main_v45 : IVec S_ 1 := andi main_v38 main_v44
  let main_c_17 : IVec S_ 32 := constantI S_ 32 0#32
  let main_v46 : IVec S50000x3 32 := broadcastInDim S50000x3 ![] bcast_S_S50000x3 main_c_17
  let main_v47 : IVec S50000x3 1 := cmpi .sge main_arg1 main_v46
  let main_c_18 : IVec S_ 32 := constantI S_ 32 1024#32
  let main_v48 : IVec S50000x3 32 := broadcastInDim S50000x3 ![] bcast_S_S50000x3 main_c_18
  let main_v49 : IVec S50000x3 1 := cmpi .slt main_arg1 main_v48
  let main_v50 : IVec S50000x3 1 := andi main_v47 main_v49
  fn_part3 (F := F) main_v45 main_v50

def fn_part1 {F : FTy → Type} [FloatOps F] (main_arg0 : IVec S50000x3 32) (main_arg1 : IVec S50000x3 32) (main_arg8 : FVec F S5x4 .f32) (main_arg9 : FVec F S4x1024x64 .f32) (main_arg10 : FVec F S960x256 .f32) (main_arg11 : FVec F S256 .f32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S5x4 .f32 := Host.absf main_arg8
  let main_cst_6 : FVec F S_ .f32 := constant S_ .f32 0x7F800000#32
  let main_v20 : FVec F S5x4 .f32 := broadcastInDim S5x4 ![] bcast_S_S5x4 main_cst_6
  let main_v21 : IVec S5x4 1 := cmpf .olt main_v19 main_v20
  let main_c_7 : IVec S_ 1 := constantI S_ 1 1#1
  let main_v22 : IVec S_ 1 := (fun x v => Host.reduce IntOp.andi x v reducesTo_S5x4_S_d0_1 h_S_) main_v21 main_c_7
  let main_v23 : IVec S_ 1 := andi main_v18 main_v22
  let main_v24 : FVec F S4x1024x64 .f32 := Host.absf main_arg9
  let main_cst_8 : FVec F S_ .f32 := constant S_ .f32 0x7F800000#32
  let main_v25 : FVec F S4x1024x64 .f32 := broadcastInDim S4x1024x64 ![] bcast_S_S4x1024x64 main_cst_8
  let main_v26 : IVec S4x1024x64 1 := cmpf .olt main_v24 main_v25
  let main_c_9 : IVec S_ 1 := constantI S_ 1 1#1
  let main_v27 : IVec S_ 1 := (fun x v => Host.reduce IntOp.andi x v reducesTo_S4x1024x64_S_d0_1_2 h_S_) main_v26 main_c_9
  let main_v28 : IVec S_ 1 := andi main_v23 main_v27
  let main_v29 : FVec F S960x256 .f32 := Host.absf main_arg10
  let main_cst_10 : FVec F S_ .f32 := constant S_ .f32 0x7F800000#32
  let main_v30 : FVec F S960x256 .f32 := broadcastInDim S960x256 ![] bcast_S_S960x256 main_cst_10
  let main_v31 : IVec S960x256 1 := cmpf .olt main_v29 main_v30
  let main_c_11 : IVec S_ 1 := constantI S_ 1 1#1
  let main_v32 : IVec S_ 1 := (fun x v => Host.reduce IntOp.andi x v reducesTo_S960x256_S_d0_1 h_S_) main_v31 main_c_11
  let main_v33 : IVec S_ 1 := andi main_v28 main_v32
  fn_part2 (F := F) main_arg0 main_arg1 main_arg11 main_v33

def fn {F : FTy → Type} [FloatOps F] (main_arg0 : IVec S50000x3 32) (main_arg1 : IVec S50000x3 32) (main_arg2 : IVec S5x500000 32) (main_arg3 : IVec S5x500000 32) (main_arg4 : FVec F S50000x1 .f32) (main_arg5 : FVec F S50000x1 .f32) (main_arg6 : FVec F S50000x1 .f32) (main_arg7 : FVec F S50000x1 .f32) (main_arg8 : FVec F S5x4 .f32) (main_arg9 : FVec F S4x1024x64 .f32) (main_arg10 : FVec F S960x256 .f32) (main_arg11 : FVec F S256 .f32) : IVec S_ 1 :=
  let main_v0 : FVec F S50000x1 .f32 := Host.absf main_arg4
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S50000x1 .f32 := Host.absf main_arg5
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S50000x1 .f32 := Host.absf main_arg6
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S50000x1 .f32 := Host.absf main_arg7
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg0 main_arg1 main_arg8 main_arg9 main_arg10 main_arg11 main_v13 main_v16
-- ==== Kernel.lean ====
abbrev S50000x3 : Shape := ⟨2, ![50000, 3]⟩
abbrev S5x500000 : Shape := ⟨2, ![5, 500000]⟩
abbrev S50000x1 : Shape := ⟨2, ![50000, 1]⟩
abbrev S5x4 : Shape := ⟨2, ![5, 4]⟩
abbrev S4x1024x64 : Shape := ⟨3, ![4, 1024, 64]⟩
abbrev S960x256 : Shape := ⟨2, ![960, 256]⟩
abbrev S256 : Shape := ⟨1, ![256]⟩
abbrev S4x65536 : Shape := ⟨2, ![4, 65536]⟩
abbrev S5x65536 : Shape := ⟨2, ![5, 65536]⟩
abbrev S5x1024x64 : Shape := ⟨3, ![5, 1024, 64]⟩
abbrev S5x50000x192 : Shape := ⟨3, ![5, 50000, 192]⟩
abbrev S1x1024x64 : Shape := ⟨3, ![1, 1024, 64]⟩
abbrev S2000x3 : Shape := ⟨2, ![2000, 3]⟩
abbrev S2000x1 : Shape := ⟨2, ![2000, 1]⟩
abbrev S1x2000x192 : Shape := ⟨3, ![1, 2000, 192]⟩
abbrev S1024x64 : Shape := ⟨2, ![1024, 64]⟩
abbrev S2000x1024 : Shape := ⟨2, ![2000, 1024]⟩
abbrev S2000x64 : Shape := ⟨2, ![2000, 64]⟩
abbrev S2000x192 : Shape := ⟨2, ![2000, 192]⟩
abbrev S1x50000x192 : Shape := ⟨3, ![1, 50000, 192]⟩
abbrev S50000x192 : Shape := ⟨2, ![50000, 192]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x192 : Shape := ⟨2, ![500000, 192]⟩
abbrev S5x192x256 : Shape := ⟨3, ![5, 192, 256]⟩
abbrev S1x256 : Shape := ⟨2, ![1, 256]⟩
abbrev S50000x256 : Shape := ⟨2, ![50000, 256]⟩
abbrev S1x192x256 : Shape := ⟨3, ![1, 192, 256]⟩
abbrev S2000x256 : Shape := ⟨2, ![2000, 256]⟩
abbrev S192x256 : Shape := ⟨2, ![192, 256]⟩

abbrev nBuf : Space → Nat
  | .hbm => 223
  | .vmem => 36
  | .smem => 0
  | _ => 0

abbrev hbmTy0_0 (i : Nat) : BufTy := match i % 128 with
  | 0 => ⟨S50000x3, .i32⟩
  | 1 => ⟨S50000x3, .i32⟩
  | 2 => ⟨S5x500000, .i32⟩
  | 3 => ⟨S5x500000, .i32⟩
  | 4 => ⟨S50000x1, .f32⟩
  | 5 => ⟨S50000x1, .f32⟩
  | 6 => ⟨S50000x1, .f32⟩
  | 7 => ⟨S50000x1, .f32⟩
  | 8 => ⟨S5x4, .f32⟩
  | 9 => ⟨S4x1024x64, .f32⟩
  | 10 => ⟨S960x256, .f32⟩
  | 11 => ⟨S256, .f32⟩
  | 12 => ⟨S4x65536, .f32⟩
  | 13 => ⟨S5x65536, .f32⟩
  | 14 => ⟨S5x1024x64, .f32⟩
  | 15 => ⟨S5x50000x192, .f32⟩
  | 16 => ⟨S5x50000x192, .f32⟩
  | 17 => ⟨S1x50000x192, .f32⟩
  | 18 => ⟨S50000x192, .f32⟩
  | 19 => ⟨S1x500000, .i32⟩
  | 20 => ⟨S500000, .i32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x192, .f32⟩
  | 30 => ⟨S1x500000, .i32⟩
  | 31 => ⟨S500000, .i32⟩
  | 32 => ⟨S_, .f32⟩
  | 33 => ⟨S50000x192, .f32⟩
  | 34 => ⟨S500000x1, .i32⟩
  | 35 => ⟨S50000x192, .f32⟩
  | 36 => ⟨S1x50000x192, .f32⟩
  | 37 => ⟨S50000x192, .f32⟩
  | 38 => ⟨S1x500000, .i32⟩
  | 39 => ⟨S500000, .i32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x192, .f32⟩
  | 49 => ⟨S1x500000, .i32⟩
  | 50 => ⟨S500000, .i32⟩
  | 51 => ⟨S_, .f32⟩
  | 52 => ⟨S50000x192, .f32⟩
  | 53 => ⟨S500000x1, .i32⟩
  | 54 => ⟨S50000x192, .f32⟩
  | 55 => ⟨S1x50000x192, .f32⟩
  | 56 => ⟨S50000x192, .f32⟩
  | 57 => ⟨S1x500000, .i32⟩
  | 58 => ⟨S500000, .i32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x192, .f32⟩
  | 68 => ⟨S1x500000, .i32⟩
  | 69 => ⟨S500000, .i32⟩
  | 70 => ⟨S_, .f32⟩
  | 71 => ⟨S50000x192, .f32⟩
  | 72 => ⟨S500000x1, .i32⟩
  | 73 => ⟨S50000x192, .f32⟩
  | 74 => ⟨S1x50000x192, .f32⟩
  | 75 => ⟨S50000x192, .f32⟩
  | 76 => ⟨S1x500000, .i32⟩
  | 77 => ⟨S500000, .i32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S500000x192, .f32⟩
  | 87 => ⟨S1x500000, .i32⟩
  | 88 => ⟨S500000, .i32⟩
  | 89 => ⟨S_, .f32⟩
  | 90 => ⟨S50000x192, .f32⟩
  | 91 => ⟨S500000x1, .i32⟩
  | 92 => ⟨S50000x192, .f32⟩
  | 93 => ⟨S1x50000x192, .f32⟩
  | 94 => ⟨S50000x192, .f32⟩
  | 95 => ⟨S1x500000, .i32⟩
  | 96 => ⟨S500000, .i32⟩
  | 97 => ⟨S_, .i32⟩
  | 98 => ⟨S500000, .i32⟩
  | 99 => ⟨S500000, .i1⟩
  | 100 => ⟨S_, .i32⟩
  | 101 => ⟨S500000, .i32⟩
  | 102 => ⟨S500000, .i32⟩
  | 103 => ⟨S500000, .i32⟩
  | 104 => ⟨S500000x1, .i32⟩
  | 105 => ⟨S500000x192, .f32⟩
  | 106 => ⟨S1x500000, .i32⟩
  | 107 => ⟨S500000, .i32⟩
  | 108 => ⟨S_, .f32⟩
  | 109 => ⟨S50000x192, .f32⟩
  | 110 => ⟨S500000x1, .i32⟩
  | 111 => ⟨S50000x192, .f32⟩
  | 112 => ⟨S1x50000x192, .f32⟩
  | 113 => ⟨S1x50000x192, .f32⟩
  | 114 => ⟨S1x50000x192, .f32⟩
  | 115 => ⟨S1x50000x192, .f32⟩
  | 116 => ⟨S1x50000x192, .f32⟩
  | 117 => ⟨S5x50000x192, .f32⟩
  | 118 => ⟨S1x50000x192, .f32⟩
  | 119 => ⟨S50000x192, .f32⟩
  | 120 => ⟨S1x500000, .i32⟩
  | 121 => ⟨S500000, .i32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S50000x3, .i32⟩

abbrev hbmTy0_1 (i : Nat) : BufTy := match i % 128 with
  | 0 => ⟨S500000, .i32⟩
  | 1 => ⟨S500000x1, .i32⟩
  | 2 => ⟨S500000x192, .f32⟩
  | 3 => ⟨S1x500000, .i32⟩
  | 4 => ⟨S500000, .i32⟩
  | 5 => ⟨S_, .f32⟩
  | 6 => ⟨S50000x192, .f32⟩
  | 7 => ⟨S500000x1, .i32⟩
  | 8 => ⟨S50000x192, .f32⟩
  | 9 => ⟨S1x50000x192, .f32⟩
  | 10 => ⟨S50000x192, .f32⟩
  | 11 => ⟨S1x500000, .i32⟩
  | 12 => ⟨S500000, .i32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S500000x192, .f32⟩
  | 22 => ⟨S1x500000, .i32⟩
  | 23 => ⟨S500000, .i32⟩
  | 24 => ⟨S_, .f32⟩
  | 25 => ⟨S50000x192, .f32⟩
  | 26 => ⟨S500000x1, .i32⟩
  | 27 => ⟨S50000x192, .f32⟩
  | 28 => ⟨S1x50000x192, .f32⟩
  | 29 => ⟨S50000x192, .f32⟩
  | 30 => ⟨S1x500000, .i32⟩
  | 31 => ⟨S500000, .i32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x192, .f32⟩
  | 41 => ⟨S1x500000, .i32⟩
  | 42 => ⟨S500000, .i32⟩
  | 43 => ⟨S_, .f32⟩
  | 44 => ⟨S50000x192, .f32⟩
  | 45 => ⟨S500000x1, .i32⟩
  | 46 => ⟨S50000x192, .f32⟩
  | 47 => ⟨S1x50000x192, .f32⟩
  | 48 => ⟨S50000x192, .f32⟩
  | 49 => ⟨S1x500000, .i32⟩
  | 50 => ⟨S500000, .i32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x192, .f32⟩
  | 60 => ⟨S1x500000, .i32⟩
  | 61 => ⟨S500000, .i32⟩
  | 62 => ⟨S_, .f32⟩
  | 63 => ⟨S50000x192, .f32⟩
  | 64 => ⟨S500000x1, .i32⟩
  | 65 => ⟨S50000x192, .f32⟩
  | 66 => ⟨S1x50000x192, .f32⟩
  | 67 => ⟨S50000x192, .f32⟩
  | 68 => ⟨S1x500000, .i32⟩
  | 69 => ⟨S500000, .i32⟩
  | 70 => ⟨S_, .i32⟩
  | 71 => ⟨S500000, .i32⟩
  | 72 => ⟨S500000, .i1⟩
  | 73 => ⟨S_, .i32⟩
  | 74 => ⟨S500000, .i32⟩
  | 75 => ⟨S500000, .i32⟩
  | 76 => ⟨S500000, .i32⟩
  | 77 => ⟨S500000x1, .i32⟩
  | 78 => ⟨S500000x192, .f32⟩
  | 79 => ⟨S1x500000, .i32⟩
  | 80 => ⟨S500000, .i32⟩
  | 81 => ⟨S_, .f32⟩
  | 82 => ⟨S50000x192, .f32⟩
  | 83 => ⟨S500000x1, .i32⟩
  | 84 => ⟨S50000x192, .f32⟩
  | 85 => ⟨S1x50000x192, .f32⟩
  | 86 => ⟨S1x50000x192, .f32⟩
  | 87 => ⟨S1x50000x192, .f32⟩
  | 88 => ⟨S1x50000x192, .f32⟩
  | 89 => ⟨S1x50000x192, .f32⟩
  | 90 => ⟨S5x50000x192, .f32⟩
  | 91 => ⟨S5x192x256, .f32⟩
  | 92 => ⟨S1x256, .f32⟩
  | 93 => ⟨S50000x256, .f32⟩
  | 94 => ⟨S50000x256, .f32⟩
  | _ => ⟨S50000x3, .i32⟩

abbrev hbmTy (i : Nat) : BufTy := match i / 128 with
  | 0 => hbmTy0_0 i
  | 1 => hbmTy0_1 i
  | _ => ⟨S50000x3, .i32⟩

abbrev bufTy : (tb : Table) → Fin (tcTables nBuf tb) → BufTy
  | .hbm, ⟨i, _⟩ => hbmTy i
  | .local _ .vmem, ⟨0, _⟩ => ⟨S1x1024x64, .f32⟩
  | .local _ .vmem, ⟨1, _⟩ => ⟨S1x1024x64, .f32⟩
  | .local _ .vmem, ⟨2, _⟩ => ⟨S2000x3, .i32⟩
  | .local _ .vmem, ⟨3, _⟩ => ⟨S2000x3, .i32⟩
  | .local _ .vmem, ⟨4, _⟩ => ⟨S2000x1, .f32⟩
  | .local _ .vmem, ⟨5, _⟩ => ⟨S2000x1, .f32⟩
  | .local _ .vmem, ⟨6, _⟩ => ⟨S1x2000x192, .f32⟩
  | .local _ .vmem, ⟨7, _⟩ => ⟨S1x2000x192, .f32⟩
  | .local _ .vmem, ⟨8, _⟩ => ⟨S1x1024x64, .f32⟩
  | .local _ .vmem, ⟨9, _⟩ => ⟨S1x1024x64, .f32⟩
  | .local _ .vmem, ⟨10, _⟩ => ⟨S2000x3, .i32⟩
  | .local _ .vmem, ⟨11, _⟩ => ⟨S2000x3, .i32⟩
  | .local _ .vmem, ⟨12, _⟩ => ⟨S2000x1, .f32⟩
  | .local _ .vmem, ⟨13, _⟩ => ⟨S2000x1, .f32⟩
  | .local _ .vmem, ⟨14, _⟩ => ⟨S1x2000x192, .f32⟩
  | .local _ .vmem, ⟨15, _⟩ => ⟨S1x2000x192, .f32⟩
  | .local _ .vmem, ⟨16, _⟩ => ⟨S1x2000x192, .f32⟩
  | .local _ .vmem, ⟨17, _⟩ => ⟨S1x2000x192, .f32⟩
  | .local _ .vmem, ⟨18, _⟩ => ⟨S2000x1, .f32⟩
  | .local _ .vmem, ⟨19, _⟩ => ⟨S2000x1, .f32⟩
  | .local _ .vmem, ⟨20, _⟩ => ⟨S1x192x256, .f32⟩
  | .local _ .vmem, ⟨21, _⟩ => ⟨S1x192x256, .f32⟩
  | .local _ .vmem, ⟨22, _⟩ => ⟨S1x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S1x2000x192, .f32⟩
  | .local _ .vmem, ⟨27, _⟩ => ⟨S1x2000x192, .f32⟩
  | .local _ .vmem, ⟨28, _⟩ => ⟨S2000x1, .f32⟩
  | .local _ .vmem, ⟨29, _⟩ => ⟨S2000x1, .f32⟩
  | .local _ .vmem, ⟨30, _⟩ => ⟨S1x192x256, .f32⟩
  | .local _ .vmem, ⟨31, _⟩ => ⟨S1x192x256, .f32⟩
  | .local _ .vmem, ⟨32, _⟩ => ⟨S1x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | _, _ => ⟨S50000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_4 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_7 : Ref sig .tc := ⟨.hbm, 78, rfl⟩
abbrev main_v57 : Ref sig .tc := ⟨.hbm, 79, rfl⟩
abbrev main_v58 : Ref sig .tc := ⟨.hbm, 80, rfl⟩
abbrev main_c_8 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_9 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_10 : Ref sig .tc := ⟨.hbm, 97, rfl⟩
abbrev main_v73 : Ref sig .tc := ⟨.hbm, 98, rfl⟩
abbrev main_v74 : Ref sig .tc := ⟨.hbm, 99, rfl⟩
abbrev main_c_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_12 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_c_13 : Ref sig .tc := ⟨.hbm, 122, rfl⟩
abbrev main_v95 : Ref sig .tc := ⟨.hbm, 123, rfl⟩
abbrev main_v96 : Ref sig .tc := ⟨.hbm, 124, rfl⟩
abbrev main_c_14 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_15 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_c_16 : Ref sig .tc := ⟨.hbm, 141, rfl⟩
abbrev main_v111 : Ref sig .tc := ⟨.hbm, 142, rfl⟩
abbrev main_v112 : Ref sig .tc := ⟨.hbm, 143, rfl⟩
abbrev main_c_17 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_18 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_c_19 : Ref sig .tc := ⟨.hbm, 160, rfl⟩
abbrev main_v127 : Ref sig .tc := ⟨.hbm, 161, rfl⟩
abbrev main_v128 : Ref sig .tc := ⟨.hbm, 162, rfl⟩
abbrev main_c_20 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_21 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_c_22 : Ref sig .tc := ⟨.hbm, 179, rfl⟩
abbrev main_v143 : Ref sig .tc := ⟨.hbm, 180, rfl⟩
abbrev main_v144 : Ref sig .tc := ⟨.hbm, 181, rfl⟩
abbrev main_c_23 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_24 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_c_25 : Ref sig .tc := ⟨.hbm, 198, rfl⟩
abbrev main_v159 : Ref sig .tc := ⟨.hbm, 199, rfl⟩
abbrev main_v160 : Ref sig .tc := ⟨.hbm, 200, rfl⟩
abbrev main_c_26 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_cst_27 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc3_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨2, ![5, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2000x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![5, 25], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2000x3 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x2000x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![25, 5], ![false, false]⟩

def k2_cond2 (i : grid2.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_12 : BitVec 32 := 0#32
  let v20 : BitVec 1 := Scalar.cmpi .ne v19 c0_i32_12
  v20

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x2000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x192x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![25, 5], ![false, false]⟩

def k3_cond2 (i : grid3.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_12 : BitVec 32 := 0#32
  let v20 : BitVec 1 := Scalar.cmpi .ne v19 c0_i32_12
  v20

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x2000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x192x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  shapeCasts_S4x1024x64_S4x65536 : S4x1024x64.ShapeCasts S4x65536
  shapeCasts_S5x65536_S5x1024x64 : S5x65536.ShapeCasts S5x1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S2000x3_S2000x3_0_0 : ∀ a, (![0, 0] : Fin 2 → Nat) a + S2000x3.size a ≤ S2000x3.size a
  h_S2000x3 : 0 < S2000x3.numel
  inb_S2000x1_S2000x1_0_0 : ∀ a, (![0, 0] : Fin 2 → Nat) a + S2000x1.size a ≤ S2000x1.size a
  h_S2000x1 : 0 < S2000x1.numel
  iota_S2000x1024_d1_w32 : S2000x1024.Iotas .tc 32 [1]
  slices_S2000x3_o0_0_S2000x1 : S2000x3.Slices ![0, 0] S2000x1
  broadcasts_S2000x1_S2000x1024 : S2000x1.Broadcasts S2000x1024
  natLt_1_32 : 1 < 32
  slices_S2000x3_o0_1_S2000x1 : S2000x3.Slices ![0, 1] S2000x1
  slices_S2000x3_o0_2_S2000x1 : S2000x3.Slices ![0, 2] S2000x1
  concatenates_S2000x64_S2000x64_S2000x64_S2000x192_d1 : Shape.Concatenates [S2000x64, S2000x64, S2000x64] S2000x192 1
  broadcasts_S2000x1_S2000x192 : S2000x1.Broadcasts S2000x192
  inb_S1x2000x192_S1x2000x192_0_0_0 : ∀ a, (![0, 0, 0] : Fin 3 → Nat) a + S1x2000x192.size a ≤ S1x2000x192.size a
  h_S1x2000x192 : 0 < S1x2000x192.numel
  shapeCasts_S1x2000x192_S2000x192 : S1x2000x192.ShapeCasts S2000x192
  shapeCasts_S2000x192_S1x2000x192 : S2000x192.ShapeCasts S1x2000x192
  slices_S5x50000x192_S1x50000x192_0_0_0 : S5x50000x192.Slices ![0, 0, 0] S1x50000x192
  shapeCasts_S1x50000x192_S50000x192 : S1x50000x192.ShapeCasts S50000x192
  slices_S5x500000_S1x500000_0_0 : S5x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x192 : S_.BroadcastsInDim S50000x192 (![] : Fin 0 → Fin S50000x192.rank)
  slices_S5x50000x192_S1x50000x192_1_0_0 : S5x50000x192.Slices ![1, 0, 0] S1x50000x192
  slices_S5x500000_S1x500000_1_0 : S5x500000.Slices ![1, 0] S1x500000
  slices_S5x50000x192_S1x50000x192_2_0_0 : S5x50000x192.Slices ![2, 0, 0] S1x50000x192
  slices_S5x500000_S1x500000_2_0 : S5x500000.Slices ![2, 0] S1x500000
  slices_S5x50000x192_S1x50000x192_3_0_0 : S5x50000x192.Slices ![3, 0, 0] S1x50000x192
  slices_S5x500000_S1x500000_3_0 : S5x500000.Slices ![3, 0] S1x500000
  slices_S5x50000x192_S1x50000x192_4_0_0 : S5x50000x192.Slices ![4, 0, 0] S1x50000x192
  slices_S5x500000_S1x500000_4_0 : S5x500000.Slices ![4, 0] S1x500000
  bcast_S50000x192_S1x50000x192_1_2 : S50000x192.BroadcastsInDim S1x50000x192 (![1, 2] : Fin 2 → Fin S1x50000x192.rank)
  concatenates_S1x50000x192_S1x50000x192_S1x50000x192_S1x50000x192_S1x50000x192_S5x50000x192_d0 : Shape.Concatenates [S1x50000x192, S1x50000x192, S1x50000x192, S1x50000x192, S1x50000x192] S5x50000x192 0
  shapeCasts_S960x256_S5x192x256 : S960x256.ShapeCasts S5x192x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x192x256_S1x192x256_0_0_0 : ∀ a, (![0, 0, 0] : Fin 3 → Nat) a + S1x192x256.size a ≤ S1x192x256.size a
  h_S1x192x256 : 0 < S1x192x256.numel
  shapeCasts_S1x192x256_S192x256 : S1x192x256.ShapeCasts S192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  dot_S5x4_S4x65536_S5x65536_1_0_0_1_n_n_wf : DotDims.WF S5x4 S4x65536 S5x65536 [1] [0] [0] [1] [] []
  dot_S2000x1024_S1024x64_S2000x64_1_0_0_1_n_n_wf : DotDims.WF S2000x1024 S1024x64 S2000x64 [1] [0] [0] [1] [] []
  gather_S50000x192_S500000x1_S500000x192_1_0_n_n_0_1_1192_wf : GatherDims.WF S50000x192 S500000x1 S500000x192 [1] [0] [] [0] [] 1 ![1, 192]
  scatter_S50000x192_S500000x1_S500000x192_1_0_0_1_wf : ScatterDims.WF S50000x192 S500000x1 S500000x192 [1] [0] [0] 1
  dot_S2000x192_S192x256_S2000x256_1_0_0_1_n_n_wf : DotDims.WF S2000x192 S192x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S5x1024x64.size a
  hwx0_0 : ∀ i : grid0.Coords, EltTy.bits .f32 = 32 ∨ (Rect.block (s := S5x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S50000x3.size a
  hwx0_1 : ∀ i : grid0.Coords, EltTy.bits .i32 = 32 ∨ (Rect.block (s := S50000x3) S2000x3.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2000x192.size a ≤ S5x50000x192.size a
  hwx0_3 : ∀ i : grid0.Coords, EltTy.bits .f32 = 32 ∨ (Rect.block (s := S5x50000x192) S1x2000x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S5x1024x64.size a
  hwx1_0 : ∀ i : grid1.Coords, EltTy.bits .f32 = 32 ∨ (Rect.block (s := S5x1024x64) S1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x3.size a ≤ S50000x3.size a
  hwx1_1 : ∀ i : grid1.Coords, EltTy.bits .i32 = 32 ∨ (Rect.block (s := S50000x3) S2000x3.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2000x192.size a ≤ S5x50000x192.size a
  hwx1_3 : ∀ i : grid1.Coords, EltTy.bits .f32 = 32 ∨ (Rect.block (s := S5x50000x192) S1x2000x192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2000x192.size a ≤ S5x50000x192.size a
  hwx2_0 : ∀ i : grid2.Coords, EltTy.bits .f32 = 32 ∨ (Rect.block (s := S5x50000x192) S1x2000x192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x192x256.size a ≤ S5x192x256.size a
  hwx2_2 : ∀ i : grid2.Coords, EltTy.bits .f32 = 32 ∨ (Rect.block (s := S5x192x256) S1x192x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2000x192.size a ≤ S5x50000x192.size a
  hwx3_0 : ∀ i : grid3.Coords, EltTy.bits .f32 = 32 ∨ (Rect.block (s := S5x50000x192) S1x2000x192.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x192x256.size a ≤ S5x192x256.size a
  hwx3_2 : ∀ i : grid3.Coords, EltTy.bits .f32 = 32 ∨ (Rect.block (s := S5x192x256) S1x192x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)

variable [Facts₀]

def dot_S5x4_S4x65536_S5x65536_1_0_0_1_n_n : DotDims S5x4 S4x65536 S5x65536 where
  lhsContracting := [1]
  rhsContracting := [0]
  lhsNonContracting := [0]
  rhsNonContracting := [1]
  lhsBatch := []
  rhsBatch := []
  wf := dot_S5x4_S4x65536_S5x65536_1_0_0_1_n_n_wf
def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def gather_S50000x192_S500000x1_S500000x192_1_0_n_n_0_1_1192 : GatherDims S50000x192 S500000x1 S500000x192 where
  offsetDims := [1]
  collapsedSliceDims := [0]
  operandBatchingDims := []
  startIndicesBatchingDims := []
  startIndexMap := [0]
  indexVectorDim := 1
  sliceSizes := ![1, 192]
  wf := gather_S50000x192_S500000x1_S500000x192_1_0_n_n_0_1_1192_wf
def scatter_S50000x192_S500000x1_S500000x192_1_0_0_1 : ScatterDims S50000x192 S500000x1 S500000x192 where
  updateWindowDims := [1]
  insertedWindowDims := [0]
  scatterDimsToOperandDims := [0]
  indexVectorDim := 1
  wf := scatter_S50000x192_S500000x1_S500000x192_1_0_0_1_wf
def dot_S2000x192_S192x256_S2000x256_1_0_0_1_n_n : DotDims S2000x192 S192x256 S2000x256 where
  lhsContracting := [1]
  rhsContracting := [0]
  lhsNonContracting := [0]
  rhsNonContracting := [1]
  lhsBatch := []
  rhsBatch := []
  wf := dot_S2000x192_S192x256_S2000x256_1_0_0_1_n_n_wf

abbrev win0_0 : Pipeline.Window sig grid0 :=
  Pipeline.Window.ofSpec (Memref.whole main_v2) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2000x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x2000x192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v176) S1x2000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v177) S1x192x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v178) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v179) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v90) S1x2000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v177) S1x192x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v178) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v180) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S50000x3 : Shape := ⟨2, ![50000, 3]⟩
abbrev S5x500000 : Shape := ⟨2, ![5, 500000]⟩
abbrev S50000x1 : Shape := ⟨2, ![50000, 1]⟩
abbrev S5x4 : Shape := ⟨2, ![5, 4]⟩
abbrev S4x1024x64 : Shape := ⟨3, ![4, 1024, 64]⟩
abbrev S960x256 : Shape := ⟨2, ![960, 256]⟩
abbrev S256 : Shape := ⟨1, ![256]⟩
abbrev S4x65536 : Shape := ⟨2, ![4, 65536]⟩
abbrev S5x65536 : Shape := ⟨2, ![5, 65536]⟩
abbrev S5x1024x64 : Shape := ⟨3, ![5, 1024, 64]⟩
abbrev S1x1024x64 : Shape := ⟨3, ![1, 1024, 64]⟩
abbrev S1024x64 : Shape := ⟨2, ![1024, 64]⟩
abbrev S50000 : Shape := ⟨1, ![50000]⟩
abbrev S_ : Shape := ⟨0, ![]⟩
abbrev S50000x64 : Shape := ⟨2, ![50000, 64]⟩
abbrev S50000x192 : Shape := ⟨2, ![50000, 192]⟩
abbrev S1x500000 : Shape := ⟨2, ![1, 500000]⟩
abbrev S500000 : Shape := ⟨1, ![500000]⟩
abbrev S500000x1 : Shape := ⟨2, ![500000, 1]⟩
abbrev S500000x192 : Shape := ⟨2, ![500000, 192]⟩
abbrev S50000x1x192 : Shape := ⟨3, ![50000, 1, 192]⟩
abbrev S50000x5x192 : Shape := ⟨3, ![50000, 5, 192]⟩
abbrev S50000x960 : Shape := ⟨2, ![50000, 960]⟩
abbrev S50000x256 : Shape := ⟨2, ![50000, 256]⟩
abbrev S1x256 : Shape := ⟨2, ![1, 256]⟩

abbrev nBuf : Space → Nat
  | .hbm => 597
  | .vmem => 0
  | .smem => 0
  | _ => 0

abbrev hbmTy0_0 (i : Nat) : BufTy := match i % 128 with
  | 0 => ⟨S50000x3, .i32⟩
  | 1 => ⟨S50000x3, .i32⟩
  | 2 => ⟨S5x500000, .i32⟩
  | 3 => ⟨S5x500000, .i32⟩
  | 4 => ⟨S50000x1, .f32⟩
  | 5 => ⟨S50000x1, .f32⟩
  | 6 => ⟨S50000x1, .f32⟩
  | 7 => ⟨S50000x1, .f32⟩
  | 8 => ⟨S5x4, .f32⟩
  | 9 => ⟨S4x1024x64, .f32⟩
  | 10 => ⟨S960x256, .f32⟩
  | 11 => ⟨S256, .f32⟩
  | 12 => ⟨S4x65536, .f32⟩
  | 13 => ⟨S5x65536, .f32⟩
  | 14 => ⟨S5x1024x64, .f32⟩
  | 15 => ⟨S1x1024x64, .f32⟩
  | 16 => ⟨S1024x64, .f32⟩
  | 17 => ⟨S50000x1, .i32⟩
  | 18 => ⟨S50000, .i32⟩
  | 19 => ⟨S_, .i32⟩
  | 20 => ⟨S50000, .i32⟩
  | 21 => ⟨S50000, .i1⟩
  | 22 => ⟨S_, .i32⟩
  | 23 => ⟨S50000, .i32⟩
  | 24 => ⟨S50000, .i32⟩
  | 25 => ⟨S50000, .i32⟩
  | 26 => ⟨S50000x1, .i32⟩
  | 27 => ⟨S50000x64, .f32⟩
  | 28 => ⟨S50000x1, .i32⟩
  | 29 => ⟨S50000, .i32⟩
  | 30 => ⟨S_, .i32⟩
  | 31 => ⟨S50000, .i32⟩
  | 32 => ⟨S50000, .i1⟩
  | 33 => ⟨S_, .i32⟩
  | 34 => ⟨S50000, .i32⟩
  | 35 => ⟨S50000, .i32⟩
  | 36 => ⟨S50000, .i32⟩
  | 37 => ⟨S50000x1, .i32⟩
  | 38 => ⟨S50000x64, .f32⟩
  | 39 => ⟨S50000x1, .i32⟩
  | 40 => ⟨S50000, .i32⟩
  | 41 => ⟨S_, .i32⟩
  | 42 => ⟨S50000, .i32⟩
  | 43 => ⟨S50000, .i1⟩
  | 44 => ⟨S_, .i32⟩
  | 45 => ⟨S50000, .i32⟩
  | 46 => ⟨S50000, .i32⟩
  | 47 => ⟨S50000, .i32⟩
  | 48 => ⟨S50000x1, .i32⟩
  | 49 => ⟨S50000x64, .f32⟩
  | 50 => ⟨S50000x192, .f32⟩
  | 51 => ⟨S50000x192, .f32⟩
  | 52 => ⟨S50000x192, .f32⟩
  | 53 => ⟨S1x500000, .i32⟩
  | 54 => ⟨S500000, .i32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x192, .f32⟩
  | 64 => ⟨S1x500000, .i32⟩
  | 65 => ⟨S500000, .i32⟩
  | 66 => ⟨S_, .f32⟩
  | 67 => ⟨S50000x192, .f32⟩
  | 68 => ⟨S500000x1, .i32⟩
  | 69 => ⟨S50000x192, .f32⟩
  | 70 => ⟨S50000x192, .f32⟩
  | 71 => ⟨S50000x192, .f32⟩
  | 72 => ⟨S50000x1, .i32⟩
  | 73 => ⟨S50000, .i32⟩
  | 74 => ⟨S_, .i32⟩
  | 75 => ⟨S50000, .i32⟩
  | 76 => ⟨S50000, .i1⟩
  | 77 => ⟨S_, .i32⟩
  | 78 => ⟨S50000, .i32⟩
  | 79 => ⟨S50000, .i32⟩
  | 80 => ⟨S50000, .i32⟩
  | 81 => ⟨S50000x1, .i32⟩
  | 82 => ⟨S50000x64, .f32⟩
  | 83 => ⟨S50000x1, .i32⟩
  | 84 => ⟨S50000, .i32⟩
  | 85 => ⟨S_, .i32⟩
  | 86 => ⟨S50000, .i32⟩
  | 87 => ⟨S50000, .i1⟩
  | 88 => ⟨S_, .i32⟩
  | 89 => ⟨S50000, .i32⟩
  | 90 => ⟨S50000, .i32⟩
  | 91 => ⟨S50000, .i32⟩
  | 92 => ⟨S50000x1, .i32⟩
  | 93 => ⟨S50000x64, .f32⟩
  | 94 => ⟨S50000x1, .i32⟩
  | 95 => ⟨S50000, .i32⟩
  | 96 => ⟨S_, .i32⟩
  | 97 => ⟨S50000, .i32⟩
  | 98 => ⟨S50000, .i1⟩
  | 99 => ⟨S_, .i32⟩
  | 100 => ⟨S50000, .i32⟩
  | 101 => ⟨S50000, .i32⟩
  | 102 => ⟨S50000, .i32⟩
  | 103 => ⟨S50000x1, .i32⟩
  | 104 => ⟨S50000x64, .f32⟩
  | 105 => ⟨S50000x192, .f32⟩
  | 106 => ⟨S50000x192, .f32⟩
  | 107 => ⟨S50000x192, .f32⟩
  | 108 => ⟨S1x500000, .i32⟩
  | 109 => ⟨S500000, .i32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000x192, .f32⟩
  | 119 => ⟨S1x500000, .i32⟩
  | 120 => ⟨S500000, .i32⟩
  | 121 => ⟨S_, .f32⟩
  | 122 => ⟨S50000x192, .f32⟩
  | 123 => ⟨S500000x1, .i32⟩
  | 124 => ⟨S50000x192, .f32⟩
  | 125 => ⟨S50000x192, .f32⟩
  | 126 => ⟨S50000x192, .f32⟩
  | 127 => ⟨S1x1024x64, .f32⟩
  | _ => ⟨S50000x3, .i32⟩

abbrev hbmTy0_1 (i : Nat) : BufTy := match i % 128 with
  | 0 => ⟨S1024x64, .f32⟩
  | 1 => ⟨S50000x1, .i32⟩
  | 2 => ⟨S50000, .i32⟩
  | 3 => ⟨S_, .i32⟩
  | 4 => ⟨S50000, .i32⟩
  | 5 => ⟨S50000, .i1⟩
  | 6 => ⟨S_, .i32⟩
  | 7 => ⟨S50000, .i32⟩
  | 8 => ⟨S50000, .i32⟩
  | 9 => ⟨S50000, .i32⟩
  | 10 => ⟨S50000x1, .i32⟩
  | 11 => ⟨S50000x64, .f32⟩
  | 12 => ⟨S50000x1, .i32⟩
  | 13 => ⟨S50000, .i32⟩
  | 14 => ⟨S_, .i32⟩
  | 15 => ⟨S50000, .i32⟩
  | 16 => ⟨S50000, .i1⟩
  | 17 => ⟨S_, .i32⟩
  | 18 => ⟨S50000, .i32⟩
  | 19 => ⟨S50000, .i32⟩
  | 20 => ⟨S50000, .i32⟩
  | 21 => ⟨S50000x1, .i32⟩
  | 22 => ⟨S50000x64, .f32⟩
  | 23 => ⟨S50000x1, .i32⟩
  | 24 => ⟨S50000, .i32⟩
  | 25 => ⟨S_, .i32⟩
  | 26 => ⟨S50000, .i32⟩
  | 27 => ⟨S50000, .i1⟩
  | 28 => ⟨S_, .i32⟩
  | 29 => ⟨S50000, .i32⟩
  | 30 => ⟨S50000, .i32⟩
  | 31 => ⟨S50000, .i32⟩
  | 32 => ⟨S50000x1, .i32⟩
  | 33 => ⟨S50000x64, .f32⟩
  | 34 => ⟨S50000x192, .f32⟩
  | 35 => ⟨S50000x192, .f32⟩
  | 36 => ⟨S50000x192, .f32⟩
  | 37 => ⟨S1x500000, .i32⟩
  | 38 => ⟨S500000, .i32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x192, .f32⟩
  | 48 => ⟨S1x500000, .i32⟩
  | 49 => ⟨S500000, .i32⟩
  | 50 => ⟨S_, .f32⟩
  | 51 => ⟨S50000x192, .f32⟩
  | 52 => ⟨S500000x1, .i32⟩
  | 53 => ⟨S50000x192, .f32⟩
  | 54 => ⟨S50000x192, .f32⟩
  | 55 => ⟨S50000x192, .f32⟩
  | 56 => ⟨S50000x1, .i32⟩
  | 57 => ⟨S50000, .i32⟩
  | 58 => ⟨S_, .i32⟩
  | 59 => ⟨S50000, .i32⟩
  | 60 => ⟨S50000, .i1⟩
  | 61 => ⟨S_, .i32⟩
  | 62 => ⟨S50000, .i32⟩
  | 63 => ⟨S50000, .i32⟩
  | 64 => ⟨S50000, .i32⟩
  | 65 => ⟨S50000x1, .i32⟩
  | 66 => ⟨S50000x64, .f32⟩
  | 67 => ⟨S50000x1, .i32⟩
  | 68 => ⟨S50000, .i32⟩
  | 69 => ⟨S_, .i32⟩
  | 70 => ⟨S50000, .i32⟩
  | 71 => ⟨S50000, .i1⟩
  | 72 => ⟨S_, .i32⟩
  | 73 => ⟨S50000, .i32⟩
  | 74 => ⟨S50000, .i32⟩
  | 75 => ⟨S50000, .i32⟩
  | 76 => ⟨S50000x1, .i32⟩
  | 77 => ⟨S50000x64, .f32⟩
  | 78 => ⟨S50000x1, .i32⟩
  | 79 => ⟨S50000, .i32⟩
  | 80 => ⟨S_, .i32⟩
  | 81 => ⟨S50000, .i32⟩
  | 82 => ⟨S50000, .i1⟩
  | 83 => ⟨S_, .i32⟩
  | 84 => ⟨S50000, .i32⟩
  | 85 => ⟨S50000, .i32⟩
  | 86 => ⟨S50000, .i32⟩
  | 87 => ⟨S50000x1, .i32⟩
  | 88 => ⟨S50000x64, .f32⟩
  | 89 => ⟨S50000x192, .f32⟩
  | 90 => ⟨S50000x192, .f32⟩
  | 91 => ⟨S50000x192, .f32⟩
  | 92 => ⟨S1x500000, .i32⟩
  | 93 => ⟨S500000, .i32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x192, .f32⟩
  | 103 => ⟨S1x500000, .i32⟩
  | 104 => ⟨S500000, .i32⟩
  | 105 => ⟨S_, .f32⟩
  | 106 => ⟨S50000x192, .f32⟩
  | 107 => ⟨S500000x1, .i32⟩
  | 108 => ⟨S50000x192, .f32⟩
  | 109 => ⟨S50000x192, .f32⟩
  | 110 => ⟨S50000x192, .f32⟩
  | 111 => ⟨S1x1024x64, .f32⟩
  | 112 => ⟨S1024x64, .f32⟩
  | 113 => ⟨S50000x1, .i32⟩
  | 114 => ⟨S50000, .i32⟩
  | 115 => ⟨S_, .i32⟩
  | 116 => ⟨S50000, .i32⟩
  | 117 => ⟨S50000, .i1⟩
  | 118 => ⟨S_, .i32⟩
  | 119 => ⟨S50000, .i32⟩
  | 120 => ⟨S50000, .i32⟩
  | 121 => ⟨S50000, .i32⟩
  | 122 => ⟨S50000x1, .i32⟩
  | 123 => ⟨S50000x64, .f32⟩
  | 124 => ⟨S50000x1, .i32⟩
  | 125 => ⟨S50000, .i32⟩
  | 126 => ⟨S_, .i32⟩
  | 127 => ⟨S50000, .i32⟩
  | _ => ⟨S50000x3, .i32⟩

abbrev hbmTy0_2 (i : Nat) : BufTy := match i % 128 with
  | 0 => ⟨S50000, .i1⟩
  | 1 => ⟨S_, .i32⟩
  | 2 => ⟨S50000, .i32⟩
  | 3 => ⟨S50000, .i32⟩
  | 4 => ⟨S50000, .i32⟩
  | 5 => ⟨S50000x1, .i32⟩
  | 6 => ⟨S50000x64, .f32⟩
  | 7 => ⟨S50000x1, .i32⟩
  | 8 => ⟨S50000, .i32⟩
  | 9 => ⟨S_, .i32⟩
  | 10 => ⟨S50000, .i32⟩
  | 11 => ⟨S50000, .i1⟩
  | 12 => ⟨S_, .i32⟩
  | 13 => ⟨S50000, .i32⟩
  | 14 => ⟨S50000, .i32⟩
  | 15 => ⟨S50000, .i32⟩
  | 16 => ⟨S50000x1, .i32⟩
  | 17 => ⟨S50000x64, .f32⟩
  | 18 => ⟨S50000x192, .f32⟩
  | 19 => ⟨S50000x192, .f32⟩
  | 20 => ⟨S50000x192, .f32⟩
  | 21 => ⟨S1x500000, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x192, .f32⟩
  | 32 => ⟨S1x500000, .i32⟩
  | 33 => ⟨S500000, .i32⟩
  | 34 => ⟨S_, .f32⟩
  | 35 => ⟨S50000x192, .f32⟩
  | 36 => ⟨S500000x1, .i32⟩
  | 37 => ⟨S50000x192, .f32⟩
  | 38 => ⟨S50000x192, .f32⟩
  | 39 => ⟨S50000x192, .f32⟩
  | 40 => ⟨S50000x1, .i32⟩
  | 41 => ⟨S50000, .i32⟩
  | 42 => ⟨S_, .i32⟩
  | 43 => ⟨S50000, .i32⟩
  | 44 => ⟨S50000, .i1⟩
  | 45 => ⟨S_, .i32⟩
  | 46 => ⟨S50000, .i32⟩
  | 47 => ⟨S50000, .i32⟩
  | 48 => ⟨S50000, .i32⟩
  | 49 => ⟨S50000x1, .i32⟩
  | 50 => ⟨S50000x64, .f32⟩
  | 51 => ⟨S50000x1, .i32⟩
  | 52 => ⟨S50000, .i32⟩
  | 53 => ⟨S_, .i32⟩
  | 54 => ⟨S50000, .i32⟩
  | 55 => ⟨S50000, .i1⟩
  | 56 => ⟨S_, .i32⟩
  | 57 => ⟨S50000, .i32⟩
  | 58 => ⟨S50000, .i32⟩
  | 59 => ⟨S50000, .i32⟩
  | 60 => ⟨S50000x1, .i32⟩
  | 61 => ⟨S50000x64, .f32⟩
  | 62 => ⟨S50000x1, .i32⟩
  | 63 => ⟨S50000, .i32⟩
  | 64 => ⟨S_, .i32⟩
  | 65 => ⟨S50000, .i32⟩
  | 66 => ⟨S50000, .i1⟩
  | 67 => ⟨S_, .i32⟩
  | 68 => ⟨S50000, .i32⟩
  | 69 => ⟨S50000, .i32⟩
  | 70 => ⟨S50000, .i32⟩
  | 71 => ⟨S50000x1, .i32⟩
  | 72 => ⟨S50000x64, .f32⟩
  | 73 => ⟨S50000x192, .f32⟩
  | 74 => ⟨S50000x192, .f32⟩
  | 75 => ⟨S50000x192, .f32⟩
  | 76 => ⟨S1x500000, .i32⟩
  | 77 => ⟨S500000, .i32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S500000x192, .f32⟩
  | 87 => ⟨S1x500000, .i32⟩
  | 88 => ⟨S500000, .i32⟩
  | 89 => ⟨S_, .f32⟩
  | 90 => ⟨S50000x192, .f32⟩
  | 91 => ⟨S500000x1, .i32⟩
  | 92 => ⟨S50000x192, .f32⟩
  | 93 => ⟨S50000x192, .f32⟩
  | 94 => ⟨S50000x192, .f32⟩
  | 95 => ⟨S1x1024x64, .f32⟩
  | 96 => ⟨S1024x64, .f32⟩
  | 97 => ⟨S50000x1, .i32⟩
  | 98 => ⟨S50000, .i32⟩
  | 99 => ⟨S_, .i32⟩
  | 100 => ⟨S50000, .i32⟩
  | 101 => ⟨S50000, .i1⟩
  | 102 => ⟨S_, .i32⟩
  | 103 => ⟨S50000, .i32⟩
  | 104 => ⟨S50000, .i32⟩
  | 105 => ⟨S50000, .i32⟩
  | 106 => ⟨S50000x1, .i32⟩
  | 107 => ⟨S50000x64, .f32⟩
  | 108 => ⟨S50000x1, .i32⟩
  | 109 => ⟨S50000, .i32⟩
  | 110 => ⟨S_, .i32⟩
  | 111 => ⟨S50000, .i32⟩
  | 112 => ⟨S50000, .i1⟩
  | 113 => ⟨S_, .i32⟩
  | 114 => ⟨S50000, .i32⟩
  | 115 => ⟨S50000, .i32⟩
  | 116 => ⟨S50000, .i32⟩
  | 117 => ⟨S50000x1, .i32⟩
  | 118 => ⟨S50000x64, .f32⟩
  | 119 => ⟨S50000x1, .i32⟩
  | 120 => ⟨S50000, .i32⟩
  | 121 => ⟨S_, .i32⟩
  | 122 => ⟨S50000, .i32⟩
  | 123 => ⟨S50000, .i1⟩
  | 124 => ⟨S_, .i32⟩
  | 125 => ⟨S50000, .i32⟩
  | 126 => ⟨S50000, .i32⟩
  | 127 => ⟨S50000, .i32⟩
  | _ => ⟨S50000x3, .i32⟩

abbrev hbmTy0_3 (i : Nat) : BufTy := match i % 128 with
  | 0 => ⟨S50000x1, .i32⟩
  | 1 => ⟨S50000x64, .f32⟩
  | 2 => ⟨S50000x192, .f32⟩
  | 3 => ⟨S50000x192, .f32⟩
  | 4 => ⟨S50000x192, .f32⟩
  | 5 => ⟨S1x500000, .i32⟩
  | 6 => ⟨S500000, .i32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x192, .f32⟩
  | 16 => ⟨S1x500000, .i32⟩
  | 17 => ⟨S500000, .i32⟩
  | 18 => ⟨S_, .f32⟩
  | 19 => ⟨S50000x192, .f32⟩
  | 20 => ⟨S500000x1, .i32⟩
  | 21 => ⟨S50000x192, .f32⟩
  | 22 => ⟨S50000x192, .f32⟩
  | 23 => ⟨S50000x192, .f32⟩
  | 24 => ⟨S50000x1, .i32⟩
  | 25 => ⟨S50000, .i32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x64, .f32⟩
  | 35 => ⟨S50000x1, .i32⟩
  | 36 => ⟨S50000, .i32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S50000x64, .f32⟩
  | 46 => ⟨S50000x1, .i32⟩
  | 47 => ⟨S50000, .i32⟩
  | 48 => ⟨S_, .i32⟩
  | 49 => ⟨S50000, .i32⟩
  | 50 => ⟨S50000, .i1⟩
  | 51 => ⟨S_, .i32⟩
  | 52 => ⟨S50000, .i32⟩
  | 53 => ⟨S50000, .i32⟩
  | 54 => ⟨S50000, .i32⟩
  | 55 => ⟨S50000x1, .i32⟩
  | 56 => ⟨S50000x64, .f32⟩
  | 57 => ⟨S50000x192, .f32⟩
  | 58 => ⟨S50000x192, .f32⟩
  | 59 => ⟨S50000x192, .f32⟩
  | 60 => ⟨S1x500000, .i32⟩
  | 61 => ⟨S500000, .i32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x192, .f32⟩
  | 71 => ⟨S1x500000, .i32⟩
  | 72 => ⟨S500000, .i32⟩
  | 73 => ⟨S_, .f32⟩
  | 74 => ⟨S50000x192, .f32⟩
  | 75 => ⟨S500000x1, .i32⟩
  | 76 => ⟨S50000x192, .f32⟩
  | 77 => ⟨S50000x192, .f32⟩
  | 78 => ⟨S50000x192, .f32⟩
  | 79 => ⟨S1x1024x64, .f32⟩
  | 80 => ⟨S1024x64, .f32⟩
  | 81 => ⟨S50000x1, .i32⟩
  | 82 => ⟨S50000, .i32⟩
  | 83 => ⟨S_, .i32⟩
  | 84 => ⟨S50000, .i32⟩
  | 85 => ⟨S50000, .i1⟩
  | 86 => ⟨S_, .i32⟩
  | 87 => ⟨S50000, .i32⟩
  | 88 => ⟨S50000, .i32⟩
  | 89 => ⟨S50000, .i32⟩
  | 90 => ⟨S50000x1, .i32⟩
  | 91 => ⟨S50000x64, .f32⟩
  | 92 => ⟨S50000x1, .i32⟩
  | 93 => ⟨S50000, .i32⟩
  | 94 => ⟨S_, .i32⟩
  | 95 => ⟨S50000, .i32⟩
  | 96 => ⟨S50000, .i1⟩
  | 97 => ⟨S_, .i32⟩
  | 98 => ⟨S50000, .i32⟩
  | 99 => ⟨S50000, .i32⟩
  | 100 => ⟨S50000, .i32⟩
  | 101 => ⟨S50000x1, .i32⟩
  | 102 => ⟨S50000x64, .f32⟩
  | 103 => ⟨S50000x1, .i32⟩
  | 104 => ⟨S50000, .i32⟩
  | 105 => ⟨S_, .i32⟩
  | 106 => ⟨S50000, .i32⟩
  | 107 => ⟨S50000, .i1⟩
  | 108 => ⟨S_, .i32⟩
  | 109 => ⟨S50000, .i32⟩
  | 110 => ⟨S50000, .i32⟩
  | 111 => ⟨S50000, .i32⟩
  | 112 => ⟨S50000x1, .i32⟩
  | 113 => ⟨S50000x64, .f32⟩
  | 114 => ⟨S50000x192, .f32⟩
  | 115 => ⟨S50000x192, .f32⟩
  | 116 => ⟨S50000x192, .f32⟩
  | 117 => ⟨S1x500000, .i32⟩
  | 118 => ⟨S500000, .i32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S500000x1, .i32⟩
  | 127 => ⟨S500000x192, .f32⟩
  | _ => ⟨S50000x3, .i32⟩

abbrev hbmTy0_4 (i : Nat) : BufTy := match i % 128 with
  | 0 => ⟨S1x500000, .i32⟩
  | 1 => ⟨S500000, .i32⟩
  | 2 => ⟨S_, .f32⟩
  | 3 => ⟨S50000x192, .f32⟩
  | 4 => ⟨S500000x1, .i32⟩
  | 5 => ⟨S50000x192, .f32⟩
  | 6 => ⟨S50000x192, .f32⟩
  | 7 => ⟨S50000x192, .f32⟩
  | 8 => ⟨S50000x1, .i32⟩
  | 9 => ⟨S50000, .i32⟩
  | 10 => ⟨S_, .i32⟩
  | 11 => ⟨S50000, .i32⟩
  | 12 => ⟨S50000, .i1⟩
  | 13 => ⟨S_, .i32⟩
  | 14 => ⟨S50000, .i32⟩
  | 15 => ⟨S50000, .i32⟩
  | 16 => ⟨S50000, .i32⟩
  | 17 => ⟨S50000x1, .i32⟩
  | 18 => ⟨S50000x64, .f32⟩
  | 19 => ⟨S50000x1, .i32⟩
  | 20 => ⟨S50000, .i32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S50000x64, .f32⟩
  | 30 => ⟨S50000x1, .i32⟩
  | 31 => ⟨S50000, .i32⟩
  | 32 => ⟨S_, .i32⟩
  | 33 => ⟨S50000, .i32⟩
  | 34 => ⟨S50000, .i1⟩
  | 35 => ⟨S_, .i32⟩
  | 36 => ⟨S50000, .i32⟩
  | 37 => ⟨S50000, .i32⟩
  | 38 => ⟨S50000, .i32⟩
  | 39 => ⟨S50000x1, .i32⟩
  | 40 => ⟨S50000x64, .f32⟩
  | 41 => ⟨S50000x192, .f32⟩
  | 42 => ⟨S50000x192, .f32⟩
  | 43 => ⟨S50000x192, .f32⟩
  | 44 => ⟨S1x500000, .i32⟩
  | 45 => ⟨S500000, .i32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x192, .f32⟩
  | 55 => ⟨S1x500000, .i32⟩
  | 56 => ⟨S500000, .i32⟩
  | 57 => ⟨S_, .f32⟩
  | 58 => ⟨S50000x192, .f32⟩
  | 59 => ⟨S500000x1, .i32⟩
  | 60 => ⟨S50000x192, .f32⟩
  | 61 => ⟨S50000x192, .f32⟩
  | 62 => ⟨S50000x192, .f32⟩
  | 63 => ⟨S50000x1x192, .f32⟩
  | 64 => ⟨S50000x1x192, .f32⟩
  | 65 => ⟨S50000x1x192, .f32⟩
  | 66 => ⟨S50000x1x192, .f32⟩
  | 67 => ⟨S50000x1x192, .f32⟩
  | 68 => ⟨S50000x5x192, .f32⟩
  | 69 => ⟨S50000x960, .f32⟩
  | 70 => ⟨S50000x1x192, .f32⟩
  | 71 => ⟨S50000x1x192, .f32⟩
  | 72 => ⟨S50000x1x192, .f32⟩
  | 73 => ⟨S50000x1x192, .f32⟩
  | 74 => ⟨S50000x1x192, .f32⟩
  | 75 => ⟨S50000x5x192, .f32⟩
  | 76 => ⟨S50000x960, .f32⟩
  | 77 => ⟨S50000x256, .f32⟩
  | 78 => ⟨S1x256, .f32⟩
  | 79 => ⟨S50000x256, .f32⟩
  | 80 => ⟨S50000x256, .f32⟩
  | 81 => ⟨S50000x256, .f32⟩
  | 82 => ⟨S1x256, .f32⟩
  | 83 => ⟨S50000x256, .f32⟩
  | 84 => ⟨S50000x256, .f32⟩
  | _ => ⟨S50000x3, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x3, .i32⟩

abbrev bufTy : (tb : Table) → Fin (tcTables nBuf tb) → BufTy
  | .hbm, ⟨i, _⟩ => hbmTy i
  | _, _ => ⟨S50000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_7 : Ref sig .tc := ⟨.hbm, 74, rfl⟩
abbrev main_v53 : Ref sig .tc := ⟨.hbm, 75, rfl⟩
abbrev main_v54 : Ref sig .tc := ⟨.hbm, 76, rfl⟩
abbrev main_c_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_11 : Ref sig .tc := ⟨.hbm, 96, rfl⟩
abbrev main_v71 : Ref sig .tc := ⟨.hbm, 97, rfl⟩
abbrev main_v72 : Ref sig .tc := ⟨.hbm, 98, rfl⟩
abbrev main_c_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_13 : Ref sig .tc := ⟨.hbm, 110, rfl⟩
abbrev main_v83 : Ref sig .tc := ⟨.hbm, 111, rfl⟩
abbrev main_v84 : Ref sig .tc := ⟨.hbm, 112, rfl⟩
abbrev main_c_14 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_15 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c_16 : Ref sig .tc := ⟨.hbm, 131, rfl⟩
abbrev main_v101 : Ref sig .tc := ⟨.hbm, 132, rfl⟩
abbrev main_v102 : Ref sig .tc := ⟨.hbm, 133, rfl⟩
abbrev main_c_17 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_c_18 : Ref sig .tc := ⟨.hbm, 142, rfl⟩
abbrev main_v110 : Ref sig .tc := ⟨.hbm, 143, rfl⟩
abbrev main_v111 : Ref sig .tc := ⟨.hbm, 144, rfl⟩
abbrev main_c_19 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_c_20 : Ref sig .tc := ⟨.hbm, 153, rfl⟩
abbrev main_v119 : Ref sig .tc := ⟨.hbm, 154, rfl⟩
abbrev main_v120 : Ref sig .tc := ⟨.hbm, 155, rfl⟩
abbrev main_c_21 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_c_22 : Ref sig .tc := ⟨.hbm, 167, rfl⟩
abbrev main_v131 : Ref sig .tc := ⟨.hbm, 168, rfl⟩
abbrev main_v132 : Ref sig .tc := ⟨.hbm, 169, rfl⟩
abbrev main_c_23 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_24 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_c_25 : Ref sig .tc := ⟨.hbm, 186, rfl⟩
abbrev main_v147 : Ref sig .tc := ⟨.hbm, 187, rfl⟩
abbrev main_v148 : Ref sig .tc := ⟨.hbm, 188, rfl⟩
abbrev main_c_26 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_c_27 : Ref sig .tc := ⟨.hbm, 197, rfl⟩
abbrev main_v156 : Ref sig .tc := ⟨.hbm, 198, rfl⟩
abbrev main_v157 : Ref sig .tc := ⟨.hbm, 199, rfl⟩
abbrev main_c_28 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_c_29 : Ref sig .tc := ⟨.hbm, 208, rfl⟩
abbrev main_v165 : Ref sig .tc := ⟨.hbm, 209, rfl⟩
abbrev main_v166 : Ref sig .tc := ⟨.hbm, 210, rfl⟩
abbrev main_c_30 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_c_31 : Ref sig .tc := ⟨.hbm, 222, rfl⟩
abbrev main_v177 : Ref sig .tc := ⟨.hbm, 223, rfl⟩
abbrev main_v178 : Ref sig .tc := ⟨.hbm, 224, rfl⟩
abbrev main_c_32 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_cst_33 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_c_34 : Ref sig .tc := ⟨.hbm, 243, rfl⟩
abbrev main_v195 : Ref sig .tc := ⟨.hbm, 244, rfl⟩
abbrev main_v196 : Ref sig .tc := ⟨.hbm, 245, rfl⟩
abbrev main_c_35 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_c_36 : Ref sig .tc := ⟨.hbm, 254, rfl⟩
abbrev main_v204 : Ref sig .tc := ⟨.hbm, 255, rfl⟩
abbrev main_v205 : Ref sig .tc := ⟨.hbm, 256, rfl⟩
abbrev main_c_37 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_c_38 : Ref sig .tc := ⟨.hbm, 265, rfl⟩
abbrev main_v213 : Ref sig .tc := ⟨.hbm, 266, rfl⟩
abbrev main_v214 : Ref sig .tc := ⟨.hbm, 267, rfl⟩
abbrev main_c_39 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_c_40 : Ref sig .tc := ⟨.hbm, 279, rfl⟩
abbrev main_v225 : Ref sig .tc := ⟨.hbm, 280, rfl⟩
abbrev main_v226 : Ref sig .tc := ⟨.hbm, 281, rfl⟩
abbrev main_c_41 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_cst_42 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_c_43 : Ref sig .tc := ⟨.hbm, 298, rfl⟩
abbrev main_v241 : Ref sig .tc := ⟨.hbm, 299, rfl⟩
abbrev main_v242 : Ref sig .tc := ⟨.hbm, 300, rfl⟩
abbrev main_c_44 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_c_45 : Ref sig .tc := ⟨.hbm, 309, rfl⟩
abbrev main_v250 : Ref sig .tc := ⟨.hbm, 310, rfl⟩
abbrev main_v251 : Ref sig .tc := ⟨.hbm, 311, rfl⟩
abbrev main_c_46 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_c_47 : Ref sig .tc := ⟨.hbm, 320, rfl⟩
abbrev main_v259 : Ref sig .tc := ⟨.hbm, 321, rfl⟩
abbrev main_v260 : Ref sig .tc := ⟨.hbm, 322, rfl⟩
abbrev main_c_48 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_c_49 : Ref sig .tc := ⟨.hbm, 334, rfl⟩
abbrev main_v271 : Ref sig .tc := ⟨.hbm, 335, rfl⟩
abbrev main_v272 : Ref sig .tc := ⟨.hbm, 336, rfl⟩
abbrev main_c_50 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_cst_51 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩
abbrev main_v286 : Ref sig .tc := ⟨.hbm, 352, rfl⟩
abbrev main_v287 : Ref sig .tc := ⟨.hbm, 353, rfl⟩
abbrev main_v288 : Ref sig .tc := ⟨.hbm, 354, rfl⟩
abbrev main_c_52 : Ref sig .tc := ⟨.hbm, 355, rfl⟩
abbrev main_v289 : Ref sig .tc := ⟨.hbm, 356, rfl⟩
abbrev main_v290 : Ref sig .tc := ⟨.hbm, 357, rfl⟩
abbrev main_c_53 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_c_54 : Ref sig .tc := ⟨.hbm, 366, rfl⟩
abbrev main_v298 : Ref sig .tc := ⟨.hbm, 367, rfl⟩
abbrev main_v299 : Ref sig .tc := ⟨.hbm, 368, rfl⟩
abbrev main_c_55 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_c_56 : Ref sig .tc := ⟨.hbm, 377, rfl⟩
abbrev main_v307 : Ref sig .tc := ⟨.hbm, 378, rfl⟩
abbrev main_v308 : Ref sig .tc := ⟨.hbm, 379, rfl⟩
abbrev main_c_57 : Ref sig .tc := ⟨.hbm, 380, rfl⟩
abbrev main_v309 : Ref sig .tc := ⟨.hbm, 381, rfl⟩
abbrev main_v310 : Ref sig .tc := ⟨.hbm, 382, rfl⟩
abbrev main_v311 : Ref sig .tc := ⟨.hbm, 383, rfl⟩
abbrev main_v312 : Ref sig .tc := ⟨.hbm, 384, rfl⟩
abbrev main_v313 : Ref sig .tc := ⟨.hbm, 385, rfl⟩
abbrev main_v314 : Ref sig .tc := ⟨.hbm, 386, rfl⟩
abbrev main_v315 : Ref sig .tc := ⟨.hbm, 387, rfl⟩
abbrev main_v316 : Ref sig .tc := ⟨.hbm, 388, rfl⟩
abbrev main_v317 : Ref sig .tc := ⟨.hbm, 389, rfl⟩
abbrev main_v318 : Ref sig .tc := ⟨.hbm, 390, rfl⟩
abbrev main_c_58 : Ref sig .tc := ⟨.hbm, 391, rfl⟩
abbrev main_v319 : Ref sig .tc := ⟨.hbm, 392, rfl⟩
abbrev main_v320 : Ref sig .tc := ⟨.hbm, 393, rfl⟩
abbrev main_c_59 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_v327 : Ref sig .tc := ⟨.hbm, 401, rfl⟩
abbrev main_cst_60 : Ref sig .tc := ⟨.hbm, 402, rfl⟩
abbrev main_v328 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_c_61 : Ref sig .tc := ⟨.hbm, 410, rfl⟩
abbrev main_v335 : Ref sig .tc := ⟨.hbm, 411, rfl⟩
abbrev main_v336 : Ref sig .tc := ⟨.hbm, 412, rfl⟩
abbrev main_c_62 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_v342 : Ref sig .tc := ⟨.hbm, 419, rfl⟩
abbrev main_v343 : Ref sig .tc := ⟨.hbm, 420, rfl⟩
abbrev main_c_63 : Ref sig .tc := ⟨.hbm, 421, rfl⟩
abbrev main_v344 : Ref sig .tc := ⟨.hbm, 422, rfl⟩
abbrev main_v345 : Ref sig .tc := ⟨.hbm, 423, rfl⟩
abbrev main_c_64 : Ref sig .tc := ⟨.hbm, 424, rfl⟩
abbrev main_v346 : Ref sig .tc := ⟨.hbm, 425, rfl⟩
abbrev main_v347 : Ref sig .tc := ⟨.hbm, 426, rfl⟩
abbrev main_v348 : Ref sig .tc := ⟨.hbm, 427, rfl⟩
abbrev main_v349 : Ref sig .tc := ⟨.hbm, 428, rfl⟩
abbrev main_v350 : Ref sig .tc := ⟨.hbm, 429, rfl⟩
abbrev main_v351 : Ref sig .tc := ⟨.hbm, 430, rfl⟩
abbrev main_v352 : Ref sig .tc := ⟨.hbm, 431, rfl⟩
abbrev main_c_65 : Ref sig .tc := ⟨.hbm, 432, rfl⟩
abbrev main_v353 : Ref sig .tc := ⟨.hbm, 433, rfl⟩
abbrev main_v354 : Ref sig .tc := ⟨.hbm, 434, rfl⟩
abbrev main_c_66 : Ref sig .tc := ⟨.hbm, 435, rfl⟩
abbrev main_v355 : Ref sig .tc := ⟨.hbm, 436, rfl⟩
abbrev main_v356 : Ref sig .tc := ⟨.hbm, 437, rfl⟩
abbrev main_v357 : Ref sig .tc := ⟨.hbm, 438, rfl⟩
abbrev main_v358 : Ref sig .tc := ⟨.hbm, 439, rfl⟩
abbrev main_v359 : Ref sig .tc := ⟨.hbm, 440, rfl⟩
abbrev main_v360 : Ref sig .tc := ⟨.hbm, 441, rfl⟩
abbrev main_v361 : Ref sig .tc := ⟨.hbm, 442, rfl⟩
abbrev main_v362 : Ref sig .tc := ⟨.hbm, 443, rfl⟩
abbrev main_v363 : Ref sig .tc := ⟨.hbm, 444, rfl⟩
abbrev main_v364 : Ref sig .tc := ⟨.hbm, 445, rfl⟩
abbrev main_c_67 : Ref sig .tc := ⟨.hbm, 446, rfl⟩
abbrev main_v365 : Ref sig .tc := ⟨.hbm, 447, rfl⟩
abbrev main_v366 : Ref sig .tc := ⟨.hbm, 448, rfl⟩
abbrev main_c_68 : Ref sig .tc := ⟨.hbm, 449, rfl⟩
abbrev main_v367 : Ref sig .tc := ⟨.hbm, 450, rfl⟩
abbrev main_v368 : Ref sig .tc := ⟨.hbm, 451, rfl⟩
abbrev main_v369 : Ref sig .tc := ⟨.hbm, 452, rfl⟩
abbrev main_v370 : Ref sig .tc := ⟨.hbm, 453, rfl⟩
abbrev main_v371 : Ref sig .tc := ⟨.hbm, 454, rfl⟩
abbrev main_v372 : Ref sig .tc := ⟨.hbm, 455, rfl⟩
abbrev main_v373 : Ref sig .tc := ⟨.hbm, 456, rfl⟩
abbrev main_cst_69 : Ref sig .tc := ⟨.hbm, 457, rfl⟩
abbrev main_v374 : Ref sig .tc := ⟨.hbm, 458, rfl⟩
abbrev main_v375 : Ref sig .tc := ⟨.hbm, 459, rfl⟩
abbrev main_v376 : Ref sig .tc := ⟨.hbm, 460, rfl⟩
abbrev main_v377 : Ref sig .tc := ⟨.hbm, 461, rfl⟩
abbrev main_v378 : Ref sig .tc := ⟨.hbm, 462, rfl⟩
abbrev main_v379 : Ref sig .tc := ⟨.hbm, 463, rfl⟩
abbrev main_v380 : Ref sig .tc := ⟨.hbm, 464, rfl⟩
abbrev main_v381 : Ref sig .tc := ⟨.hbm, 465, rfl⟩
abbrev main_v382 : Ref sig .tc := ⟨.hbm, 466, rfl⟩
abbrev main_c_70 : Ref sig .tc := ⟨.hbm, 467, rfl⟩
abbrev main_v383 : Ref sig .tc := ⟨.hbm, 468, rfl⟩
abbrev main_v384 : Ref sig .tc := ⟨.hbm, 469, rfl⟩
abbrev main_c_71 : Ref sig .tc := ⟨.hbm, 470, rfl⟩
abbrev main_v385 : Ref sig .tc := ⟨.hbm, 471, rfl⟩
abbrev main_v386 : Ref sig .tc := ⟨.hbm, 472, rfl⟩
abbrev main_v387 : Ref sig .tc := ⟨.hbm, 473, rfl⟩
abbrev main_v388 : Ref sig .tc := ⟨.hbm, 474, rfl⟩
abbrev main_v389 : Ref sig .tc := ⟨.hbm, 475, rfl⟩
abbrev main_v390 : Ref sig .tc := ⟨.hbm, 476, rfl⟩
abbrev main_v391 : Ref sig .tc := ⟨.hbm, 477, rfl⟩
abbrev main_c_72 : Ref sig .tc := ⟨.hbm, 478, rfl⟩
abbrev main_v392 : Ref sig .tc := ⟨.hbm, 479, rfl⟩
abbrev main_v393 : Ref sig .tc := ⟨.hbm, 480, rfl⟩
abbrev main_c_73 : Ref sig .tc := ⟨.hbm, 481, rfl⟩
abbrev main_v394 : Ref sig .tc := ⟨.hbm, 482, rfl⟩
abbrev main_v395 : Ref sig .tc := ⟨.hbm, 483, rfl⟩
abbrev main_v396 : Ref sig .tc := ⟨.hbm, 484, rfl⟩
abbrev main_v397 : Ref sig .tc := ⟨.hbm, 485, rfl⟩
abbrev main_v398 : Ref sig .tc := ⟨.hbm, 486, rfl⟩
abbrev main_v399 : Ref sig .tc := ⟨.hbm, 487, rfl⟩
abbrev main_v400 : Ref sig .tc := ⟨.hbm, 488, rfl⟩
abbrev main_c_74 : Ref sig .tc := ⟨.hbm, 489, rfl⟩
abbrev main_v401 : Ref sig .tc := ⟨.hbm, 490, rfl⟩
abbrev main_v402 : Ref sig .tc := ⟨.hbm, 491, rfl⟩
abbrev main_c_75 : Ref sig .tc := ⟨.hbm, 492, rfl⟩
abbrev main_v403 : Ref sig .tc := ⟨.hbm, 493, rfl⟩
abbrev main_v404 : Ref sig .tc := ⟨.hbm, 494, rfl⟩
abbrev main_v405 : Ref sig .tc := ⟨.hbm, 495, rfl⟩
abbrev main_v406 : Ref sig .tc := ⟨.hbm, 496, rfl⟩
abbrev main_v407 : Ref sig .tc := ⟨.hbm, 497, rfl⟩
abbrev main_v408 : Ref sig .tc := ⟨.hbm, 498, rfl⟩
abbrev main_v409 : Ref sig .tc := ⟨.hbm, 499, rfl⟩
abbrev main_v410 : Ref sig .tc := ⟨.hbm, 500, rfl⟩
abbrev main_v411 : Ref sig .tc := ⟨.hbm, 501, rfl⟩
abbrev main_v412 : Ref sig .tc := ⟨.hbm, 502, rfl⟩
abbrev main_c_76 : Ref sig .tc := ⟨.hbm, 503, rfl⟩
abbrev main_v413 : Ref sig .tc := ⟨.hbm, 504, rfl⟩
abbrev main_v414 : Ref sig .tc := ⟨.hbm, 505, rfl⟩
abbrev main_c_77 : Ref sig .tc := ⟨.hbm, 506, rfl⟩
abbrev main_v415 : Ref sig .tc := ⟨.hbm, 507, rfl⟩
abbrev main_v416 : Ref sig .tc := ⟨.hbm, 508, rfl⟩
abbrev main_v417 : Ref sig .tc := ⟨.hbm, 509, rfl⟩
abbrev main_v418 : Ref sig .tc := ⟨.hbm, 510, rfl⟩
abbrev main_v419 : Ref sig .tc := ⟨.hbm, 511, rfl⟩
abbrev main_v420 : Ref sig .tc := ⟨.hbm, 512, rfl⟩
abbrev main_v421 : Ref sig .tc := ⟨.hbm, 513, rfl⟩
abbrev main_cst_78 : Ref sig .tc := ⟨.hbm, 514, rfl⟩
abbrev main_v422 : Ref sig .tc := ⟨.hbm, 515, rfl⟩
abbrev main_v423 : Ref sig .tc := ⟨.hbm, 516, rfl⟩
abbrev main_v424 : Ref sig .tc := ⟨.hbm, 517, rfl⟩
abbrev main_v425 : Ref sig .tc := ⟨.hbm, 518, rfl⟩
abbrev main_v426 : Ref sig .tc := ⟨.hbm, 519, rfl⟩
abbrev main_v427 : Ref sig .tc := ⟨.hbm, 520, rfl⟩
abbrev main_v428 : Ref sig .tc := ⟨.hbm, 521, rfl⟩
abbrev main_c_79 : Ref sig .tc := ⟨.hbm, 522, rfl⟩
abbrev main_v429 : Ref sig .tc := ⟨.hbm, 523, rfl⟩
abbrev main_v430 : Ref sig .tc := ⟨.hbm, 524, rfl⟩
abbrev main_c_80 : Ref sig .tc := ⟨.hbm, 525, rfl⟩
abbrev main_v431 : Ref sig .tc := ⟨.hbm, 526, rfl⟩
abbrev main_v432 : Ref sig .tc := ⟨.hbm, 527, rfl⟩
abbrev main_v433 : Ref sig .tc := ⟨.hbm, 528, rfl⟩
abbrev main_v434 : Ref sig .tc := ⟨.hbm, 529, rfl⟩
abbrev main_v435 : Ref sig .tc := ⟨.hbm, 530, rfl⟩
abbrev main_v436 : Ref sig .tc := ⟨.hbm, 531, rfl⟩
abbrev main_v437 : Ref sig .tc := ⟨.hbm, 532, rfl⟩
abbrev main_c_81 : Ref sig .tc := ⟨.hbm, 533, rfl⟩
abbrev main_v438 : Ref sig .tc := ⟨.hbm, 534, rfl⟩
abbrev main_v439 : Ref sig .tc := ⟨.hbm, 535, rfl⟩
abbrev main_c_82 : Ref sig .tc := ⟨.hbm, 536, rfl⟩
abbrev main_v440 : Ref sig .tc := ⟨.hbm, 537, rfl⟩
abbrev main_v441 : Ref sig .tc := ⟨.hbm, 538, rfl⟩
abbrev main_v442 : Ref sig .tc := ⟨.hbm, 539, rfl⟩
abbrev main_v443 : Ref sig .tc := ⟨.hbm, 540, rfl⟩
abbrev main_v444 : Ref sig .tc := ⟨.hbm, 541, rfl⟩
abbrev main_v445 : Ref sig .tc := ⟨.hbm, 542, rfl⟩
abbrev main_v446 : Ref sig .tc := ⟨.hbm, 543, rfl⟩
abbrev main_c_83 : Ref sig .tc := ⟨.hbm, 544, rfl⟩
abbrev main_v447 : Ref sig .tc := ⟨.hbm, 545, rfl⟩
abbrev main_v448 : Ref sig .tc := ⟨.hbm, 546, rfl⟩
abbrev main_c_84 : Ref sig .tc := ⟨.hbm, 547, rfl⟩
abbrev main_v449 : Ref sig .tc := ⟨.hbm, 548, rfl⟩
abbrev main_v450 : Ref sig .tc := ⟨.hbm, 549, rfl⟩
abbrev main_v451 : Ref sig .tc := ⟨.hbm, 550, rfl⟩
abbrev main_v452 : Ref sig .tc := ⟨.hbm, 551, rfl⟩
abbrev main_v453 : Ref sig .tc := ⟨.hbm, 552, rfl⟩
abbrev main_v454 : Ref sig .tc := ⟨.hbm, 553, rfl⟩
abbrev main_v455 : Ref sig .tc := ⟨.hbm, 554, rfl⟩
abbrev main_v456 : Ref sig .tc := ⟨.hbm, 555, rfl⟩
abbrev main_v457 : Ref sig .tc := ⟨.hbm, 556, rfl⟩
abbrev main_v458 : Ref sig .tc := ⟨.hbm, 557, rfl⟩
abbrev main_c_85 : Ref sig .tc := ⟨.hbm, 558, rfl⟩
abbrev main_v459 : Ref sig .tc := ⟨.hbm, 559, rfl⟩
abbrev main_v460 : Ref sig .tc := ⟨.hbm, 560, rfl⟩
abbrev main_c_86 : Ref sig .tc := ⟨.hbm, 561, rfl⟩
abbrev main_v461 : Ref sig .tc := ⟨.hbm, 562, rfl⟩
abbrev main_v462 : Ref sig .tc := ⟨.hbm, 563, rfl⟩
abbrev main_v463 : Ref sig .tc := ⟨.hbm, 564, rfl⟩
abbrev main_v464 : Ref sig .tc := ⟨.hbm, 565, rfl⟩
abbrev main_v465 : Ref sig .tc := ⟨.hbm, 566, rfl⟩
abbrev main_v466 : Ref sig .tc := ⟨.hbm, 567, rfl⟩
abbrev main_v467 : Ref sig .tc := ⟨.hbm, 568, rfl⟩
abbrev main_cst_87 : Ref sig .tc := ⟨.hbm, 569, rfl⟩
abbrev main_v468 : Ref sig .tc := ⟨.hbm, 570, rfl⟩
abbrev main_v469 : Ref sig .tc := ⟨.hbm, 571, rfl⟩
abbrev main_v470 : Ref sig .tc := ⟨.hbm, 572, rfl⟩
abbrev main_v471 : Ref sig .tc := ⟨.hbm, 573, rfl⟩
abbrev main_v472 : Ref sig .tc := ⟨.hbm, 574, rfl⟩
abbrev main_v473 : Ref sig .tc := ⟨.hbm, 575, rfl⟩
abbrev main_v474 : Ref sig .tc := ⟨.hbm, 576, rfl⟩
abbrev main_v475 : Ref sig .tc := ⟨.hbm, 577, rfl⟩
abbrev main_v476 : Ref sig .tc := ⟨.hbm, 578, rfl⟩
abbrev main_v477 : Ref sig .tc := ⟨.hbm, 579, rfl⟩
abbrev main_v478 : Ref sig .tc := ⟨.hbm, 580, rfl⟩
abbrev main_v479 : Ref sig .tc := ⟨.hbm, 581, rfl⟩
abbrev main_v480 : Ref sig .tc := ⟨.hbm, 582, rfl⟩
abbrev main_v481 : Ref sig .tc := ⟨.hbm, 583, rfl⟩
abbrev main_v482 : Ref sig .tc := ⟨.hbm, 584, rfl⟩
abbrev main_v483 : Ref sig .tc := ⟨.hbm, 585, rfl⟩
abbrev main_v484 : Ref sig .tc := ⟨.hbm, 586, rfl⟩
abbrev main_v485 : Ref sig .tc := ⟨.hbm, 587, rfl⟩
abbrev main_v486 : Ref sig .tc := ⟨.hbm, 588, rfl⟩
abbrev main_v487 : Ref sig .tc := ⟨.hbm, 589, rfl⟩
abbrev main_v488 : Ref sig .tc := ⟨.hbm, 590, rfl⟩
abbrev main_v489 : Ref sig .tc := ⟨.hbm, 591, rfl⟩
abbrev main_v490 : Ref sig .tc := ⟨.hbm, 592, rfl⟩
abbrev main_v491 : Ref sig .tc := ⟨.hbm, 593, rfl⟩
abbrev main_v492 : Ref sig .tc := ⟨.hbm, 594, rfl⟩
abbrev main_v493 : Ref sig .tc := ⟨.hbm, 595, rfl⟩
abbrev main_v494 : Ref sig .tc := ⟨.hbm, 596, rfl⟩

abbrev nD : Nat := 1
abbrev τ : Topo := Topo.v7x

variable {F : FTy → Type} [FloatOps F]

class Facts₀ : Prop where
  shapeCasts_S4x1024x64_S4x65536 : S4x1024x64.ShapeCasts S4x65536
  shapeCasts_S5x65536_S5x1024x64 : S5x65536.ShapeCasts S5x1024x64
  slices_S5x1024x64_S1x1024x64_0_0_0 : S5x1024x64.Slices ![0, 0, 0] S1x1024x64
  shapeCasts_S1x1024x64_S1024x64 : S1x1024x64.ShapeCasts S1024x64
  slices_S50000x3_S50000x1_0_0 : S50000x3.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x3_S50000x1_0_1 : S50000x3.Slices ![0, 1] S50000x1
  slices_S50000x3_S50000x1_0_2 : S50000x3.Slices ![0, 2] S50000x1
  concatenates_S50000x64_S50000x64_S50000x64_S50000x192_d1 : Shape.Concatenates [S50000x64, S50000x64, S50000x64] S50000x192 1
  bcast_S50000x1_S50000x192_0_1 : S50000x1.BroadcastsInDim S50000x192 (![0, 1] : Fin 2 → Fin S50000x192.rank)
  slices_S5x500000_S1x500000_0_0 : S5x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x192 : S_.BroadcastsInDim S50000x192 (![] : Fin 0 → Fin S50000x192.rank)
  slices_S5x1024x64_S1x1024x64_1_0_0 : S5x1024x64.Slices ![1, 0, 0] S1x1024x64
  slices_S5x500000_S1x500000_1_0 : S5x500000.Slices ![1, 0] S1x500000
  slices_S5x1024x64_S1x1024x64_2_0_0 : S5x1024x64.Slices ![2, 0, 0] S1x1024x64
  slices_S5x500000_S1x500000_2_0 : S5x500000.Slices ![2, 0] S1x500000
  slices_S5x1024x64_S1x1024x64_3_0_0 : S5x1024x64.Slices ![3, 0, 0] S1x1024x64
  slices_S5x500000_S1x500000_3_0 : S5x500000.Slices ![3, 0] S1x500000
  slices_S5x1024x64_S1x1024x64_4_0_0 : S5x1024x64.Slices ![4, 0, 0] S1x1024x64
  slices_S5x500000_S1x500000_4_0 : S5x500000.Slices ![4, 0] S1x500000
  bcast_S50000x192_S50000x1x192_0_2 : S50000x192.BroadcastsInDim S50000x1x192 (![0, 2] : Fin 2 → Fin S50000x1x192.rank)
  concatenates_S50000x1x192_S50000x1x192_S50000x1x192_S50000x1x192_S50000x1x192_S50000x5x192_d1 : Shape.Concatenates [S50000x1x192, S50000x1x192, S50000x1x192, S50000x1x192, S50000x1x192] S50000x5x192 1
  shapeCasts_S50000x5x192_S50000x960 : S50000x5x192.ShapeCasts S50000x960
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S5x4_S4x65536_S5x65536_1_0_0_1_n_n_wf : DotDims.WF S5x4 S4x65536 S5x65536 [1] [0] [0] [1] [] []
  gather_S1024x64_S50000x1_S50000x64_1_0_n_n_0_1_164_wf : GatherDims.WF S1024x64 S50000x1 S50000x64 [1] [0] [] [0] [] 1 ![1, 64]
  gather_S50000x192_S500000x1_S500000x192_1_0_n_n_0_1_1192_wf : GatherDims.WF S50000x192 S500000x1 S500000x192 [1] [0] [] [0] [] 1 ![1, 192]
  scatter_S50000x192_S500000x1_S500000x192_1_0_0_1_wf : ScatterDims.WF S50000x192 S500000x1 S500000x192 [1] [0] [0] 1
  dot_S50000x960_S960x256_S50000x256_1_0_0_1_n_n_wf : DotDims.WF S50000x960 S960x256 S50000x256 [1] [0] [0] [1] [] []

variable [Facts₀]

def dot_S5x4_S4x65536_S5x65536_1_0_0_1_n_n : DotDims S5x4 S4x65536 S5x65536 where
  lhsContracting := [1]
  rhsContracting := [0]
  lhsNonContracting := [0]
  rhsNonContracting := [1]
  lhsBatch := []
  rhsBatch := []
  wf := dot_S5x4_S4x65536_S5x65536_1_0_0_1_n_n_wf
def gather_S1024x64_S50000x1_S50000x64_1_0_n_n_0_1_164 : GatherDims S1024x64 S50000x1 S50000x64 where
  offsetDims := [1]
  collapsedSliceDims := [0]
  operandBatchingDims := []
  startIndicesBatchingDims := []
  startIndexMap := [0]
  indexVectorDim := 1
  sliceSizes := ![1, 64]
  wf := gather_S1024x64_S50000x1_S50000x64_1_0_n_n_0_1_164_wf
def gather_S50000x192_S500000x1_S500000x192_1_0_n_n_0_1_1192 : GatherDims S50000x192 S500000x1 S500000x192 where
  offsetDims := [1]
  collapsedSliceDims := [0]
  operandBatchingDims := []
  startIndicesBatchingDims := []
  startIndexMap := [0]
  indexVectorDim := 1
  sliceSizes := ![1, 192]
  wf := gather_S50000x192_S500000x1_S500000x192_1_0_n_n_0_1_1192_wf
def scatter_S50000x192_S500000x1_S500000x192_1_0_0_1 : ScatterDims S50000x192 S500000x1 S500000x192 where
  updateWindowDims := [1]
  insertedWindowDims := [0]
  scatterDimsToOperandDims := [0]
  indexVectorDim := 1
  wf := scatter_S50000x192_S500000x1_S500000x192_1_0_0_1_wf
def dot_S50000x960_S960x256_S50000x256_1_0_0_1_n_n : DotDims S50000x960 S960x256 S50000x256 where
  lhsContracting := [1]
  rhsContracting := [0]
  lhsNonContracting := [0]
  rhsNonContracting := [1]
  lhsBatch := []
  rhsBatch := []
  wf := dot_S50000x960_S960x256_S50000x256_1_0_0_1_n_n_wf

class Facts : Prop extends Facts₀ where

variable [Facts]
-- ==== Proof.K.Embed0.lean ====
import proofs.«421092_j39041252721056_4_alg».proof.Proof.Gen.Kernel.Launch
import proofs.«421092_j39041252721056_4_alg».proof.Proof.Gen.Kernel.Skeleton
import proofs.«421092_j39041252721056_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1x1024x64 := Rect.unit (s := S1x1024x64) ![0, 0, 0] S1x1024x64.size inb_S1x1024x64_S1x1024x64_0_0_0
abbrev r0_1 : Rect S2000x3 := Rect.unit (s := S2000x3) ![0, 0] S2000x3.size inb_S2000x3_S2000x3_0_0
abbrev r0_2 : Rect S2000x1 := Rect.unit (s := S2000x1) ![0, 0] S2000x1.size inb_S2000x1_S2000x1_0_0
abbrev r0_3 : Rect S1x2000x192 := Rect.unit (s := S1x2000x192) ![0, 0, 0] S1x2000x192.size inb_S1x2000x192_S1x2000x192_0_0_0

def out0_3 (x0 : Vec F S1x1024x64 .f32) (x1 : Vec F S2000x3 .i32) (x2 : Vec F S2000x1 .f32) : Vec F S1x2000x192 .f32 :=
  View.canon [⟨r0_3, k0_pay1 (View.ld x0 r0_0) (View.ld x1 r0_1) (View.ld x2 r0_2)⟩]

-- The body on any four whole buffers: the inputs are kept, the output becomes `out0_3` of the inputs, and `Φ`, `O` pass through.
theorem embed_body0 (c : Dev nD) {i : grid0.Coords} {Φ O : sProp 𝕄} {arg2 : Memref sig .tc .vmem S1x1024x64 .f32} {harg2 : arg2.IsWhole} {arg3 : Memref sig .tc .vmem S2000x3 .i32} {harg3 : arg3.IsWhole} {arg4 : Memref sig .tc .vmem S2000x1 .f32} {harg4 : arg4.IsWhole} {arg5 : Memref sig .tc .vmem S1x2000x192 .f32} {harg5 : arg5.IsWhole}
    {x0 : Vec F S1x1024x64 .f32} {x1 : Vec F S2000x3 .i32} {x2 : Vec F S2000x1 .f32} {D0 D1 D2 D3 : Type} {g : D3 → Vec F S1x2000x192 .f32} :
    iprop(Φ ∗ O ∗ (∃ _ : D0, owns c arg2 fullShare x0) ∗ (∃ _ : D1, owns c arg3 fullShare x1) ∗ (∃ _ : D2, owns c arg4 fullShare x2) ∗ (∃ d, owns c arg5 fullShare (g d)))
      ⊢ wp frame (wpE (defs₀ (F := F)) Variants.none c none) Set.univ (cc0__embed_kernel i arg2 harg2 arg3 harg3 arg4 harg4 arg5 harg5) fun _ =>
        iprop(Φ ∗ O ∗ owns c arg2 fullShare x0 ∗ owns c arg3 fullShare x1 ∗ owns c arg4 fullShare x2 ∗ owns c arg5 fullShare (out0_3 x0 x1 x2)) := by
  simp only [cc0__embed_kernel_eq_skeleton]; unfold cc0__embed_kernel_skel owns
  iintro ⟨HΦ, HO, ⟨%_, %f0, %hf0, H0⟩, ⟨%_, %f1, %hf1, H1⟩, ⟨%_, %f2, %hf2, H2⟩, ⟨%_, %f3, -, H3⟩⟩
  subst hf0 hf1 hf2
  sl_exec
  sl_step
  iframe HΦ HO
  isplitl [H0]; · iexists _; iframe; ipureintro; rfl
  isplitl [H1]; · iexists _; iframe; ipureintro; rfl
  isplitl [H2]; · iexists _; iframe; ipureintro; rfl
  iexists _; iframe; ipureintro
  exact View.read_writes_eq_canon _ _ _ (View.cover_of_tiled _ S1x2000x192.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1, before0_2, after0_3]
  show _ ⊢ wp _ _ _ (bodyAt0 t) _
  exact embed_body0 c

theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.Kernel.Fr

end
-- ==== Proof.K.Embed1.lean ====
import proofs.«421092_j39041252721056_4_alg».proof.Proof.K.Embed0

noncomputable section

namespace Cert.Kernel.Fr

open Idealize.ShloMosaic Idealize.ShloMosaic.TcCoe
open Idealize.SL Idealize.SL.RA Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S1x1024x64 .f32) (x1 : Vec F S2000x3 .i32) (x2 : Vec F S2000x1 .f32) : Vec F S1x2000x192 .f32 :=
  View.canon [⟨r0_3, k1_pay1 (View.ld x0 r0_0) (View.ld x1 r0_1) (View.ld x2 r0_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl
theorem q_eq1 (c : Dev nD) (w : Fin cfg1.W) : (dat1 V c).q w = fullShare := rfl
theorem owed_eq1 (c : Dev nD) (t : Fin (cfg1.N + 1)) : (dat1 V c).owed t = 0 := rfl
theorem recorded_eq1 (c : Dev nD) (t : Fin (cfg1.N + 1)) : (dat1 V c).recorded t = Set.univ := rfl
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

-- Both regions run one and the same function.
theorem cc1_eq : cc1__embed_kernel (F := F) = cc0__embed_kernel := rfl

theorem body_obligation1 (c : Dev nD) : BodyObligation (dat1 (F := F) V c) (defs₀ (F := F)) Variants.none () Set.univ := fun t => by
  rw [bigSep_W0, bigSep_W0]
  simp only [before1_0, before1_1, before1_2, after1_3]
  show _ ⊢ wp _ _ _ (bodyAt1 t) _
  rw [bodyAt1, cc1_eq]
  exact embed_body0 c

theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

end Cert.Kernel.Fr

end
-- ==== Proof.K.Fc2Runs.lean ====
import proofs.«421092_j39041252721056_4_alg».proof.Proof.Gen.Kernel.Launch
import proofs.«421092_j39041252721056_4_alg».proof.Proof.Gen.Kernel.Skeleton
import proofs.«421092_j39041252721056_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- A whole memref owned at contents X is its cells at the raw contents that read X.
theorem owns_unread (c : Dev nD) {sp : Space} {sh : Shape} {e : EltTy} {m : Memref sig .tc sp sh e} (h : m.IsWhole) (q : PosShare TreeShare) (X : sh.Idx → Elt F e) :
    (owns c m q X : sProp 𝕄) = (m.view.loc c ↦[m.view.set]{q} h.unread X) := by
  unfold owns
  exact BI.equiv_iff.mp ⟨by show (_ : sProp 𝕄) ⊢ _; iintro ⟨%f, %hf, H⟩; obtain rfl := h.eq_unread hf; iexact H,
    by show (_ : sProp 𝕄) ⊢ _; iintro H; iexists _; isplitr; · ipureintro; exact h.read_unread _
       iexact H⟩

-- Pieces that cover a memref leave it owned at what they read back as, whatever it held.
theorem owns_of_writes (c : Dev nD) {sp : Space} {sh : Shape} {e : EltTy} (m : Memref sig .tc sp sh e) (q : PosShare TreeShare) (L : List (View.Piece (Elt F) sh e)) (X : sh.Idx → Elt F e)
    (h : ∀ f, m.view.read (Elt F) (m.view.writes (Elt F) f L) = X) :
    iprop(∃ f, m.view.loc c ↦[m.view.set]{q} m.view.writes (Elt F) f L) ⊢ (owns c m q X : sProp 𝕄) := by
  unfold owns; iintro ⟨%f, H⟩; iexists _; isplitr; · ipureintro; exact h f
  iexact H

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 5 = 0 :=
  (by decide +kernel : ∀ t : Fin grid2.N, cond2_0 (grid2.coords t) ↔ t.val % 5 = 0)

abbrev cond2_1 (i : grid2.Coords) : Prop := k2_cond2 i = 1#1
theorem hcond2_1 : ∀ t : Fin cfg2.N, cond2_1 (grid2.coords t) ↔ t.val % 5 = 4 :=
  (by decide +kernel : ∀ t : Fin grid2.N, cond2_1 (grid2.coords t) ↔ t.val % 5 = 4)

theorem idleAt2_4 : ∀ t : Fin cfg2.N, ¬cond2_1 (grid2.coords t) → cfg2.idle 4 (grid2.coords t) = true ∧ (cfg2.win 4).flush t = false := by decide +kernel
theorem liveAt2_4 : ∀ t : Fin cfg2.N, cond2_1 (grid2.coords t) → cfg2.idle 4 (grid2.coords t) = false := by decide +kernel

abbrev VO2_4 : View sig .tc .vmem S2000x256 .f32 := (Memref.whole cc2_stg4_0 : Memref sig .tc .vmem S2000x256 .f32).view
abbrev ms2_0 (t : Fin cfg2.N) : Memref sig .tc .vmem S1x2000x192 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x192x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2000x256 .f32 := win2_4.stage (cfg2.slots t 4)
abbrev hs2_4 (t : Fin cfg2.N) : (ms2_4 t).IsWhole := hstage2_4 ((cfg2.slots t 4).cast nbuf2_4)
abbrev scM2_0 : Memref sig .tc .vmem S2000x256 .f32 := Memref.whole cc2_scratch0
abbrev VS2_0 : View sig .tc .vmem S2000x256 .f32 := scM2_0.view

-- The launch's invariant with the accumulator's part stated as S.
def Inv2 (c : Dev nD) (S : sProp 𝕄) : sProp 𝕄 :=
  iprop(iprop(S ∗ Pipeline.scopedRestBut (Ix := Unit) (Name := ℕ) (U := UR sig nD τ) (Lvl := ℕ) (Val := Elt F) spec2 c [cc2_scratch0]) ∗ (∃ r, prngReg c r))

theorem PhiA2_eq (c : Dev nD) : (Pipeline.ΦA spec2 c : sProp 𝕄) = Inv2 c iprop(∃ d, owns c scM2_0 fullShare d) := by
  unfold Pipeline.ΦA Inv2; rw [scopedRest2_split]; simp only [scM2_0, owns_whole]; try rfl

variable (c : Dev nD) (i : grid2.Coords) (arg2 : Memref sig .tc .vmem S1x2000x192 .f32) (harg2 : arg2.IsWhole) (arg3 : Memref sig .tc .vmem S2000x1 .f32) (harg3 : arg3.IsWhole) (arg4 : Memref sig .tc .vmem S1x192x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S2000x256 .f32) (harg7 : arg7.IsWhole)

noncomputable def kernelRun2_A (hc0 : cond2_0 i) (hc1 : ¬cond2_1 i) (x0 : Vec F S1x2000x192 .f32) (x1 : Vec F S2000x1 .f32) (x2 : Vec F S1x192x256 .f32) (x3 : Vec F S1x256 .f32) :
    Σ' (L4 : List (View.Piece (Elt F) S2000x256 .f32)), { LS0 : List (View.Piece (Elt F) S2000x256 .f32) //
      ∀ (xi4 : Vec F S2000x256 .f32) (E : Set ℕ) (K : PUnit → sProp 𝕄),
        iprop(owns c arg2 fullShare x0 ∗ owns c arg3 fullShare x1 ∗ owns c arg4 fullShare x2 ∗ owns c arg5 fullShare x3 ∗ owns c arg6 fullShare xi4 ∗ (∃ d, owns c arg7 fullShare d)
            ∗ (iprop(owns c arg2 fullShare x0 ∗ owns c arg3 fullShare x1 ∗ owns c arg4 fullShare x2 ∗ owns c arg5 fullShare x3 ∗ owns c arg6 fullShare xi4 ∗ (∃ f, arg7.view.loc c ↦[arg7.view.set]{fullShare} arg7.view.writes (Elt F) f LS0)) -∗ K ⟨⟩))
          ⊢ wp frame (wpE (defs₀ (F := F)) Variants.none c none) E (cc2__scale_fc_kernel i arg2 harg2 arg3 harg3 arg4 harg4 arg5 harg5 arg6 harg6 arg7 harg7) K } := by
  refine ⟨[], ?_, fun xi4 E K => ?run⟩
  case run =>
    simp only [cc2__scale_fc_kernel_eq_skeleton]; unfold cc2__scale_fc_kernel_skel
    simp only [owns_unread c harg2, owns_unread c harg3, owns_unread c harg4, owns_unread c harg5, owns_unread c harg6, owns_unread c harg7]
    iintro ⟨H0, H1, H2, H3, H4, ⟨%ds0, HS0⟩, Hk⟩
    sl_exec (disch := first | exact hc0 | exact hc1)
    sl_step
    iapply Hk
    iframe H0 H1 H2 H3 H4
    iexists _; iexact HS0

noncomputable def kernelRun2_B (hc0 : ¬cond2_0 i) (hc1 : ¬cond2_1 i) (x0 : Vec F S1x2000x192 .f32) (x1 : Vec F S2000x1 .f32) (x2 : Vec F S1x192x256 .f32) (x3 : Vec F S1x256 .f32) (xs0 : Vec F S2000x256 .f32) :
    Σ' (L4 : List (View.Piece (Elt F) S2000x256 .f32)), { LS0 : List (View.Piece (Elt F) S2000x256 .f32) //
      ∀ (xi4 : Vec F S2000x256 .f32) (E : Set ℕ) (K : PUnit → sProp 𝕄),
        iprop(owns c arg2 fullShare x0 ∗ owns c arg3 fullShare x1 ∗ owns c arg4 fullShare x2 ∗ owns c arg5 fullShare x3 ∗ owns c arg6 fullShare xi4 ∗ owns c arg7 fullShare xs0
            ∗ (iprop(owns c arg2 fullShare x0 ∗ owns c arg3 fullShare x1 ∗ owns c arg4 fullShare x2 ∗ owns c arg5 fullShare x3 ∗ owns c arg6 fullShare xi4 ∗ (∃ f, arg7.view.loc c ↦[arg7.view.set]{fullShare} arg7.view.writes (Elt F) f LS0)) -∗ K ⟨⟩))
          ⊢ wp frame (wpE (defs₀ (F := F)) Variants.none c none) E (cc2__scale_fc_kernel i arg2 harg2 arg3 harg3 arg4 harg4 arg5 harg5 arg6 harg6 arg7 harg7) K } := by
  refine ⟨[], ?_, fun xi4 E K => ?run⟩
  case run =>
    simp only [cc2__scale_fc_kernel_eq_skeleton]; unfold cc2__scale_fc_kernel_skel
    simp only [owns_unread c harg2, owns_unread c harg3, owns_unread c harg4, owns_unread c harg5, owns_unread c harg6, owns_unread c harg7]
    iintro ⟨H0, H1, H2, H3, H4, HS0, Hk⟩
    sl_exec (disch := first | exact hc0 | exact hc1)
    sl_step
    iapply Hk
    iframe H0 H1 H2 H3 H4
    iexists _; iexact HS0

noncomputable def kernelRun2_C (hc0 : ¬cond2_0 i) (hc1 : cond2_1 i) (x0 : Vec F S1x2000x192 .f32) (x1 : Vec F S2000x1 .f32) (x2 : Vec F S1x192x256 .f32) (x3 : Vec F S1x256 .f32) (xs0 : Vec F S2000x256 .f32) :
    Σ' (L4 : List (View.Piece (Elt F) S2000x256 .f32)), { LS0 : List (View.Piece (Elt F) S2000x256 .f32) //
      ∀ (E : Set ℕ) (K : PUnit → sProp 𝕄),
        iprop(owns c arg2 fullShare x0 ∗ owns c arg3 fullShare x1 ∗ owns c arg4 fullShare x2 ∗ owns c arg5 fullShare x3 ∗ (∃ d, owns c arg6 fullShare d) ∗ owns c arg7 fullShare xs0
            ∗ (iprop(owns c arg2 fullShare x0 ∗ owns c arg3 fullShare x1 ∗ owns c arg4 fullShare x2 ∗ owns c arg5 fullShare x3 ∗ (∃ f, arg6.view.loc c ↦[arg6.view.set]{fullShare} arg6.view.writes (Elt F) f L4) ∗ (∃ f, arg7.view.loc c ↦[arg7.view.set]{fullShare} arg7.view.writes (Elt F) f LS0)) -∗ K ⟨⟩))
          ⊢ wp frame (wpE (defs₀ (F := F)) Variants.none c none) E (cc2__scale_fc_kernel i arg2 harg2 arg3 harg3 arg4 harg4 arg5 harg5 arg6 harg6 arg7 harg7) K } := by
  refine ⟨?_, ?_, fun E K => ?run⟩
  case run =>
    simp only [cc2__scale_fc_kernel_eq_skeleton]; unfold cc2__scale_fc_kernel_skel
    simp only [owns_unread c harg2, owns_unread c harg3, owns_unread c harg4, owns_unread c harg5, owns_unread c harg6, owns_unread c harg7]
    iintro ⟨H0, H1, H2, H3, ⟨%d4, H4⟩, HS0, Hk⟩
    sl_exec (disch := first | exact hc0 | exact hc1)
    sl_step
    iapply Hk
    iframe H0 H1 H2 H3
    isplitl [H4]; · iexists _; iexact H4
    iexists _; iexact HS0

end Cert.Kernel.Fr

end
-- ==== Proof.K.Fc2.lean ====
import proofs.«421092_j39041252721056_4_alg».proof.Proof.K.Fc2Runs

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg2 : Memref sig .tc .vmem S1x2000x192 .f32) (harg2 : arg2.IsWhole) (arg3 : Memref sig .tc .vmem S2000x1 .f32) (harg3 : arg3.IsWhole) (arg4 : Memref sig .tc .vmem S1x192x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S2000x256 .f32) (harg7 : arg7.IsWhole)

section
variable (hc0 : cond2_0 i) (hc1 : ¬cond2_1 i) (x0 : Vec F S1x2000x192 .f32) (x1 : Vec F S2000x1 .f32) (x2 : Vec F S1x192x256 .f32) (x3 : Vec F S1x256 .f32)

def out2_A_4 : Vec F S2000x256 .f32 :=
  VO2_4.read (Elt F) (VO2_4.writes (Elt F) VO2_4.junk (kernelRun2_A c i _ harg2 _ harg3 _ harg4 _ harg5 _ harg6 _ harg7 hc0 hc1 x0 x1 x2 x3).1)

theorem scover2_A_0 (y : S2000x256.Idx) : ∃ pc ∈ (kernelRun2_A c i _ harg2 _ harg3 _ harg4 _ harg5 _ harg6 _ harg7 hc0 hc1 x0 x1 x2 x3).2.1, y ∈ pc.1.set :=
  View.cover_of_tiledL _ S2000x256.size (by sl_kernel_rfl) y

def sout2_A_0 : Vec F S2000x256 .f32 :=
  VS2_0.read (Elt F) (VS2_0.writes (Elt F) VS2_0.junk (kernelRun2_A c i _ harg2 _ harg3 _ harg4 _ harg5 _ harg6 _ harg7 hc0 hc1 x0 x1 x2 x3).2.1)

end

section
variable (hc0 : ¬cond2_0 i) (hc1 : ¬cond2_1 i) (x0 : Vec F S1x2000x192 .f32) (x1 : Vec F S2000x1 .f32) (x2 : Vec F S1x192x256 .f32) (x3 : Vec F S1x256 .f32) (xs0 : Vec F S2000x256 .f32)

def out2_B_4 : Vec F S2000x256 .f32 :=
  VO2_4.read (Elt F) (VO2_4.writes (Elt F) VO2_4.junk (kernelRun2_B c i _ harg2 _ harg3 _ harg4 _ harg5 _ harg6 _ harg7 hc0 hc1 x0 x1 x2 x3 xs0).1)

theorem scover2_B_0 (y : S2000x256.Idx) : ∃ pc ∈ (kernelRun2_B c i _ harg2 _ harg3 _ harg4 _ harg5 _ harg6 _ harg7 hc0 hc1 x0 x1 x2 x3 xs0).2.1, y ∈ pc.1.set :=
  View.cover_of_tiledL _ S2000x256.size (by sl_kernel_rfl) y

def sout2_B_0 : Vec F S2000x256 .f32 :=
  VS2_0.read (Elt F) (VS2_0.writes (Elt F) VS2_0.junk (kernelRun2_B c i _ harg2 _ harg3 _ harg4 _ harg5 _ harg6 _ harg7 hc0 hc1 x0 x1 x2 x3 xs0).2.1)

end

section
variable (hc0 : ¬cond2_0 i) (hc1 : cond2_1 i) (x0 : Vec F S1x2000x192 .f32) (x1 : Vec F S2000x1 .f32) (x2 : Vec F S1x192x256 .f32) (x3 : Vec F S1x256 .f32) (xs0 : Vec F S2000x256 .f32)

theorem cover2_C_4 (y : S2000x256.Idx) : ∃ pc ∈ (kernelRun2_C c i _ harg2 _ harg3 _ harg4 _ harg5 _ harg6 _ harg7 hc0 hc1 x0 x1 x2 x3 xs0).1, y ∈ pc.1.set :=
  View.cover_of_tiledL _ S2000x256.size (by sl_kernel_rfl) y

def out2_C_4 : Vec F S2000x256 .f32 :=
  VO2_4.read (Elt F) (VO2_4.writes (Elt F) VO2_4.junk (kernelRun2_C c i _ harg2 _ harg3 _ harg4 _ harg5 _ harg6 _ harg7 hc0 hc1 x0 x1 x2 x3 xs0).1)

theorem scover2_C_0 (y : S2000x256.Idx) : ∃ pc ∈ (kernelRun2_C c i _ harg2 _ harg3 _ harg4 _ harg5 _ harg6 _ harg7 hc0 hc1 x0 x1 x2 x3 xs0).2.1, y ∈ pc.1.set :=
  View.cover_of_tiledL _ S2000x256.size (by sl_kernel_rfl) y

def sout2_C_0 : Vec F S2000x256 .f32 :=
  VS2_0.read (Elt F) (VS2_0.writes (Elt F) VS2_0.junk (kernelRun2_C c i _ harg2 _ harg3 _ harg4 _ harg5 _ harg6 _ harg7 hc0 hc1 x0 x1 x2 x3 xs0).2.1)

end

end

-- What the output's buffer and the accumulator hold after point t, the accumulator found at s.
def step2 (c : Dev nD) (t : Fin cfg2.N) (s : Vec F S2000x256 .f32) : Vec F S2000x256 .f32 × Vec F S2000x256 .f32 :=
  if h0 : t.val % 5 = 0 then
    (out2_A_4 c _ _ (hs2_0 t) _ (hs2_1 t) _ (hs2_2 t) _ (hs2_3 t) _ (hs2_4 t) scM2_0 (Memref.isWhole_whole _) ((hcond2_0 t).mpr h0) (fun h => by have := (hcond2_1 t).mp h; omega) (iblk2 V c 0 t) (iblk2 V c 1 t) (iblk2 V c 2 t) (iblk2 V c 3 t), sout2_A_0 c _ _ (hs2_0 t) _ (hs2_1 t) _ (hs2_2 t) _ (hs2_3 t) _ (hs2_4 t) scM2_0 (Memref.isWhole_whole _) ((hcond2_0 t).mpr h0) (fun h => by have := (hcond2_1 t).mp h; omega) (iblk2 V c 0 t) (iblk2 V c 1 t) (iblk2 V c 2 t) (iblk2 V c 3 t))
  else if h1 : t.val % 5 = 4 then
    (out2_C_4 c _ _ (hs2_0 t) _ (hs2_1 t) _ (hs2_2 t) _ (hs2_3 t) _ (hs2_4 t) scM2_0 (Memref.isWhole_whole _) (fun h => h0 ((hcond2_0 t).mp h)) ((hcond2_1 t).mpr h1) (iblk2 V c 0 t) (iblk2 V c 1 t) (iblk2 V c 2 t) (iblk2 V c 3 t) s, sout2_C_0 c _ _ (hs2_0 t) _ (hs2_1 t) _ (hs2_2 t) _ (hs2_3 t) _ (hs2_4 t) scM2_0 (Memref.isWhole_whole _) (fun h => h0 ((hcond2_0 t).mp h)) ((hcond2_1 t).mpr h1) (iblk2 V c 0 t) (iblk2 V c 1 t) (iblk2 V c 2 t) (iblk2 V c 3 t) s)
  else
    (out2_B_4 c _ _ (hs2_0 t) _ (hs2_1 t) _ (hs2_2 t) _ (hs2_3 t) _ (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) s, sout2_B_0 c _ _ (hs2_0 t) _ (hs2_1 t) _ (hs2_2 t) _ (hs2_3 t) _ (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) s)

def outsAt2 (c : Dev nD) : (n : ℕ) → n < cfg2.N → Vec F S2000x256 .f32 × Vec F S2000x256 .f32
  | 0, hn => step2 V c ⟨0, hn⟩ (VS2_0.read (Elt F) VS2_0.junk)
  | n + 1, hn => step2 V c ⟨n + 1, hn⟩ (outsAt2 c n (Nat.lt_of_succ_lt hn)).2

theorem outsAt2_A (c : Dev nD) (t : Fin cfg2.N) (h0 : t.val % 5 = 0) (h1 : ¬t.val % 5 = 4) :
    outsAt2 V c t.val t.isLt = (out2_A_4 c _ _ (hs2_0 t) _ (hs2_1 t) _ (hs2_2 t) _ (hs2_3 t) _ (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c _ _ (hs2_0 t) _ (hs2_1 t) _ (hs2_2 t) _ (hs2_3 t) _ (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨_ | n, hn⟩ := t
  · rfl
  · exact dif_pos h0

theorem outsAt2_B (c : Dev nD) (t : Fin cfg2.N) (h0 : ¬t.val % 5 = 0) (h1 : ¬t.val % 5 = 4) :
    outsAt2 V c t.val t.isLt = (out2_B_4 c _ _ (hs2_0 t) _ (hs2_1 t) _ (hs2_2 t) _ (hs2_3 t) _ (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c _ _ (hs2_0 t) _ (hs2_1 t) _ (hs2_2 t) _ (hs2_3 t) _ (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨_ | n, hn⟩ := t
  · exact absurd (Nat.zero_mod 5) h0
  · exact (dif_neg h0).trans (dif_neg h1)

theorem outsAt2_C (c : Dev nD) (t : Fin cfg2.N) (h0 : ¬t.val % 5 = 0) (h1 : t.val % 5 = 4) :
    outsAt2 V c t.val t.isLt = (out2_C_4 c _ _ (hs2_0 t) _ (hs2_1 t) _ (hs2_2 t) _ (hs2_3 t) _ (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c _ _ (hs2_0 t) _ (hs2_1 t) _ (hs2_2 t) _ (hs2_3 t) _ (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨_ | n, hn⟩ := t
  · exact absurd (Nat.zero_mod 5) h0
  · exact (dif_neg h0).trans (dif_pos h1)

-- The invariant: after point n the accumulator holds what that point left in it.
def PhiS2 (c : Dev nD) : (n : ℕ) → n ≤ cfg2.N → sProp 𝕄
  | 0, _ => Pipeline.ΦA spec2 c
  | n + 1, hn => Inv2 c (owns c scM2_0 fullShare (outsAt2 V c n hn).2)

theorem PhiS2_pos (c : Dev nD) (n : ℕ) (h : n ≤ cfg2.N) (hz : n ≠ 0) :
    PhiS2 V c n h = Inv2 c (owns c scM2_0 fullShare (outsAt2 V c (n - 1) (by omega)).2) := by
  cases n with
  | zero => exact absurd rfl hz
  | succ n => rfl

-- Forgetting what the accumulator holds gives the invariant of the first point back.
theorem PhiS2_any (c : Dev nD) : ∀ (n : ℕ) (h : n ≤ cfg2.N), PhiS2 V c n h ⊢ (Pipeline.ΦA spec2 c : sProp 𝕄)
  | 0, _ => Entails.of_eq rfl
  | n + 1, h => by
    unfold PhiS2; rw [PhiA2_eq]; unfold Inv2
    iintro ⟨⟨HS0, HR⟩, Hg⟩
    iframe HR Hg
    iexists _; iexact HS0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem q_eq2 (c : Dev nD) (w : Fin cfg2.W) : (dat2 V c).q w = fullShare := rfl
theorem owed_eq2 (c : Dev nD) (t : Fin (cfg2.N + 1)) : (dat2 V c).owed t = 0 := rfl
theorem recorded_eq2 (c : Dev nD) (t : Fin (cfg2.N + 1)) : (dat2 V c).recorded t = Set.univ := rfl
theorem after2_4 (c : Dev nD) (t : Fin cfg2.N) : (dat2 V c).after 4 t = (outsAt2 V c t.val t.isLt).1 := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

-- Each case's run, its inputs at their blocks; the accumulator goes in as the invariant holds it and comes back at this point's contents.
theorem sound_body2 (c : Dev nD) (t : Fin cfg2.N) :
    iprop(PhiS2 V c t.val (Nat.le_of_lt t.isLt) ∗ (dat2 V c).owesAt () t.castSucc
      ∗ (∃ d : (cfg2.win 0).block.Idx → Elt F (cfg2.win 0).elt, owns c (ms2_0 t) fullShare (iblk2 V c 0 t))
      ∗ (∃ d : (cfg2.win 1).block.Idx → Elt F (cfg2.win 1).elt, owns c (ms2_1 t) fullShare (iblk2 V c 1 t))
      ∗ (∃ d : (cfg2.win 2).block.Idx → Elt F (cfg2.win 2).elt, owns c (ms2_2 t) fullShare (iblk2 V c 2 t))
      ∗ (∃ d : (cfg2.win 3).block.Idx → Elt F (cfg2.win 3).elt, owns c (ms2_3 t) fullShare (iblk2 V c 3 t))
      ∗ (∃ d, owns c (ms2_4 t) fullShare ((dat2 V c).before 4 t d)))
    ⊢ wp frame (wpE (defs₀ (F := F)) Variants.none c none) Set.univ (bodyAt2 t) (fun _ => iprop(Inv2 c (owns c scM2_0 fullShare (outsAt2 V c t.val t.isLt).2) ∗ (dat2 V c).owesAt () t.castSucc
      ∗ owns c (ms2_0 t) fullShare (iblk2 V c 0 t) ∗ owns c (ms2_1 t) fullShare (iblk2 V c 1 t) ∗ owns c (ms2_2 t) fullShare (iblk2 V c 2 t) ∗ owns c (ms2_3 t) fullShare (iblk2 V c 3 t)
      ∗ (dat2 V c).leavesExact 4 t)) := by
  unfold bodyAt2
  by_cases h1 : t.val % 5 = 4
  · have h0 : ¬t.val % 5 = 0 := by omega
    have hc0 := fun h => h0 ((hcond2_0 t).mp h)
    have hc1 := (hcond2_1 t).mpr h1
    rw [show (dat2 V c).leavesExact 4 t = owns c (ms2_4 t) fullShare ((dat2 V c).after 4 t) from by
          unfold Dat.leavesExact; rw [liveAt2_4 t hc1],
      after2_4, outsAt2_C V c t h0 h1, PhiS2_pos V c _ _ (by omega : t.val ≠ 0)]
    unfold Inv2; dsimp only
    iintro ⟨⟨⟨HS0, HR⟩, Hg⟩, Ho, ⟨%d0, H0⟩, ⟨%d1, H1⟩, ⟨%d2, H2⟩, ⟨%d3, H3⟩, ⟨%d4, H4⟩⟩
    iapply (kernelRun2_C c _ _ _ _ _ _ _ _ _ _ _ _ _ hc0 hc1 _ _ _ _ _).2.2 Set.univ _
    iframe H0 H1 H2 H3 HS0
    isplitl [H4]; · iexists _; iexact H4
    iintro ⟨H0, H1, H2, H3, H4, HS0⟩
    iframe HR Hg Ho H0 H1 H2 H3
    isplitl [HS0]
    · iapply owns_of_writes c _ _ _ _ fun _ => View.read_writes_of_cover _ _ _ _ _ (scover2_C_0 c _ _ _ _ _ _ _ _ _ _ _ _ _ hc0 hc1 _ _ _ _ _)
      iexact HS0
    iapply owns_of_writes c _ _ _ _ fun _ => View.read_writes_of_cover _ _ _ _ _ (cover2_C_4 c _ _ _ _ _ _ _ _ _ _ _ _ _ hc0 hc1 _ _ _ _ _)
    iexact H4
  · have hc1 := fun h => h1 ((hcond2_1 t).mp h)
    rw [Dat.leavesExact_idle (dat2 V c) 4 t (idleAt2_4 t hc1).1 (idleAt2_4 t hc1).2]
    by_cases h0 : t.val % 5 = 0
    · have hc0 := (hcond2_0 t).mpr h0
      rw [outsAt2_A V c t h0 h1]
      dsimp only
      refine BIBase.Entails.trans (sep_mono_left (PhiS2_any V c _ _)) ?_
      rw [PhiA2_eq]; unfold Inv2
      iintro ⟨⟨⟨⟨%ds0, HS0⟩, HR⟩, Hg⟩, Ho, ⟨%d0, H0⟩, ⟨%d1, H1⟩, ⟨%d2, H2⟩, ⟨%d3, H3⟩, ⟨%d4, H4⟩⟩
      iapply (kernelRun2_A c _ _ _ _ _ _ _ _ _ _ _ _ _ hc0 hc1 _ _ _ _).2.2 _ Set.univ _
      iframe H0 H1 H2 H3 H4
      isplitl [HS0]; · iexists _; iexact HS0
      iintro ⟨H0, H1, H2, H3, H4, HS0⟩
      iframe HR Hg Ho H0 H1 H2 H3
      isplitl [HS0]
      · iapply owns_of_writes c _ _ _ _ fun _ => View.read_writes_of_cover _ _ _ _ _ (scover2_A_0 c _ _ _ _ _ _ _ _ _ _ _ _ _ hc0 hc1 _ _ _ _)
        iexact HS0
      iexists _; iexact H4
    · have hc0 := fun h => h0 ((hcond2_0 t).mp h)
      rw [outsAt2_B V c t h0 h1, PhiS2_pos V c _ _ (by omega : t.val ≠ 0)]
      unfold Inv2; dsimp only
      iintro ⟨⟨⟨HS0, HR⟩, Hg⟩, Ho, ⟨%d0, H0⟩, ⟨%d1, H1⟩, ⟨%d2, H2⟩, ⟨%d3, H3⟩, ⟨%d4, H4⟩⟩
      iapply (kernelRun2_B c _ _ _ _ _ _ _ _ _ _ _ _ _ hc0 hc1 _ _ _ _ _).2.2 _ Set.univ _
      iframe H0 H1 H2 H3 H4 HS0
      iintro ⟨H0, H1, H2, H3, H4, HS0⟩
      iframe HR Hg Ho H0 H1 H2 H3
      isplitl [HS0]
      · iapply owns_of_writes c _ _ _ _ fun _ => View.read_writes_of_cover _ _ _ _ _ (scover2_B_0 c _ _ _ _ _ _ _ _ _ _ _ _ _ hc0 hc1 _ _ _ _ _)
        iexact HS0
      iexists _; iexact H4

theorem body_obligation2 (c : Dev nD) : BodyObligation (dat2 (F := F) V c) (defs₀ (F := F)) Variants.none () Set.univ := fun t => by
  rw [bigSep_W2, bigSep_W2]
  simp only [before2_0, before2_1, before2_2, before2_3]
  exact sound_body2 V c t

theorem hin2 (c : Dev nD) : (Pipeline.ΦA spec2 c : sProp 𝕄) ⊢ (dat2 V c).Φ 0 := Entails.of_eq rfl

theorem hout2 (c : Dev nD) : (dat2 V c).Φ (Fin.last cfg2.N) ⊢ (Pipeline.ΦA spec2 c : sProp 𝕄) := PhiS2_any V c (Fin.last cfg2.N).val _

end Cert.Kernel.Fr

end
-- ==== Proof.K.Fc3Runs.lean ====
import proofs.«421092_j39041252721056_4_alg».proof.Proof.K.Fc2Runs

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 5 = 0 :=
  (by decide +kernel : ∀ t : Fin grid3.N, cond3_0 (grid3.coords t) ↔ t.val % 5 = 0)

abbrev cond3_1 (i : grid3.Coords) : Prop := k3_cond2 i = 1#1
theorem hcond3_1 : ∀ t : Fin cfg3.N, cond3_1 (grid3.coords t) ↔ t.val % 5 = 4 :=
  (by decide +kernel : ∀ t : Fin grid3.N, cond3_1 (grid3.coords t) ↔ t.val % 5 = 4)

theorem idleAt3_4 : ∀ t : Fin cfg3.N, ¬cond3_1 (grid3.coords t) → cfg3.idle 4 (grid3.coords t) = true ∧ (cfg3.win 4).flush t = false := by decide +kernel
theorem liveAt3_4 : ∀ t : Fin cfg3.N, cond3_1 (grid3.coords t) → cfg3.idle 4 (grid3.coords t) = false := by decide +kernel

abbrev VO3_4 : View sig .tc .vmem S2000x256 .f32 := (Memref.whole cc3_stg4_0 : Memref sig .tc .vmem S2000x256 .f32).view
abbrev ms3_0 (t : Fin cfg3.N) : Memref sig .tc .vmem S1x2000x192 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x192x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x256 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2000x256 .f32 := win3_4.stage (cfg3.slots t 4)
abbrev hs3_4 (t : Fin cfg3.N) : (ms3_4 t).IsWhole := hstage3_4 ((cfg3.slots t 4).cast nbuf3_4)
abbrev scM3_0 : Memref sig .tc .vmem S2000x256 .f32 := Memref.whole cc3_scratch0
abbrev VS3_0 : View sig .tc .vmem S2000x256 .f32 := scM3_0.view

-- The launch's invariant with the accumulator's part stated as S.
def Inv3 (c : Dev nD) (S : sProp 𝕄) : sProp 𝕄 :=
  iprop(iprop(S ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = Inv3 c iprop(∃ d, owns c scM3_0 fullShare d) := by
  unfold Pipeline.ΦA Inv3; rw [scopedRest3_split]; simp only [scM3_0, owns_whole]; try rfl

variable (c : Dev nD) (i : grid3.Coords) (arg2 : Memref sig .tc .vmem S1x2000x192 .f32) (harg2 : arg2.IsWhole) (arg3 : Memref sig .tc .vmem S2000x1 .f32) (harg3 : arg3.IsWhole) (arg4 : Memref sig .tc .vmem S1x192x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S2000x256 .f32) (harg7 : arg7.IsWhole)

-- Both regions run one and the same function, so region 2's runs are region 3's.
theorem cc3_eq : cc3__scale_fc_kernel (F := F) = cc2__scale_fc_kernel := rfl

noncomputable def kernelRun3_A (hc0 : cond3_0 i) (hc1 : ¬cond3_1 i) (x0 : Vec F S1x2000x192 .f32) (x1 : Vec F S2000x1 .f32) (x2 : Vec F S1x192x256 .f32) (x3 : Vec F S1x256 .f32) :=
  kernelRun2_A c i arg2 harg2 arg3 harg3 arg4 harg4 arg5 harg5 arg6 harg6 arg7 harg7 hc0 hc1 x0 x1 x2 x3

noncomputable def kernelRun3_B (hc0 : ¬cond3_0 i) (hc1 : ¬cond3_1 i) (x0 : Vec F S1x2000x192 .f32) (x1 : Vec F S2000x1 .f32) (x2 : Vec F S1x192x256 .f32) (x3 : Vec F S1x256 .f32) (xs0 : Vec F S2000x256 .f32) :=
  kernelRun2_B c i arg2 harg2 arg3 harg3 arg4 harg4 arg5 harg5 arg6 harg6 arg7 harg7 hc0 hc1 x0 x1 x2 x3 xs0

noncomputable def kernelRun3_C (hc0 : ¬cond3_0 i) (hc1 : cond3_1 i) (x0 : Vec F S1x2000x192 .f32) (x1 : Vec F S2000x1 .f32) (x2 : Vec F S1x192x256 .f32) (x3 : Vec F S1x256 .f32) (xs0 : Vec F S2000x256 .f32) :=
  kernelRun2_C c i arg2 harg2 arg3 harg3 arg4 harg4 arg5 harg5 arg6 harg6 arg7 harg7 hc0 hc1 x0 x1 x2 x3 xs0

end Cert.Kernel.Fr

end
-- ==== Proof.K.Fc3.lean ====
import proofs.«421092_j39041252721056_4_alg».proof.Proof.K.Fc3Runs
import proofs.«421092_j39041252721056_4_alg».proof.Proof.K.Fc2

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid3.Coords) (arg2 : Memref sig .tc .vmem S1x2000x192 .f32) (harg2 : arg2.IsWhole) (arg3 : Memref sig .tc .vmem S2000x1 .f32) (harg3 : arg3.IsWhole) (arg4 : Memref sig .tc .vmem S1x192x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S2000x256 .f32) (harg7 : arg7.IsWhole)

section
variable (hc0 : cond3_0 i) (hc1 : ¬cond3_1 i) (x0 : Vec F S1x2000x192 .f32) (x1 : Vec F S2000x1 .f32) (x2 : Vec F S1x192x256 .f32) (x3 : Vec F S1x256 .f32)

def out3_A_4 : Vec F S2000x256 .f32 :=
  VO3_4.read (Elt F) (VO3_4.writes (Elt F) VO3_4.junk (kernelRun3_A c i _ harg2 _ harg3 _ harg4 _ harg5 _ harg6 _ harg7 hc0 hc1 x0 x1 x2 x3).1)

theorem scover3_A_0 (y : S2000x256.Idx) : ∃ pc ∈ (kernelRun3_A c i _ harg2 _ harg3 _ harg4 _ harg5 _ harg6 _ harg7 hc0 hc1 x0 x1 x2 x3).2.1, y ∈ pc.1.set :=
  scover2_A_0 c i _ harg2 _ harg3 _ harg4 _ harg5 _ harg6 _ harg7 hc0 hc1 x0 x1 x2 x3 y

def sout3_A_0 : Vec F S2000x256 .f32 :=
  VS3_0.read (Elt F) (VS3_0.writes (Elt F) VS3_0.junk (kernelRun3_A c i _ harg2 _ harg3 _ harg4 _ harg5 _ harg6 _ harg7 hc0 hc1 x0 x1 x2 x3).2.1)

end

section
variable (hc0 : ¬cond3_0 i) (hc1 : ¬cond3_1 i) (x0 : Vec F S1x2000x192 .f32) (x1 : Vec F S2000x1 .f32) (x2 : Vec F S1x192x256 .f32) (x3 : Vec F S1x256 .f32) (xs0 : Vec F S2000x256 .f32)

def out3_B_4 : Vec F S2000x256 .f32 :=
  VO3_4.read (Elt F) (VO3_4.writes (Elt F) VO3_4.junk (kernelRun3_B c i _ harg2 _ harg3 _ harg4 _ harg5 _ harg6 _ harg7 hc0 hc1 x0 x1 x2 x3 xs0).1)

theorem scover3_B_0 (y : S2000x256.Idx) : ∃ pc ∈ (kernelRun3_B c i _ harg2 _ harg3 _ harg4 _ harg5 _ harg6 _ harg7 hc0 hc1 x0 x1 x2 x3 xs0).2.1, y ∈ pc.1.set :=
  scover2_B_0 c i _ harg2 _ harg3 _ harg4 _ harg5 _ harg6 _ harg7 hc0 hc1 x0 x1 x2 x3 xs0 y

def sout3_B_0 : Vec F S2000x256 .f32 :=
  VS3_0.read (Elt F) (VS3_0.writes (Elt F) VS3_0.junk (kernelRun3_B c i _ harg2 _ harg3 _ harg4 _ harg5 _ harg6 _ harg7 hc0 hc1 x0 x1 x2 x3 xs0).2.1)

end

section
variable (hc0 : ¬cond3_0 i) (hc1 : cond3_1 i) (x0 : Vec F S1x2000x192 .f32) (x1 : Vec F S2000x1 .f32) (x2 : Vec F S1x192x256 .f32) (x3 : Vec F S1x256 .f32) (xs0 : Vec F S2000x256 .f32)

theorem cover3_C_4 (y : S2000x256.Idx) : ∃ pc ∈ (kernelRun3_C c i _ harg2 _ harg3 _ harg4 _ harg5 _ harg6 _ harg7 hc0 hc1 x0 x1 x2 x3 xs0).1, y ∈ pc.1.set :=
  cover2_C_4 c i _ harg2 _ harg3 _ harg4 _ harg5 _ harg6 _ harg7 hc0 hc1 x0 x1 x2 x3 xs0 y

def out3_C_4 : Vec F S2000x256 .f32 :=
  VO3_4.read (Elt F) (VO3_4.writes (Elt F) VO3_4.junk (kernelRun3_C c i _ harg2 _ harg3 _ harg4 _ harg5 _ harg6 _ harg7 hc0 hc1 x0 x1 x2 x3 xs0).1)

theorem scover3_C_0 (y : S2000x256.Idx) : ∃ pc ∈ (kernelRun3_C c i _ harg2 _ harg3 _ harg4 _ harg5 _ harg6 _ harg7 hc0 hc1 x0 x1 x2 x3 xs0).2.1, y ∈ pc.1.set :=
  scover2_C_0 c i _ harg2 _ harg3 _ harg4 _ harg5 _ harg6 _ harg7 hc0 hc1 x0 x1 x2 x3 xs0 y

def sout3_C_0 : Vec F S2000x256 .f32 :=
  VS3_0.read (Elt F) (VS3_0.writes (Elt F) VS3_0.junk (kernelRun3_C c i _ harg2 _ harg3 _ harg4 _ harg5 _ harg6 _ harg7 hc0 hc1 x0 x1 x2 x3 xs0).2.1)

end

end

-- What the output's buffer and the accumulator hold after point t, the accumulator found at s.
def step3 (c : Dev nD) (t : Fin cfg3.N) (s : Vec F S2000x256 .f32) : Vec F S2000x256 .f32 × Vec F S2000x256 .f32 :=
  if h0 : t.val % 5 = 0 then
    (out3_A_4 c _ _ (hs3_0 t) _ (hs3_1 t) _ (hs3_2 t) _ (hs3_3 t) _ (hs3_4 t) scM3_0 (Memref.isWhole_whole _) ((hcond3_0 t).mpr h0) (fun h => by have := (hcond3_1 t).mp h; omega) (iblk3 V c 0 t) (iblk3 V c 1 t) (iblk3 V c 2 t) (iblk3 V c 3 t), sout3_A_0 c _ _ (hs3_0 t) _ (hs3_1 t) _ (hs3_2 t) _ (hs3_3 t) _ (hs3_4 t) scM3_0 (Memref.isWhole_whole _) ((hcond3_0 t).mpr h0) (fun h => by have := (hcond3_1 t).mp h; omega) (iblk3 V c 0 t) (iblk3 V c 1 t) (iblk3 V c 2 t) (iblk3 V c 3 t))
  else if h1 : t.val % 5 = 4 then
    (out3_C_4 c _ _ (hs3_0 t) _ (hs3_1 t) _ (hs3_2 t) _ (hs3_3 t) _ (hs3_4 t) scM3_0 (Memref.isWhole_whole _) (fun h => h0 ((hcond3_0 t).mp h)) ((hcond3_1 t).mpr h1) (iblk3 V c 0 t) (iblk3 V c 1 t) (iblk3 V c 2 t) (iblk3 V c 3 t) s, sout3_C_0 c _ _ (hs3_0 t) _ (hs3_1 t) _ (hs3_2 t) _ (hs3_3 t) _ (hs3_4 t) scM3_0 (Memref.isWhole_whole _) (fun h => h0 ((hcond3_0 t).mp h)) ((hcond3_1 t).mpr h1) (iblk3 V c 0 t) (iblk3 V c 1 t) (iblk3 V c 2 t) (iblk3 V c 3 t) s)
  else
    (out3_B_4 c _ _ (hs3_0 t) _ (hs3_1 t) _ (hs3_2 t) _ (hs3_3 t) _ (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) s, sout3_B_0 c _ _ (hs3_0 t) _ (hs3_1 t) _ (hs3_2 t) _ (hs3_3 t) _ (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) s)

def outsAt3 (c : Dev nD) : (n : ℕ) → n < cfg3.N → Vec F S2000x256 .f32 × Vec F S2000x256 .f32
  | 0, hn => step3 V c ⟨0, hn⟩ (VS3_0.read (Elt F) VS3_0.junk)
  | n + 1, hn => step3 V c ⟨n + 1, hn⟩ (outsAt3 c n (Nat.lt_of_succ_lt hn)).2

theorem outsAt3_A (c : Dev nD) (t : Fin cfg3.N) (h0 : t.val % 5 = 0) (h1 : ¬t.val % 5 = 4) :
    outsAt3 V c t.val t.isLt = (out3_A_4 c _ _ (hs3_0 t) _ (hs3_1 t) _ (hs3_2 t) _ (hs3_3 t) _ (hs3_4 t) scM3_0 (Memref.isWhole_whole _) ((hcond3_0 t).mpr h0) (fun h => h1 ((hcond3_1 t).mp h)) (iblk3 V c 0 t) (iblk3 V c 1 t) (iblk3 V c 2 t) (iblk3 V c 3 t), sout3_A_0 c _ _ (hs3_0 t) _ (hs3_1 t) _ (hs3_2 t) _ (hs3_3 t) _ (hs3_4 t) scM3_0 (Memref.isWhole_whole _) ((hcond3_0 t).mpr h0) (fun h => h1 ((hcond3_1 t).mp h)) (iblk3 V c 0 t) (iblk3 V c 1 t) (iblk3 V c 2 t) (iblk3 V c 3 t)) := by
  obtain ⟨_ | n, hn⟩ := t
  · rfl
  · exact dif_pos h0

theorem outsAt3_B (c : Dev nD) (t : Fin cfg3.N) (h0 : ¬t.val % 5 = 0) (h1 : ¬t.val % 5 = 4) :
    outsAt3 V c t.val t.isLt = (out3_B_4 c _ _ (hs3_0 t) _ (hs3_1 t) _ (hs3_2 t) _ (hs3_3 t) _ (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2, sout3_B_0 c _ _ (hs3_0 t) _ (hs3_1 t) _ (hs3_2 t) _ (hs3_3 t) _ (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2) := by
  obtain ⟨_ | n, hn⟩ := t
  · exact absurd (Nat.zero_mod 5) h0
  · exact (dif_neg h0).trans (dif_neg h1)

theorem outsAt3_C (c : Dev nD) (t : Fin cfg3.N) (h0 : ¬t.val % 5 = 0) (h1 : t.val % 5 = 4) :
    outsAt3 V c t.val t.isLt = (out3_C_4 c _ _ (hs3_0 t) _ (hs3_1 t) _ (hs3_2 t) _ (hs3_3 t) _ (hs3_4 t) scM3_0 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2, sout3_C_0 c _ _ (hs3_0 t) _ (hs3_1 t) _ (hs3_2 t) _ (hs3_3 t) _ (hs3_4 t) scM3_0 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2) := by
  obtain ⟨_ | n, hn⟩ := t
  · exact absurd (Nat.zero_mod 5) h0
  · exact (dif_neg h0).trans (dif_pos h1)

-- The invariant: after point n the accumulator holds what that point left in it.
def PhiS3 (c : Dev nD) : (n : ℕ) → n ≤ cfg3.N → sProp 𝕄
  | 0, _ => Pipeline.ΦA spec3 c
  | n + 1, hn => Inv3 c (owns c scM3_0 fullShare (outsAt3 V c n hn).2)

theorem PhiS3_pos (c : Dev nD) (n : ℕ) (h : n ≤ cfg3.N) (hz : n ≠ 0) :
    PhiS3 V c n h = Inv3 c (owns c scM3_0 fullShare (outsAt3 V c (n - 1) (by omega)).2) := by
  cases n with
  | zero => exact absurd rfl hz
  | succ n => rfl

-- Forgetting what the accumulator holds gives the invariant of the first point back.
theorem PhiS3_any (c : Dev nD) : ∀ (n : ℕ) (h : n ≤ cfg3.N), PhiS3 V c n h ⊢ (Pipeline.ΦA spec3 c : sProp 𝕄)
  | 0, _ => Entails.of_eq rfl
  | n + 1, h => by
    unfold PhiS3; rw [PhiA3_eq]; unfold Inv3
    iintro ⟨⟨HS0, HR⟩, Hg⟩
    iframe HR Hg
    iexists _; iexact HS0

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl
theorem q_eq3 (c : Dev nD) (w : Fin cfg3.W) : (dat3 V c).q w = fullShare := rfl
theorem owed_eq3 (c : Dev nD) (t : Fin (cfg3.N + 1)) : (dat3 V c).owed t = 0 := rfl
theorem recorded_eq3 (c : Dev nD) (t : Fin (cfg3.N + 1)) : (dat3 V c).recorded t = Set.univ := rfl
theorem after3_4 (c : Dev nD) (t : Fin cfg3.N) : (dat3 V c).after 4 t = (outsAt3 V c t.val t.isLt).1 := rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

-- Each case's run, its inputs at their blocks; the accumulator goes in as the invariant holds it and comes back at this point's contents.
theorem sound_body3 (c : Dev nD) (t : Fin cfg3.N) :
    iprop(PhiS3 V c t.val (Nat.le_of_lt t.isLt) ∗ (dat3 V c).owesAt () t.castSucc
      ∗ (∃ d : (cfg3.win 0).block.Idx → Elt F (cfg3.win 0).elt, owns c (ms3_0 t) fullShare (iblk3 V c 0 t))
      ∗ (∃ d : (cfg3.win 1).block.Idx → Elt F (cfg3.win 1).elt, owns c (ms3_1 t) fullShare (iblk3 V c 1 t))
      ∗ (∃ d : (cfg3.win 2).block.Idx → Elt F (cfg3.win 2).elt, owns c (ms3_2 t) fullShare (iblk3 V c 2 t))
      ∗ (∃ d : (cfg3.win 3).block.Idx → Elt F (cfg3.win 3).elt, owns c (ms3_3 t) fullShare (iblk3 V c 3 t))
      ∗ (∃ d, owns c (ms3_4 t) fullShare ((dat3 V c).before 4 t d)))
    ⊢ wp frame (wpE (defs₀ (F := F)) Variants.none c none) Set.univ (bodyAt3 t) (fun _ => iprop(Inv3 c (owns c scM3_0 fullShare (outsAt3 V c t.val t.isLt).2) ∗ (dat3 V c).owesAt () t.castSucc
      ∗ owns c (ms3_0 t) fullShare (iblk3 V c 0 t) ∗ owns c (ms3_1 t) fullShare (iblk3 V c 1 t) ∗ owns c (ms3_2 t) fullShare (iblk3 V c 2 t) ∗ owns c (ms3_3 t) fullShare (iblk3 V c 3 t)
      ∗ (dat3 V c).leavesExact 4 t)) := by
  unfold bodyAt3; rw [cc3_eq]
  by_cases h1 : t.val % 5 = 4
  · have h0 : ¬t.val % 5 = 0 := by omega
    have hc0 := fun h => h0 ((hcond3_0 t).mp h)
    have hc1 := (hcond3_1 t).mpr h1
    rw [show (dat3 V c).leavesExact 4 t = owns c (ms3_4 t) fullShare ((dat3 V c).after 4 t) from by
          unfold Dat.leavesExact; rw [liveAt3_4 t hc1],
      after3_4, outsAt3_C V c t h0 h1, PhiS3_pos V c _ _ (by omega : t.val ≠ 0)]
    unfold Inv3; dsimp only
    iintro ⟨⟨⟨HS0, HR⟩, Hg⟩, Ho, ⟨%d0, H0⟩, ⟨%d1, H1⟩, ⟨%d2, H2⟩, ⟨%d3, H3⟩, ⟨%d4, H4⟩⟩
    iapply (kernelRun3_C c _ _ _ _ _ _ _ _ _ _ _ _ _ hc0 hc1 _ _ _ _ _).2.2 Set.univ _
    iframe H0 H1 H2 H3 HS0
    isplitl [H4]; · iexists _; iexact H4
    iintro ⟨H0, H1, H2, H3, H4, HS0⟩
    iframe HR Hg Ho H0 H1 H2 H3
    isplitl [HS0]
    · iapply owns_of_writes c _ _ _ _ fun _ => View.read_writes_of_cover _ _ _ _ _ (scover3_C_0 c _ _ _ _ _ _ _ _ _ _ _ _ _ hc0 hc1 _ _ _ _ _)
      iexact HS0
    iapply owns_of_writes c _ _ _ _ fun _ => View.read_writes_of_cover _ _ _ _ _ (cover3_C_4 c _ _ _ _ _ _ _ _ _ _ _ _ _ hc0 hc1 _ _ _ _ _)
    iexact H4
  · have hc1 := fun h => h1 ((hcond3_1 t).mp h)
    rw [Dat.leavesExact_idle (dat3 V c) 4 t (idleAt3_4 t hc1).1 (idleAt3_4 t hc1).2]
    by_cases h0 : t.val % 5 = 0
    · have hc0 := (hcond3_0 t).mpr h0
      rw [outsAt3_A V c t h0 h1]
      dsimp only
      refine BIBase.Entails.trans (sep_mono_left (PhiS3_any V c _ _)) ?_
      rw [PhiA3_eq]; unfold Inv3
      iintro ⟨⟨⟨⟨%ds0, HS0⟩, HR⟩, Hg⟩, Ho, ⟨%d0, H0⟩, ⟨%d1, H1⟩, ⟨%d2, H2⟩, ⟨%d3, H3⟩, ⟨%d4, H4⟩⟩
      iapply (kernelRun3_A c _ _ _ _ _ _ _ _ _ _ _ _ _ hc0 hc1 _ _ _ _).2.2 _ Set.univ _
      iframe H0 H1 H2 H3 H4
      isplitl [HS0]; · iexists _; iexact HS0
      iintro ⟨H0, H1, H2, H3, H4, HS0⟩
      iframe HR Hg Ho H0 H1 H2 H3
      isplitl [HS0]
      · iapply owns_of_writes c _ _ _ _ fun _ => View.read_writes_of_cover _ _ _ _ _ (scover3_A_0 c _ _ _ _ _ _ _ _ _ _ _ _ _ hc0 hc1 _ _ _ _)
        iexact HS0
      iexists _; iexact H4
    · have hc0 := fun h => h0 ((hcond3_0 t).mp h)
      rw [outsAt3_B V c t h0 h1, PhiS3_pos V c _ _ (by omega : t.val ≠ 0)]
      unfold Inv3; dsimp only
      iintro ⟨⟨⟨HS0, HR⟩, Hg⟩, Ho, ⟨%d0, H0⟩, ⟨%d1, H1⟩, ⟨%d2, H2⟩, ⟨%d3, H3⟩, ⟨%d4, H4⟩⟩
      iapply (kernelRun3_B c _ _ _ _ _ _ _ _ _ _ _ _ _ hc0 hc1 _ _ _ _ _).2.2 _ Set.univ _
      iframe H0 H1 H2 H3 H4 HS0
      iintro ⟨H0, H1, H2, H3, H4, HS0⟩
      iframe HR Hg Ho H0 H1 H2 H3
      isplitl [HS0]
      · iapply owns_of_writes c _ _ _ _ fun _ => View.read_writes_of_cover _ _ _ _ _ (scover3_B_0 c _ _ _ _ _ _ _ _ _ _ _ _ _ hc0 hc1 _ _ _ _ _)
        iexact HS0
      iexists _; iexact H4

theorem body_obligation3 (c : Dev nD) : BodyObligation (dat3 (F := F) V c) (defs₀ (F := F)) Variants.none () Set.univ := fun t => by
  rw [bigSep_W3, bigSep_W3]
  simp only [before3_0, before3_1, before3_2, before3_3]
  exact sound_body3 V c t

theorem hin3 (c : Dev nD) : (Pipeline.ΦA spec3 c : sProp 𝕄) ⊢ (dat3 V c).Φ 0 := Entails.of_eq rfl

theorem hout3 (c : Dev nD) : (dat3 V c).Φ (Fin.last cfg3.N) ⊢ (Pipeline.ΦA spec3 c : sProp 𝕄) := PhiS3_any V c (Fin.last cfg3.N).val _

end Cert.Kernel.Fr

end
-- ==== Proof.K.Run.lean ====
import proofs.«421092_j39041252721056_4_alg».proof.Proof.K.Embed0
import proofs.«421092_j39041252721056_4_alg».proof.Proof.K.Embed1
import proofs.«421092_j39041252721056_4_alg».proof.Proof.K.Fc2
import proofs.«421092_j39041252721056_4_alg».proof.Proof.K.Fc3

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after main_part0_ops0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev V3 : (c : Dev nD) → (b : Ref sig .tc) → Buf (Elt F) ((c : Thread nD τ).loc b) := fun c b => W3 m ρ c b

abbrev W4 : Dev nD → Valuation τ sig (Elt F) := fun c => StableHlo.after main_part0_ops1 (W3 m ρ c)

abbrev W5 : Dev nD → Valuation τ sig (Elt F) := fun c => StableHlo.after main_part1_ops0 (W4 m ρ c)

abbrev W6 : Dev nD → Valuation τ sig (Elt F) := fun c => StableHlo.after main_part2_ops0 (W5 m ρ c)

abbrev W7 : Dev nD → Valuation τ sig (Elt F) := fun c => StableHlo.after main_part3_ops0 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb

abbrev V8 : (c : Dev nD) → (b : Ref sig .tc) → Buf (Elt F) ((c : Thread nD τ).loc b) := fun c b => W8 m ρ c b

def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb

abbrev V9 : (c : Dev nD) → (b : Ref sig .tc) → Buf (Elt F) ((c : Thread nD τ).loc b) := fun c b => W9 m ρ c b

abbrev adm : (p : Fin 4) → (pcfgs (F := F) p).Adm := fun p => (cfgs p).toPCfg_adm
abbrev sp (p : Fin 4) := (Pipeline.pin (pcfgs (F := F)) adm p).spec

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V7 m ρ) c
  | ⟨3, _⟩ => fun c => dat3 (V8 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m ρ c) ∗ ∃ r, prngReg c r)

set_option backward.isDefEq.respectTransparency.types false in
/-- A region entered with the buffers at `Win` leaves them at `Wout`: its arrays are split out and put back, nothing is owed. -/
def mkReg (p : Fin 4) (lf : Pipeline.LaunchFacts (nD := nD) (τ := τ) cfgs p) (Win Wout : Dev nD → Valuation τ sig (Elt F))
    (hq : ∀ c w, (pdats m ρ p c).q w = fullShare)
    (hA : ∀ c w, (pdats m ρ p c).A w = Win c (Proc.devRef .tc (Pipeline.arrRef (sp (F := F) p) w)))
    (howed : ∀ c t, (pdats m ρ p c).owed t = 0) (hrec : ∀ c, (pdats m ρ p c).recorded 0 = Set.univ)
    (hbody : ∀ c, BodyObligation (pdats m ρ p c) (defs₀ (F := F)) 𝒱₀ () Set.univ)
    (hΦi : ∀ c, (Pipeline.ΦA (sp (F := F) p) c : sProp 𝕄) ⊢ (pdats m ρ p c).Φ 0)
    (hΦo : ∀ c, (pdats m ρ p c).Φ (Fin.last _) ⊢ (Pipeline.ΦA (sp (F := F) p) c : sProp 𝕄))
    (harr : ∀ c w, Wout c (Proc.devRef .tc (Pipeline.arrRef (sp (F := F) p) w)) = (pdats m ρ p c).arrAt w (Pipeline.pin (pcfgs (F := F)) adm p).N)
    (hne : ∀ c (b : Ref sig .tc), (∀ w, Pipeline.arrRef (sp (F := F) p) w ≠ b) → Wout c (Proc.devRef .tc b) = Win c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (sp (F := F) p) c (fun b => Win c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m ρ p c).owed 0 = 0 := howed c 0
      have er : (pdats m ρ p c).recorded 0 = Set.univ := hrec c
      unfold Pipeline.Dat.owesAt Pipeline.owesWithin
      rw [e0]
      icases HO with ⟨%W, HO⟩; iexists W; isplitr; · ipureintro; exact fun x _ => Or.inl (er ▸ Set.mem_univ x)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Win c b) (fun b => Wout c b) ((pdats m ρ p c).arrAt · (Pipeline.pin (pcfgs (F := F)) adm p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    have eN : (pdats m ρ p c).owed (Fin.last (Pipeline.pin (pcfgs (F := F)) adm p).N) = 0 := howed c _
    unfold Pipeline.Dat.owesAt Pipeline.owesWithin
    rw [eN]
    icases HO with ⟨%W, -, HO⟩; iexists W; iexact HO

def reg0 : Pipeline.RegionSeg (pcfgs (F := F)) adm (pdats m ρ) () defs₀ 𝒱₀ L lv 0 :=
  mkReg m ρ 0 launch0 (W1 m ρ) (W2 m ρ) (q_eq0 (V1 m ρ)) (A_eq0 (V1 m ρ)) (owed_eq0 (V1 m ρ))
    (fun c => recorded_eq0 (V1 m ρ) c 0) (body_obligation0 (V1 m ρ)) (hin0 (V1 m ρ)) (hout0 (V1 m ρ)) (W2_arr m ρ) (W2_of_ne m ρ)
def reg1 : Pipeline.RegionSeg (pcfgs (F := F)) adm (pdats m ρ) () defs₀ 𝒱₀ L lv 1 :=
  mkReg m ρ 1 launch1 (W2 m ρ) (W3 m ρ) (q_eq1 (V2 m ρ)) (A_eq1 (V2 m ρ)) (owed_eq1 (V2 m ρ))
    (fun c => recorded_eq1 (V2 m ρ) c 0) (body_obligation1 (V2 m ρ)) (hin1 (V2 m ρ)) (hout1 (V2 m ρ)) (W3_arr m ρ) (W3_of_ne m ρ)
def reg2 : Pipeline.RegionSeg (pcfgs (F := F)) adm (pdats m ρ) () defs₀ 𝒱₀ L lv 2 :=
  mkReg m ρ 2 launch2 (W7 m ρ) (W8 m ρ) (q_eq2 (V7 m ρ)) (A_eq2 (V7 m ρ)) (owed_eq2 (V7 m ρ))
    (fun c => recorded_eq2 (V7 m ρ) c 0) (body_obligation2 (V7 m ρ)) (hin2 (V7 m ρ)) (hout2 (V7 m ρ)) (W8_arr m ρ) (W8_of_ne m ρ)
def reg3 : Pipeline.RegionSeg (pcfgs (F := F)) adm (pdats m ρ) () defs₀ 𝒱₀ L lv 3 :=
  mkReg m ρ 3 launch3 (W8 m ρ) (W9 m ρ) (q_eq3 (V8 m ρ)) (A_eq3 (V8 m ρ)) (owed_eq3 (V8 m ρ))
    (fun c => recorded_eq3 (V8 m ρ) c 0) (body_obligation3 (V8 m ρ)) (hin3 (V8 m ρ)) (hout3 (V8 m ρ)) (W9_arr m ρ) (W9_of_ne m ρ)

abbrev segs : List (Pipeline.Seg (pcfgs (F := F)) adm (pdats m ρ) () defs₀ 𝒱₀ L lv) :=
  [ .host (hseg main_part0_ops0 main_part0_ops0_sub (by (repeat' apply And.intro) <;> rfl) (W0 m ρ)),
    .region (reg0 m ρ),
    .region (reg1 m ρ),
    .host (hseg main_part0_ops1 main_part0_ops1_sub (by (repeat' apply And.intro) <;> rfl) (W3 m ρ)),
    .host (hseg main_part1_ops0 main_part1_ops0_sub (by (repeat' apply And.intro) <;> rfl) (W4 m ρ)),
    .host (hseg main_part2_ops0 main_part2_ops0_sub (by (repeat' apply And.intro) <;> rfl) (W5 m ρ)),
    .host (hseg main_part3_ops0 main_part3_ops0_sub (by (repeat' apply And.intro) <;> rfl) (W6 m ρ)),
    .region (reg2 m ρ),
    .region (reg3 m ρ) ]

theorem main_run (c : Dev nD) : main (F := F) c = Pipeline.Seg.run (segs m ρ) := (main_chain_windows c).trans (by chain_rfl)

set_option backward.isDefEq.respectTransparency.types false in

theorem run_all : θ_run defs (onTc (τ := τ) (main (F := F))) ⟨m, fun _ => 0, ρ⟩ (fun s => ∀ c : Dev nD,
      ∀ b ∈ Pipeline.ucRefs τ sig, s.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        show iprop(_ ∗ _ ∗ _) ⊢ iprop((_ ∗ _) ∗ _); iintro ⟨Hh, Hp, Ho⟩; isplitr [Ho]; isplitl [Hh]; iexact Hh; iexact Hp; iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.Kernel.Fr

end
-- ==== Proof.K.Keep.lean ====
import proofs.«421092_j39041252721056_4_alg».proof.Proof.Gen.Kernel.Launch

set_option maxRecDepth 16384

noncomputable section

namespace Cert.Kernel.Fr

open Idealize.ShloMosaic Idealize.ShloMosaic.TcCoe Idealize.SL.Sem
open Cert.Kernel Cert.Kernel.Gen

variable {F : FTy → Type} [FloatOps F] (W : Valuation τ sig (Elt F)) (b : Ref sig .tc)

abbrev wr0 : List (Ref sig .tc) := [main_v0, main_v1, main_v2]
abbrev wr1 : List (Ref sig .tc) := [main_v5, main_v6, main_v7, main_v8, main_c, main_v9, main_v10, main_c_0, main_v11, main_v12, main_v13, main_v14, main_v15, main_v16, main_v17, main_cst, main_v18, main_v19, main_v20, main_v21, main_v22, main_v23, main_v24, main_c_1, main_v25, main_v26, main_c_2, main_v27, main_v28, main_v29, main_v30, main_v31, main_v32, main_v33, main_cst_3, main_v34, main_v35, main_v36, main_v37, main_v38, main_v39, main_v40, main_c_4, main_v41, main_v42, main_c_5, main_v43, main_v44, main_v45, main_v46, main_v47, main_v48, main_v49, main_cst_6, main_v50]
abbrev wr2 : List (Ref sig .tc) := [main_v51, main_v52, main_v53, main_v54, main_v55, main_v56, main_c_7, main_v57, main_v58, main_c_8, main_v59, main_v60, main_v61, main_v62, main_v63, main_v64, main_v65, main_cst_9, main_v66, main_v67, main_v68, main_v69, main_v70, main_v71, main_v72, main_c_10, main_v73, main_v74, main_c_11, main_v75, main_v76, main_v77, main_v78, main_v79, main_v80, main_v81, main_cst_12, main_v82, main_v83, main_v84, main_v85, main_v86, main_v87, main_v88, main_v89, main_v90, main_v91, main_v92, main_v93, main_v94, main_c_13, main_v95, main_v96, main_c_14, main_v97, main_v98, main_v99, main_v100, main_v101, main_v102]
abbrev wr3 : List (Ref sig .tc) := [main_v103, main_cst_15, main_v104, main_v105, main_v106, main_v107, main_v108, main_v109, main_v110, main_c_16, main_v111, main_v112, main_c_17, main_v113, main_v114, main_v115, main_v116, main_v117, main_v118, main_v119, main_cst_18, main_v120, main_v121, main_v122, main_v123, main_v124, main_v125, main_v126, main_c_19, main_v127, main_v128, main_c_20, main_v129, main_v130, main_v131, main_v132, main_v133, main_v134, main_v135, main_cst_21, main_v136, main_v137, main_v138, main_v139, main_v140, main_v141, main_v142, main_c_22, main_v143, main_v144, main_c_23, main_v145, main_v146, main_v147, main_v148, main_v149, main_v150, main_v151, main_cst_24, main_v152]
abbrev wr4 : List (Ref sig .tc) := [main_v153, main_v154, main_v155, main_v156, main_v157, main_v158, main_c_25, main_v159, main_v160, main_c_26, main_v161, main_v162, main_v163, main_v164, main_v165, main_v166, main_v167, main_cst_27, main_v168, main_v169, main_v170, main_v171, main_v172, main_v173, main_v174, main_v175, main_v176, main_v177, main_v178]

/-- A stretch of host operations changes only the references its operations write: each writes its one result. -/
theorem keep0 (hb : b ∉ wr0) : StableHlo.after main_part0_ops0 W (Proc.devRef .tc b) = W (Proc.devRef .tc b) := by
  refine StableHlo.after_of_writes_sub _ _ ?_ hb
  repeat' apply And.intro
  all_goals exact Finset.singleton_subset_iff.2 (List.mem_toFinset.2 (List.mem_map_of_mem (by decide)))
theorem keep1 (hb : b ∉ wr1) : StableHlo.after main_part0_ops1 W (Proc.devRef .tc b) = W (Proc.devRef .tc b) := by
  refine StableHlo.after_of_writes_sub _ _ ?_ hb
  repeat' apply And.intro
  all_goals exact Finset.singleton_subset_iff.2 (List.mem_toFinset.2 (List.mem_map_of_mem (by decide)))
theorem keep2 (hb : b ∉ wr2) : StableHlo.after main_part1_ops0 W (Proc.devRef .tc b) = W (Proc.devRef .tc b) := by
  refine StableHlo.after_of_writes_sub _ _ ?_ hb
  repeat' apply And.intro
  all_goals exact Finset.singleton_subset_iff.2 (List.mem_toFinset.2 (List.mem_map_of_mem (by decide)))
theorem keep3 (hb : b ∉ wr3) : StableHlo.after main_part2_ops0 W (Proc.devRef .tc b) = W (Proc.devRef .tc b) := by
  refine StableHlo.after_of_writes_sub _ _ ?_ hb
  repeat' apply And.intro
  all_goals exact Finset.singleton_subset_iff.2 (List.mem_toFinset.2 (List.mem_map_of_mem (by decide)))
theorem keep4 (hb : b ∉ wr4) : StableHlo.after main_part3_ops0 W (Proc.devRef .tc b) = W (Proc.devRef .tc b) := by
  refine StableHlo.after_of_writes_sub _ _ ?_ hb
  repeat' apply And.intro
  all_goals exact Finset.singleton_subset_iff.2 (List.mem_toFinset.2 (List.mem_map_of_mem (by decide)))

end Cert.Kernel.Fr

end
-- ==== Proof.K.Kept.lean ====
import proofs.«421092_j39041252721056_4_alg».proof.Proof.K.Run
import proofs.«421092_j39041252721056_4_alg».proof.Proof.K.Keep

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F] (m : (ℓ : Loc nD τ sig) → Buf (Elt F) ℓ) (ρ : Dev nD → PrngReg)

/-- A region changes its output arrays only: an input window's array, and a buffer it does not name, leave as they entered. -/
theorem W2_keep (c : Dev nD) (b : Ref sig .tc) (hb : ∀ w, Pipeline.arrRef spec0 w = b → (cfg0.win w).isOut = false) :
    W2 m ρ c (Proc.devRef .tc b) = W1 m ρ c (Proc.devRef .tc b) :=
  (Classical.em (∃ w, Pipeline.arrRef spec0 w = b)).elim
    (fun ⟨w, e⟩ => by subst e; exact (W2_arr m ρ c w).trans (((dat0 (V1 m ρ) c).arrAt_in w (hb w rfl) _).trans (A_eq0 (V1 m ρ) c w)))
    fun h => W2_of_ne m ρ c b fun w e => h ⟨w, e⟩
theorem W3_keep (c : Dev nD) (b : Ref sig .tc) (hb : ∀ w, Pipeline.arrRef spec1 w = b → (cfg1.win w).isOut = false) :
    W3 m ρ c (Proc.devRef .tc b) = W2 m ρ c (Proc.devRef .tc b) :=
  (Classical.em (∃ w, Pipeline.arrRef spec1 w = b)).elim
    (fun ⟨w, e⟩ => by subst e; exact (W3_arr m ρ c w).trans (((dat1 (V2 m ρ) c).arrAt_in w (hb w rfl) _).trans (A_eq1 (V2 m ρ) c w)))
    fun h => W3_of_ne m ρ c b fun w e => h ⟨w, e⟩
theorem W8_keep (c : Dev nD) (b : Ref sig .tc) (hb : ∀ w, Pipeline.arrRef spec2 w = b → (cfg2.win w).isOut = false) :
    W8 m ρ c (Proc.devRef .tc b) = W7 m ρ c (Proc.devRef .tc b) :=
  (Classical.em (∃ w, Pipeline.arrRef spec2 w = b)).elim
    (fun ⟨w, e⟩ => by subst e; exact (W8_arr m ρ c w).trans (((dat2 (V7 m ρ) c).arrAt_in w (hb w rfl) _).trans (A_eq2 (V7 m ρ) c w)))
    fun h => W8_of_ne m ρ c b fun w e => h ⟨w, e⟩
theorem W9_keep (c : Dev nD) (b : Ref sig .tc) (hb : ∀ w, Pipeline.arrRef spec3 w = b → (cfg3.win w).isOut = false) :
    W9 m ρ c (Proc.devRef .tc b) = W8 m ρ c (Proc.devRef .tc b) :=
  (Classical.em (∃ w, Pipeline.arrRef spec3 w = b)).elim
    (fun ⟨w, e⟩ => by subst e; exact (W9_arr m ρ c w).trans (((dat3 (V8 m ρ) c).arrAt_in w (hb w rfl) _).trans (A_eq3 (V8 m ρ) c w)))
    fun h => W9_of_ne m ρ c b fun w e => h ⟨w, e⟩

abbrev args : List (Ref sig .tc) :=
  [main_arg0, main_arg1, main_arg2, main_arg3, main_arg4, main_arg5, main_arg6, main_arg7, main_arg8, main_arg9, main_arg10, main_arg11]

/-- No host operation writes an argument and no region has one as an output window. -/
theorem args_ok : ∀ b ∈ args, b ∉ wr0 ∧ b ∉ wr1 ∧ b ∉ wr2 ∧ b ∉ wr3 ∧ b ∉ wr4
    ∧ (∀ w, Pipeline.arrRef spec0 w = b → (cfg0.win w).isOut = false) ∧ (∀ w, Pipeline.arrRef spec1 w = b → (cfg1.win w).isOut = false)
    ∧ (∀ w, Pipeline.arrRef spec2 w = b → (cfg2.win w).isOut = false) ∧ (∀ w, Pipeline.arrRef spec3 w = b → (cfg3.win w).isOut = false)
    ∧ ¬(Proc.devRef .tc b : DevRef τ sig).isScoped := by decide

variable (b : Ref sig .tc) (hb : b ∈ args) (c : Dev nD)
include hb

/-- So every argument array holds its launch contents at each boundary. -/
theorem kept1 : W1 m ρ c (Proc.devRef .tc b) = m ((c : Thread nD τ).loc b) := keep0 _ b (args_ok b hb).1
theorem kept2 : W2 m ρ c (Proc.devRef .tc b) = m ((c : Thread nD τ).loc b) :=
  (W2_keep m ρ c b (args_ok b hb).2.2.2.2.2.1).trans (kept1 m ρ b hb c)
theorem kept3 : W3 m ρ c (Proc.devRef .tc b) = m ((c : Thread nD τ).loc b) :=
  (W3_keep m ρ c b (args_ok b hb).2.2.2.2.2.2.1).trans (kept2 m ρ b hb c)
theorem kept7 : W7 m ρ c (Proc.devRef .tc b) = m ((c : Thread nD τ).loc b) :=
  (keep4 _ b (args_ok b hb).2.2.2.2.1).trans ((keep3 _ b (args_ok b hb).2.2.2.1).trans ((keep2 _ b (args_ok b hb).2.2.1).trans
    ((keep1 _ b (args_ok b hb).2.1).trans (kept3 m ρ b hb c))))
theorem kept8 : W8 m ρ c (Proc.devRef .tc b) = m ((c : Thread nD τ).loc b) :=
  (W8_keep m ρ c b (args_ok b hb).2.2.2.2.2.2.2.1).trans (kept7 m ρ b hb c)
theorem kept9 : W9 m ρ c (Proc.devRef .tc b) = m ((c : Thread nD τ).loc b) :=
  (W9_keep m ρ c b (args_ok b hb).2.2.2.2.2.2.2.2.1).trans (kept8 m ρ b hb c)

theorem unsc : Proc.devRef .tc b ∈ Pipeline.ucRefs τ sig := mem_uc b (args_ok b hb).2.2.2.2.2.2.2.2.2

omit hb

theorem W9_v179 : W9 m ρ c (Proc.devRef .tc main_v179) = (dat2 (V7 m ρ) c).arrAt 4 cfg2.N :=
  (W9_of_ne m ρ c main_v179 (by decide)).trans (W8_arr m ρ c 4)
theorem W9_v180 : W9 m ρ c (Proc.devRef .tc main_v180) = (dat3 (V8 m ρ) c).arrAt 4 cfg3.N := W9_arr m ρ c 4
theorem V8_v90 : V8 m ρ c main_v90 = V7 m ρ c main_v90 := W8_keep m ρ c main_v90 (by decide)
theorem V8_v177 : V8 m ρ c main_v177 = V7 m ρ c main_v177 := W8_keep m ρ c main_v177 (by decide)
theorem V8_v178 : V8 m ρ c main_v178 = V7 m ρ c main_v178 := W8_keep m ρ c main_v178 (by decide)
theorem W3_v4 : W3 m ρ c (Proc.devRef .tc main_v4) = (dat1 (V2 m ρ) c).arrAt 3 cfg1.N := W3_arr m ρ c 3
theorem W3_v3 : W3 m ρ c (Proc.devRef .tc main_v3) = (dat0 (V1 m ρ) c).arrAt 3 cfg0.N :=
  (W3_of_ne m ρ c main_v3 (by decide)).trans (W2_arr m ρ c 3)
theorem V2_v2 : V2 m ρ c main_v2 = V1 m ρ c main_v2 := W2_keep m ρ c main_v2 (by decide)

end Cert.Kernel.Fr

end
-- ==== Proof.KI.Embed0.lean ====
import proofs.«421092_j39041252721056_4_alg».proof.Proof.Gen.KernelIdeal.Launch
import proofs.«421092_j39041252721056_4_alg».proof.Proof.Gen.KernelIdeal.Skeleton
import proofs.«421092_j39041252721056_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1x1024x64 := Rect.unit (s := S1x1024x64) ![0, 0, 0] S1x1024x64.size inb_S1x1024x64_S1x1024x64_0_0_0
abbrev r0_1 : Rect S2000x3 := Rect.unit (s := S2000x3) ![0, 0] S2000x3.size inb_S2000x3_S2000x3_0_0
abbrev r0_2 : Rect S2000x1 := Rect.unit (s := S2000x1) ![0, 0] S2000x1.size inb_S2000x1_S2000x1_0_0
abbrev r0_3 : Rect S1x2000x192 := Rect.unit (s := S1x2000x192) ![0, 0, 0] S1x2000x192.size inb_S1x2000x192_S1x2000x192_0_0_0

def out0_3 (x0 : Vec F S1x1024x64 .f32) (x1 : Vec F S2000x3 .i32) (x2 : Vec F S2000x1 .f32) : Vec F S1x2000x192 .f32 :=
  View.canon [⟨r0_3, k0_pay1 (View.ld x0 r0_0) (View.ld x1 r0_1) (View.ld x2 r0_2)⟩]

-- The body on any four whole buffers: the inputs are kept, the output becomes `out0_3` of the inputs, and `Φ`, `O` pass through.
theorem embed_body0 (c : Dev nD) {i : grid0.Coords} {Φ O : sProp 𝕄} {arg2 : Memref sig .tc .vmem S1x1024x64 .f32} {harg2 : arg2.IsWhole} {arg3 : Memref sig .tc .vmem S2000x3 .i32} {harg3 : arg3.IsWhole} {arg4 : Memref sig .tc .vmem S2000x1 .f32} {harg4 : arg4.IsWhole} {arg5 : Memref sig .tc .vmem S1x2000x192 .f32} {harg5 : arg5.IsWhole}
    {x0 : Vec F S1x1024x64 .f32} {x1 : Vec F S2000x3 .i32} {x2 : Vec F S2000x1 .f32} {D0 D1 D2 D3 : Type} {g : D3 → Vec F S1x2000x192 .f32} :
    iprop(Φ ∗ O ∗ (∃ _ : D0, owns c arg2 fullShare x0) ∗ (∃ _ : D1, owns c arg3 fullShare x1) ∗ (∃ _ : D2, owns c arg4 fullShare x2) ∗ (∃ d, owns c arg5 fullShare (g d)))
      ⊢ wp frame (wpE (defs₀ (F := F)) Variants.none c none) Set.univ (cc0__embed_kernel i arg2 harg2 arg3 harg3 arg4 harg4 arg5 harg5) fun _ =>
        iprop(Φ ∗ O ∗ owns c arg2 fullShare x0 ∗ owns c arg3 fullShare x1 ∗ owns c arg4 fullShare x2 ∗ owns c arg5 fullShare (out0_3 x0 x1 x2)) := by
  simp only [cc0__embed_kernel_eq_skeleton]; unfold cc0__embed_kernel_skel owns
  iintro ⟨HΦ, HO, ⟨%_, %f0, %hf0, H0⟩, ⟨%_, %f1, %hf1, H1⟩, ⟨%_, %f2, %hf2, H2⟩, ⟨%_, %f3, -, H3⟩⟩
  subst hf0 hf1 hf2
  sl_exec
  sl_step
  iframe HΦ HO
  isplitl [H0]; · iexists _; iframe; ipureintro; rfl
  isplitl [H1]; · iexists _; iframe; ipureintro; rfl
  isplitl [H2]; · iexists _; iframe; ipureintro; rfl
  iexists _; iframe; ipureintro
  exact View.read_writes_eq_canon _ _ _ (View.cover_of_tiled _ S1x2000x192.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1, before0_2, after0_3]
  show _ ⊢ wp _ _ _ (bodyAt0 t) _
  exact embed_body0 c

theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.KernelIdeal.Fr

end
-- ==== Proof.KI.Embed1.lean ====
import proofs.«421092_j39041252721056_4_alg».proof.Proof.KI.Embed0

noncomputable section

namespace Cert.KernelIdeal.Fr

open Idealize.ShloMosaic Idealize.ShloMosaic.TcCoe
open Idealize.SL Idealize.SL.RA Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S1x1024x64 .f32) (x1 : Vec F S2000x3 .i32) (x2 : Vec F S2000x1 .f32) : Vec F S1x2000x192 .f32 :=
  View.canon [⟨r0_3, k1_pay1 (View.ld x0 r0_0) (View.ld x1 r0_1) (View.ld x2 r0_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl
theorem q_eq1 (c : Dev nD) (w : Fin cfg1.W) : (dat1 V c).q w = fullShare := rfl
theorem owed_eq1 (c : Dev nD) (t : Fin (cfg1.N + 1)) : (dat1 V c).owed t = 0 := rfl
theorem recorded_eq1 (c : Dev nD) (t : Fin (cfg1.N + 1)) : (dat1 V c).recorded t = Set.univ := rfl
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

-- Both regions run one and the same function.
theorem cc1_eq : cc1__embed_kernel (F := F) = cc0__embed_kernel := rfl

theorem body_obligation1 (c : Dev nD) : BodyObligation (dat1 (F := F) V c) (defs₀ (F := F)) Variants.none () Set.univ := fun t => by
  rw [bigSep_W0, bigSep_W0]
  simp only [before1_0, before1_1, before1_2, after1_3]
  show _ ⊢ wp _ _ _ (bodyAt1 t) _
  rw [bodyAt1, cc1_eq]
  exact embed_body0 c

theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

end Cert.KernelIdeal.Fr

end
-- ==== Proof.KI.Fc2Runs.lean ====
import proofs.«421092_j39041252721056_4_alg».proof.Proof.Gen.KernelIdeal.Launch
import proofs.«421092_j39041252721056_4_alg».proof.Proof.Gen.KernelIdeal.Skeleton
import proofs.«421092_j39041252721056_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- A whole memref owned at contents X is its cells at the raw contents that read X.
theorem owns_unread (c : Dev nD) {sp : Space} {sh : Shape} {e : EltTy} {m : Memref sig .tc sp sh e} (h : m.IsWhole) (q : PosShare TreeShare) (X : sh.Idx → Elt F e) :
    (owns c m q X : sProp 𝕄) = (m.view.loc c ↦[m.view.set]{q} h.unread X) := by
  unfold owns
  exact BI.equiv_iff.mp ⟨by show (_ : sProp 𝕄) ⊢ _; iintro ⟨%f, %hf, H⟩; obtain rfl := h.eq_unread hf; iexact H,
    by show (_ : sProp 𝕄) ⊢ _; iintro H; iexists _; isplitr; · ipureintro; exact h.read_unread _
       iexact H⟩

-- Pieces that cover a memref leave it owned at what they read back as, whatever it held.
theorem owns_of_writes (c : Dev nD) {sp : Space} {sh : Shape} {e : EltTy} (m : Memref sig .tc sp sh e) (q : PosShare TreeShare) (L : List (View.Piece (Elt F) sh e)) (X : sh.Idx → Elt F e)
    (h : ∀ f, m.view.read (Elt F) (m.view.writes (Elt F) f L) = X) :
    iprop(∃ f, m.view.loc c ↦[m.view.set]{q} m.view.writes (Elt F) f L) ⊢ (owns c m q X : sProp 𝕄) := by
  unfold owns; iintro ⟨%f, H⟩; iexists _; isplitr; · ipureintro; exact h f
  iexact H

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 5 = 0 :=
  (by decide +kernel : ∀ t : Fin grid2.N, cond2_0 (grid2.coords t) ↔ t.val % 5 = 0)

abbrev cond2_1 (i : grid2.Coords) : Prop := k2_cond2 i = 1#1
theorem hcond2_1 : ∀ t : Fin cfg2.N, cond2_1 (grid2.coords t) ↔ t.val % 5 = 4 :=
  (by decide +kernel : ∀ t : Fin grid2.N, cond2_1 (grid2.coords t) ↔ t.val % 5 = 4)

theorem idleAt2_4 : ∀ t : Fin cfg2.N, ¬cond2_1 (grid2.coords t) → cfg2.idle 4 (grid2.coords t) = true ∧ (cfg2.win 4).flush t = false := by decide +kernel
theorem liveAt2_4 : ∀ t : Fin cfg2.N, cond2_1 (grid2.coords t) → cfg2.idle 4 (grid2.coords t) = false := by decide +kernel

abbrev VO2_4 : View sig .tc .vmem S2000x256 .f32 := (Memref.whole cc2_stg4_0 : Memref sig .tc .vmem S2000x256 .f32).view
abbrev ms2_0 (t : Fin cfg2.N) : Memref sig .tc .vmem S1x2000x192 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x192x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2000x256 .f32 := win2_4.stage (cfg2.slots t 4)
abbrev hs2_4 (t : Fin cfg2.N) : (ms2_4 t).IsWhole := hstage2_4 ((cfg2.slots t 4).cast nbuf2_4)
abbrev scM2_0 : Memref sig .tc .vmem S2000x256 .f32 := Memref.whole cc2_scratch0
abbrev VS2_0 : View sig .tc .vmem S2000x256 .f32 := scM2_0.view

-- The launch's invariant with the accumulator's part stated as S.
def Inv2 (c : Dev nD) (S : sProp 𝕄) : sProp 𝕄 :=
  iprop(iprop(S ∗ Pipeline.scopedRestBut (Ix := Unit) (Name := ℕ) (U := UR sig nD τ) (Lvl := ℕ) (Val := Elt F) spec2 c [cc2_scratch0]) ∗ (∃ r, prngReg c r))

theorem PhiA2_eq (c : Dev nD) : (Pipeline.ΦA spec2 c : sProp 𝕄) = Inv2 c iprop(∃ d, owns c scM2_0 fullShare d) := by
  unfold Pipeline.ΦA Inv2; rw [scopedRest2_split]; simp only [scM2_0, owns_whole]; try rfl

variable (c : Dev nD) (i : grid2.Coords) (arg2 : Memref sig .tc .vmem S1x2000x192 .f32) (harg2 : arg2.IsWhole) (arg3 : Memref sig .tc .vmem S2000x1 .f32) (harg3 : arg3.IsWhole) (arg4 : Memref sig .tc .vmem S1x192x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S2000x256 .f32) (harg7 : arg7.IsWhole)

noncomputable def kernelRun2_A (hc0 : cond2_0 i) (hc1 : ¬cond2_1 i) (x0 : Vec F S1x2000x192 .f32) (x1 : Vec F S2000x1 .f32) (x2 : Vec F S1x192x256 .f32) (x3 : Vec F S1x256 .f32) :
    Σ' (L4 : List (View.Piece (Elt F) S2000x256 .f32)), { LS0 : List (View.Piece (Elt F) S2000x256 .f32) //
      ∀ (xi4 : Vec F S2000x256 .f32) (E : Set ℕ) (K : PUnit → sProp 𝕄),
        iprop(owns c arg2 fullShare x0 ∗ owns c arg3 fullShare x1 ∗ owns c arg4 fullShare x2 ∗ owns c arg5 fullShare x3 ∗ owns c arg6 fullShare xi4 ∗ (∃ d, owns c arg7 fullShare d)
            ∗ (iprop(owns c arg2 fullShare x0 ∗ owns c arg3 fullShare x1 ∗ owns c arg4 fullShare x2 ∗ owns c arg5 fullShare x3 ∗ owns c arg6 fullShare xi4 ∗ (∃ f, arg7.view.loc c ↦[arg7.view.set]{fullShare} arg7.view.writes (Elt F) f LS0)) -∗ K ⟨⟩))
          ⊢ wp frame (wpE (defs₀ (F := F)) Variants.none c none) E (cc2__scale_fc_kernel i arg2 harg2 arg3 harg3 arg4 harg4 arg5 harg5 arg6 harg6 arg7 harg7) K } := by
  refine ⟨[], ?_, fun xi4 E K => ?run⟩
  case run =>
    simp only [cc2__scale_fc_kernel_eq_skeleton]; unfold cc2__scale_fc_kernel_skel
    simp only [owns_unread c harg2, owns_unread c harg3, owns_unread c harg4, owns_unread c harg5, owns_unread c harg6, owns_unread c harg7]
    iintro ⟨H0, H1, H2, H3, H4, ⟨%ds0, HS0⟩, Hk⟩
    sl_exec (disch := first | exact hc0 | exact hc1)
    sl_step
    iapply Hk
    iframe H0 H1 H2 H3 H4
    iexists _; iexact HS0

noncomputable def kernelRun2_B (hc0 : ¬cond2_0 i) (hc1 : ¬cond2_1 i) (x0 : Vec F S1x2000x192 .f32) (x1 : Vec F S2000x1 .f32) (x2 : Vec F S1x192x256 .f32) (x3 : Vec F S1x256 .f32) (xs0 : Vec F S2000x256 .f32) :
    Σ' (L4 : List (View.Piece (Elt F) S2000x256 .f32)), { LS0 : List (View.Piece (Elt F) S2000x256 .f32) //
      ∀ (xi4 : Vec F S2000x256 .f32) (E : Set ℕ) (K : PUnit → sProp 𝕄),
        iprop(owns c arg2 fullShare x0 ∗ owns c arg3 fullShare x1 ∗ owns c arg4 fullShare x2 ∗ owns c arg5 fullShare x3 ∗ owns c arg6 fullShare xi4 ∗ owns c arg7 fullShare xs0
            ∗ (iprop(owns c arg2 fullShare x0 ∗ owns c arg3 fullShare x1 ∗ owns c arg4 fullShare x2 ∗ owns c arg5 fullShare x3 ∗ owns c arg6 fullShare xi4 ∗ (∃ f, arg7.view.loc c ↦[arg7.view.set]{fullShare} arg7.view.writes (Elt F) f LS0)) -∗ K ⟨⟩))
          ⊢ wp frame (wpE (defs₀ (F := F)) Variants.none c none) E (cc2__scale_fc_kernel i arg2 harg2 arg3 harg3 arg4 harg4 arg5 harg5 arg6 harg6 arg7 harg7) K } := by
  refine ⟨[], ?_, fun xi4 E K => ?run⟩
  case run =>
    simp only [cc2__scale_fc_kernel_eq_skeleton]; unfold cc2__scale_fc_kernel_skel
    simp only [owns_unread c harg2, owns_unread c harg3, owns_unread c harg4, owns_unread c harg5, owns_unread c harg6, owns_unread c harg7]
    iintro ⟨H0, H1, H2, H3, H4, HS0, Hk⟩
    sl_exec (disch := first | exact hc0 | exact hc1)
    sl_step
    iapply Hk
    iframe H0 H1 H2 H3 H4
    iexists _; iexact HS0

noncomputable def kernelRun2_C (hc0 : ¬cond2_0 i) (hc1 : cond2_1 i) (x0 : Vec F S1x2000x192 .f32) (x1 : Vec F S2000x1 .f32) (x2 : Vec F S1x192x256 .f32) (x3 : Vec F S1x256 .f32) (xs0 : Vec F S2000x256 .f32) :
    Σ' (L4 : List (View.Piece (Elt F) S2000x256 .f32)), { LS0 : List (View.Piece (Elt F) S2000x256 .f32) //
      ∀ (E : Set ℕ) (K : PUnit → sProp 𝕄),
        iprop(owns c arg2 fullShare x0 ∗ owns c arg3 fullShare x1 ∗ owns c arg4 fullShare x2 ∗ owns c arg5 fullShare x3 ∗ (∃ d, owns c arg6 fullShare d) ∗ owns c arg7 fullShare xs0
            ∗ (iprop(owns c arg2 fullShare x0 ∗ owns c arg3 fullShare x1 ∗ owns c arg4 fullShare x2 ∗ owns c arg5 fullShare x3 ∗ (∃ f, arg6.view.loc c ↦[arg6.view.set]{fullShare} arg6.view.writes (Elt F) f L4) ∗ (∃ f, arg7.view.loc c ↦[arg7.view.set]{fullShare} arg7.view.writes (Elt F) f LS0)) -∗ K ⟨⟩))
          ⊢ wp frame (wpE (defs₀ (F := F)) Variants.none c none) E (cc2__scale_fc_kernel i arg2 harg2 arg3 harg3 arg4 harg4 arg5 harg5 arg6 harg6 arg7 harg7) K } := by
  refine ⟨?_, ?_, fun E K => ?run⟩
  case run =>
    simp only [cc2__scale_fc_kernel_eq_skeleton]; unfold cc2__scale_fc_kernel_skel
    simp only [owns_unread c harg2, owns_unread c harg3, owns_unread c harg4, owns_unread c harg5, owns_unread c harg6, owns_unread c harg7]
    iintro ⟨H0, H1, H2, H3, ⟨%d4, H4⟩, HS0, Hk⟩
    sl_exec (disch := first | exact hc0 | exact hc1)
    sl_step
    iapply Hk
    iframe H0 H1 H2 H3
    isplitl [H4]; · iexists _; iexact H4
    iexists _; iexact HS0

end Cert.KernelIdeal.Fr

end
-- ==== Proof.KI.Fc2.lean ====
import proofs.«421092_j39041252721056_4_alg».proof.Proof.KI.Fc2Runs

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg2 : Memref sig .tc .vmem S1x2000x192 .f32) (harg2 : arg2.IsWhole) (arg3 : Memref sig .tc .vmem S2000x1 .f32) (harg3 : arg3.IsWhole) (arg4 : Memref sig .tc .vmem S1x192x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S2000x256 .f32) (harg7 : arg7.IsWhole)

section
variable (hc0 : cond2_0 i) (hc1 : ¬cond2_1 i) (x0 : Vec F S1x2000x192 .f32) (x1 : Vec F S2000x1 .f32) (x2 : Vec F S1x192x256 .f32) (x3 : Vec F S1x256 .f32)

def out2_A_4 : Vec F S2000x256 .f32 :=
  VO2_4.read (Elt F) (VO2_4.writes (Elt F) VO2_4.junk (kernelRun2_A c i _ harg2 _ harg3 _ harg4 _ harg5 _ harg6 _ harg7 hc0 hc1 x0 x1 x2 x3).1)

theorem scover2_A_0 (y : S2000x256.Idx) : ∃ pc ∈ (kernelRun2_A c i _ harg2 _ harg3 _ harg4 _ harg5 _ harg6 _ harg7 hc0 hc1 x0 x1 x2 x3).2.1, y ∈ pc.1.set :=
  View.cover_of_tiledL _ S2000x256.size (by sl_kernel_rfl) y

def sout2_A_0 : Vec F S2000x256 .f32 :=
  VS2_0.read (Elt F) (VS2_0.writes (Elt F) VS2_0.junk (kernelRun2_A c i _ harg2 _ harg3 _ harg4 _ harg5 _ harg6 _ harg7 hc0 hc1 x0 x1 x2 x3).2.1)

end

section
variable (hc0 : ¬cond2_0 i) (hc1 : ¬cond2_1 i) (x0 : Vec F S1x2000x192 .f32) (x1 : Vec F S2000x1 .f32) (x2 : Vec F S1x192x256 .f32) (x3 : Vec F S1x256 .f32) (xs0 : Vec F S2000x256 .f32)

def out2_B_4 : Vec F S2000x256 .f32 :=
  VO2_4.read (Elt F) (VO2_4.writes (Elt F) VO2_4.junk (kernelRun2_B c i _ harg2 _ harg3 _ harg4 _ harg5 _ harg6 _ harg7 hc0 hc1 x0 x1 x2 x3 xs0).1)

theorem scover2_B_0 (y : S2000x256.Idx) : ∃ pc ∈ (kernelRun2_B c i _ harg2 _ harg3 _ harg4 _ harg5 _ harg6 _ harg7 hc0 hc1 x0 x1 x2 x3 xs0).2.1, y ∈ pc.1.set :=
  View.cover_of_tiledL _ S2000x256.size (by sl_kernel_rfl) y

def sout2_B_0 : Vec F S2000x256 .f32 :=
  VS2_0.read (Elt F) (VS2_0.writes (Elt F) VS2_0.junk (kernelRun2_B c i _ harg2 _ harg3 _ harg4 _ harg5 _ harg6 _ harg7 hc0 hc1 x0 x1 x2 x3 xs0).2.1)

end

section
variable (hc0 : ¬cond2_0 i) (hc1 : cond2_1 i) (x0 : Vec F S1x2000x192 .f32) (x1 : Vec F S2000x1 .f32) (x2 : Vec F S1x192x256 .f32) (x3 : Vec F S1x256 .f32) (xs0 : Vec F S2000x256 .f32)

theorem cover2_C_4 (y : S2000x256.Idx) : ∃ pc ∈ (kernelRun2_C c i _ harg2 _ harg3 _ harg4 _ harg5 _ harg6 _ harg7 hc0 hc1 x0 x1 x2 x3 xs0).1, y ∈ pc.1.set :=
  View.cover_of_tiledL _ S2000x256.size (by sl_kernel_rfl) y

def out2_C_4 : Vec F S2000x256 .f32 :=
  VO2_4.read (Elt F) (VO2_4.writes (Elt F) VO2_4.junk (kernelRun2_C c i _ harg2 _ harg3 _ harg4 _ harg5 _ harg6 _ harg7 hc0 hc1 x0 x1 x2 x3 xs0).1)

theorem scover2_C_0 (y : S2000x256.Idx) : ∃ pc ∈ (kernelRun2_C c i _ harg2 _ harg3 _ harg4 _ harg5 _ harg6 _ harg7 hc0 hc1 x0 x1 x2 x3 xs0).2.1, y ∈ pc.1.set :=
  View.cover_of_tiledL _ S2000x256.size (by sl_kernel_rfl) y

def sout2_C_0 : Vec F S2000x256 .f32 :=
  VS2_0.read (Elt F) (VS2_0.writes (Elt F) VS2_0.junk (kernelRun2_C c i _ harg2 _ harg3 _ harg4 _ harg5 _ harg6 _ harg7 hc0 hc1 x0 x1 x2 x3 xs0).2.1)

end

end

-- What the output's buffer and the accumulator hold after point t, the accumulator found at s.
def step2 (c : Dev nD) (t : Fin cfg2.N) (s : Vec F S2000x256 .f32) : Vec F S2000x256 .f32 × Vec F S2000x256 .f32 :=
  if h0 : t.val % 5 = 0 then
    (out2_A_4 c _ _ (hs2_0 t) _ (hs2_1 t) _ (hs2_2 t) _ (hs2_3 t) _ (hs2_4 t) scM2_0 (Memref.isWhole_whole _) ((hcond2_0 t).mpr h0) (fun h => by have := (hcond2_1 t).mp h; omega) (iblk2 V c 0 t) (iblk2 V c 1 t) (iblk2 V c 2 t) (iblk2 V c 3 t), sout2_A_0 c _ _ (hs2_0 t) _ (hs2_1 t) _ (hs2_2 t) _ (hs2_3 t) _ (hs2_4 t) scM2_0 (Memref.isWhole_whole _) ((hcond2_0 t).mpr h0) (fun h => by have := (hcond2_1 t).mp h; omega) (iblk2 V c 0 t) (iblk2 V c 1 t) (iblk2 V c 2 t) (iblk2 V c 3 t))
  else if h1 : t.val % 5 = 4 then
    (out2_C_4 c _ _ (hs2_0 t) _ (hs2_1 t) _ (hs2_2 t) _ (hs2_3 t) _ (hs2_4 t) scM2_0 (Memref.isWhole_whole _) (fun h => h0 ((hcond2_0 t).mp h)) ((hcond2_1 t).mpr h1) (iblk2 V c 0 t) (iblk2 V c 1 t) (iblk2 V c 2 t) (iblk2 V c 3 t) s, sout2_C_0 c _ _ (hs2_0 t) _ (hs2_1 t) _ (hs2_2 t) _ (hs2_3 t) _ (hs2_4 t) scM2_0 (Memref.isWhole_whole _) (fun h => h0 ((hcond2_0 t).mp h)) ((hcond2_1 t).mpr h1) (iblk2 V c 0 t) (iblk2 V c 1 t) (iblk2 V c 2 t) (iblk2 V c 3 t) s)
  else
    (out2_B_4 c _ _ (hs2_0 t) _ (hs2_1 t) _ (hs2_2 t) _ (hs2_3 t) _ (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) s, sout2_B_0 c _ _ (hs2_0 t) _ (hs2_1 t) _ (hs2_2 t) _ (hs2_3 t) _ (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) s)

def outsAt2 (c : Dev nD) : (n : ℕ) → n < cfg2.N → Vec F S2000x256 .f32 × Vec F S2000x256 .f32
  | 0, hn => step2 V c ⟨0, hn⟩ (VS2_0.read (Elt F) VS2_0.junk)
  | n + 1, hn => step2 V c ⟨n + 1, hn⟩ (outsAt2 c n (Nat.lt_of_succ_lt hn)).2

theorem outsAt2_A (c : Dev nD) (t : Fin cfg2.N) (h0 : t.val % 5 = 0) (h1 : ¬t.val % 5 = 4) :
    outsAt2 V c t.val t.isLt = (out2_A_4 c _ _ (hs2_0 t) _ (hs2_1 t) _ (hs2_2 t) _ (hs2_3 t) _ (hs2_4 t) scM2_0 (Memref.isWhole_whole _) ((hcond2_0 t).mpr h0) (fun h => h1 ((hcond2_1 t).mp h)) (iblk2 V c 0 t) (iblk2 V c 1 t) (iblk2 V c 2 t) (iblk2 V c 3 t), sout2_A_0 c _ _ (hs2_0 t) _ (hs2_1 t) _ (hs2_2 t) _ (hs2_3 t) _ (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨_ | n, hn⟩ := t
  · rfl
  · exact dif_pos h0

theorem outsAt2_B (c : Dev nD) (t : Fin cfg2.N) (h0 : ¬t.val % 5 = 0) (h1 : ¬t.val % 5 = 4) :
    outsAt2 V c t.val t.isLt = (out2_B_4 c _ _ (hs2_0 t) _ (hs2_1 t) _ (hs2_2 t) _ (hs2_3 t) _ (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2, sout2_B_0 c _ _ (hs2_0 t) _ (hs2_1 t) _ (hs2_2 t) _ (hs2_3 t) _ (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨_ | n, hn⟩ := t
  · exact absurd (Nat.zero_mod 5) h0
  · exact (dif_neg h0).trans (dif_neg h1)

theorem outsAt2_C (c : Dev nD) (t : Fin cfg2.N) (h0 : ¬t.val % 5 = 0) (h1 : t.val % 5 = 4) :
    outsAt2 V c t.val t.isLt = (out2_C_4 c _ _ (hs2_0 t) _ (hs2_1 t) _ (hs2_2 t) _ (hs2_3 t) _ (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C_0 c _ _ (hs2_0 t) _ (hs2_1 t) _ (hs2_2 t) _ (hs2_3 t) _ (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨_ | n, hn⟩ := t
  · exact absurd (Nat.zero_mod 5) h0
  · exact (dif_neg h0).trans (dif_pos h1)

-- The invariant: after point n the accumulator holds what that point left in it.
def PhiS2 (c : Dev nD) : (n : ℕ) → n ≤ cfg2.N → sProp 𝕄
  | 0, _ => Pipeline.ΦA spec2 c
  | n + 1, hn => Inv2 c (owns c scM2_0 fullShare (outsAt2 V c n hn).2)

theorem PhiS2_pos (c : Dev nD) (n : ℕ) (h : n ≤ cfg2.N) (hz : n ≠ 0) :
    PhiS2 V c n h = Inv2 c (owns c scM2_0 fullShare (outsAt2 V c (n - 1) (by omega)).2) := by
  cases n with
  | zero => exact absurd rfl hz
  | succ n => rfl

-- Forgetting what the accumulator holds gives the invariant of the first point back.
theorem PhiS2_any (c : Dev nD) : ∀ (n : ℕ) (h : n ≤ cfg2.N), PhiS2 V c n h ⊢ (Pipeline.ΦA spec2 c : sProp 𝕄)
  | 0, _ => Entails.of_eq rfl
  | n + 1, h => by
    unfold PhiS2; rw [PhiA2_eq]; unfold Inv2
    iintro ⟨⟨HS0, HR⟩, Hg⟩
    iframe HR Hg
    iexists _; iexact HS0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem q_eq2 (c : Dev nD) (w : Fin cfg2.W) : (dat2 V c).q w = fullShare := rfl
theorem owed_eq2 (c : Dev nD) (t : Fin (cfg2.N + 1)) : (dat2 V c).owed t = 0 := rfl
theorem recorded_eq2 (c : Dev nD) (t : Fin (cfg2.N + 1)) : (dat2 V c).recorded t = Set.univ := rfl
theorem after2_4 (c : Dev nD) (t : Fin cfg2.N) : (dat2 V c).after 4 t = (outsAt2 V c t.val t.isLt).1 := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

-- Each case's run, its inputs at their blocks; the accumulator goes in as the invariant holds it and comes back at this point's contents.
theorem sound_body2 (c : Dev nD) (t : Fin cfg2.N) :
    iprop(PhiS2 V c t.val (Nat.le_of_lt t.isLt) ∗ (dat2 V c).owesAt () t.castSucc
      ∗ (∃ d : (cfg2.win 0).block.Idx → Elt F (cfg2.win 0).elt, owns c (ms2_0 t) fullShare (iblk2 V c 0 t))
      ∗ (∃ d : (cfg2.win 1).block.Idx → Elt F (cfg2.win 1).elt, owns c (ms2_1 t) fullShare (iblk2 V c 1 t))
      ∗ (∃ d : (cfg2.win 2).block.Idx → Elt F (cfg2.win 2).elt, owns c (ms2_2 t) fullShare (iblk2 V c 2 t))
      ∗ (∃ d : (cfg2.win 3).block.Idx → Elt F (cfg2.win 3).elt, owns c (ms2_3 t) fullShare (iblk2 V c 3 t))
      ∗ (∃ d, owns c (ms2_4 t) fullShare ((dat2 V c).before 4 t d)))
    ⊢ wp frame (wpE (defs₀ (F := F)) Variants.none c none) Set.univ (bodyAt2 t) (fun _ => iprop(Inv2 c (owns c scM2_0 fullShare (outsAt2 V c t.val t.isLt).2) ∗ (dat2 V c).owesAt () t.castSucc
      ∗ owns c (ms2_0 t) fullShare (iblk2 V c 0 t) ∗ owns c (ms2_1 t) fullShare (iblk2 V c 1 t) ∗ owns c (ms2_2 t) fullShare (iblk2 V c 2 t) ∗ owns c (ms2_3 t) fullShare (iblk2 V c 3 t)
      ∗ (dat2 V c).leavesExact 4 t)) := by
  unfold bodyAt2
  by_cases h1 : t.val % 5 = 4
  · have h0 : ¬t.val % 5 = 0 := by omega
    have hc0 := fun h => h0 ((hcond2_0 t).mp h)
    have hc1 := (hcond2_1 t).mpr h1
    rw [show (dat2 V c).leavesExact 4 t = owns c (ms2_4 t) fullShare ((dat2 V c).after 4 t) from by
          unfold Dat.leavesExact; rw [liveAt2_4 t hc1],
      after2_4, outsAt2_C V c t h0 h1, PhiS2_pos V c _ _ (by omega : t.val ≠ 0)]
    unfold Inv2; dsimp only
    iintro ⟨⟨⟨HS0, HR⟩, Hg⟩, Ho, ⟨%d0, H0⟩, ⟨%d1, H1⟩, ⟨%d2, H2⟩, ⟨%d3, H3⟩, ⟨%d4, H4⟩⟩
    iapply (kernelRun2_C c _ _ _ _ _ _ _ _ _ _ _ _ _ hc0 hc1 _ _ _ _ _).2.2 Set.univ _
    iframe H0 H1 H2 H3 HS0
    isplitl [H4]; · iexists _; iexact H4
    iintro ⟨H0, H1, H2, H3, H4, HS0⟩
    iframe HR Hg Ho H0 H1 H2 H3
    isplitl [HS0]
    · iapply owns_of_writes c _ _ _ _ fun _ => View.read_writes_of_cover _ _ _ _ _ (scover2_C_0 c _ _ _ _ _ _ _ _ _ _ _ _ _ hc0 hc1 _ _ _ _ _)
      iexact HS0
    iapply owns_of_writes c _ _ _ _ fun _ => View.read_writes_of_cover _ _ _ _ _ (cover2_C_4 c _ _ _ _ _ _ _ _ _ _ _ _ _ hc0 hc1 _ _ _ _ _)
    iexact H4
  · have hc1 := fun h => h1 ((hcond2_1 t).mp h)
    rw [Dat.leavesExact_idle (dat2 V c) 4 t (idleAt2_4 t hc1).1 (idleAt2_4 t hc1).2]
    by_cases h0 : t.val % 5 = 0
    · have hc0 := (hcond2_0 t).mpr h0
      rw [outsAt2_A V c t h0 h1]
      dsimp only
      refine BIBase.Entails.trans (sep_mono_left (PhiS2_any V c _ _)) ?_
      rw [PhiA2_eq]; unfold Inv2
      iintro ⟨⟨⟨⟨%ds0, HS0⟩, HR⟩, Hg⟩, Ho, ⟨%d0, H0⟩, ⟨%d1, H1⟩, ⟨%d2, H2⟩, ⟨%d3, H3⟩, ⟨%d4, H4⟩⟩
      iapply (kernelRun2_A c _ _ _ _ _ _ _ _ _ _ _ _ _ hc0 hc1 _ _ _ _).2.2 _ Set.univ _
      iframe H0 H1 H2 H3 H4
      isplitl [HS0]; · iexists _; iexact HS0
      iintro ⟨H0, H1, H2, H3, H4, HS0⟩
      iframe HR Hg Ho H0 H1 H2 H3
      isplitl [HS0]
      · iapply owns_of_writes c _ _ _ _ fun _ => View.read_writes_of_cover _ _ _ _ _ (scover2_A_0 c _ _ _ _ _ _ _ _ _ _ _ _ _ hc0 hc1 _ _ _ _)
        iexact HS0
      iexists _; iexact H4
    · have hc0 := fun h => h0 ((hcond2_0 t).mp h)
      rw [outsAt2_B V c t h0 h1, PhiS2_pos V c _ _ (by omega : t.val ≠ 0)]
      unfold Inv2; dsimp only
      iintro ⟨⟨⟨HS0, HR⟩, Hg⟩, Ho, ⟨%d0, H0⟩, ⟨%d1, H1⟩, ⟨%d2, H2⟩, ⟨%d3, H3⟩, ⟨%d4, H4⟩⟩
      iapply (kernelRun2_B c _ _ _ _ _ _ _ _ _ _ _ _ _ hc0 hc1 _ _ _ _ _).2.2 _ Set.univ _
      iframe H0 H1 H2 H3 H4 HS0
      iintro ⟨H0, H1, H2, H3, H4, HS0⟩
      iframe HR Hg Ho H0 H1 H2 H3
      isplitl [HS0]
      · iapply owns_of_writes c _ _ _ _ fun _ => View.read_writes_of_cover _ _ _ _ _ (scover2_B_0 c _ _ _ _ _ _ _ _ _ _ _ _ _ hc0 hc1 _ _ _ _ _)
        iexact HS0
      iexists _; iexact H4

theorem body_obligation2 (c : Dev nD) : BodyObligation (dat2 (F := F) V c) (defs₀ (F := F)) Variants.none () Set.univ := fun t => by
  rw [bigSep_W2, bigSep_W2]
  simp only [before2_0, before2_1, before2_2, before2_3]
  exact sound_body2 V c t

theorem hin2 (c : Dev nD) : (Pipeline.ΦA spec2 c : sProp 𝕄) ⊢ (dat2 V c).Φ 0 := Entails.of_eq rfl

theorem hout2 (c : Dev nD) : (dat2 V c).Φ (Fin.last cfg2.N) ⊢ (Pipeline.ΦA spec2 c : sProp 𝕄) := PhiS2_any V c (Fin.last cfg2.N).val _

end Cert.KernelIdeal.Fr

end
-- ==== Proof.KI.Fc3Runs.lean ====
import proofs.«421092_j39041252721056_4_alg».proof.Proof.KI.Fc2Runs

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 5 = 0 :=
  (by decide +kernel : ∀ t : Fin grid3.N, cond3_0 (grid3.coords t) ↔ t.val % 5 = 0)

abbrev cond3_1 (i : grid3.Coords) : Prop := k3_cond2 i = 1#1
theorem hcond3_1 : ∀ t : Fin cfg3.N, cond3_1 (grid3.coords t) ↔ t.val % 5 = 4 :=
  (by decide +kernel : ∀ t : Fin grid3.N, cond3_1 (grid3.coords t) ↔ t.val % 5 = 4)

theorem idleAt3_4 : ∀ t : Fin cfg3.N, ¬cond3_1 (grid3.coords t) → cfg3.idle 4 (grid3.coords t) = true ∧ (cfg3.win 4).flush t = false := by decide +kernel
theorem liveAt3_4 : ∀ t : Fin cfg3.N, cond3_1 (grid3.coords t) → cfg3.idle 4 (grid3.coords t) = false := by decide +kernel

abbrev VO3_4 : View sig .tc .vmem S2000x256 .f32 := (Memref.whole cc3_stg4_0 : Memref sig .tc .vmem S2000x256 .f32).view
abbrev ms3_0 (t : Fin cfg3.N) : Memref sig .tc .vmem S1x2000x192 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x192x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x256 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2000x256 .f32 := win3_4.stage (cfg3.slots t 4)
abbrev hs3_4 (t : Fin cfg3.N) : (ms3_4 t).IsWhole := hstage3_4 ((cfg3.slots t 4).cast nbuf3_4)
abbrev scM3_0 : Memref sig .tc .vmem S2000x256 .f32 := Memref.whole cc3_scratch0
abbrev VS3_0 : View sig .tc .vmem S2000x256 .f32 := scM3_0.view

-- The launch's invariant with the accumulator's part stated as S.
def Inv3 (c : Dev nD) (S : sProp 𝕄) : sProp 𝕄 :=
  iprop(iprop(S ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = Inv3 c iprop(∃ d, owns c scM3_0 fullShare d) := by
  unfold Pipeline.ΦA Inv3; rw [scopedRest3_split]; simp only [scM3_0, owns_whole]; try rfl

variable (c : Dev nD) (i : grid3.Coords) (arg2 : Memref sig .tc .vmem S1x2000x192 .f32) (harg2 : arg2.IsWhole) (arg3 : Memref sig .tc .vmem S2000x1 .f32) (harg3 : arg3.IsWhole) (arg4 : Memref sig .tc .vmem S1x192x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S2000x256 .f32) (harg7 : arg7.IsWhole)

-- Both regions run one and the same function, so region 2's runs are region 3's.
theorem cc3_eq : cc3__scale_fc_kernel (F := F) = cc2__scale_fc_kernel := rfl

noncomputable def kernelRun3_A (hc0 : cond3_0 i) (hc1 : ¬cond3_1 i) (x0 : Vec F S1x2000x192 .f32) (x1 : Vec F S2000x1 .f32) (x2 : Vec F S1x192x256 .f32) (x3 : Vec F S1x256 .f32) :=
  kernelRun2_A c i arg2 harg2 arg3 harg3 arg4 harg4 arg5 harg5 arg6 harg6 arg7 harg7 hc0 hc1 x0 x1 x2 x3

noncomputable def kernelRun3_B (hc0 : ¬cond3_0 i) (hc1 : ¬cond3_1 i) (x0 : Vec F S1x2000x192 .f32) (x1 : Vec F S2000x1 .f32) (x2 : Vec F S1x192x256 .f32) (x3 : Vec F S1x256 .f32) (xs0 : Vec F S2000x256 .f32) :=
  kernelRun2_B c i arg2 harg2 arg3 harg3 arg4 harg4 arg5 harg5 arg6 harg6 arg7 harg7 hc0 hc1 x0 x1 x2 x3 xs0

noncomputable def kernelRun3_C (hc0 : ¬cond3_0 i) (hc1 : cond3_1 i) (x0 : Vec F S1x2000x192 .f32) (x1 : Vec F S2000x1 .f32) (x2 : Vec F S1x192x256 .f32) (x3 : Vec F S1x256 .f32) (xs0 : Vec F S2000x256 .f32) :=
  kernelRun2_C c i arg2 harg2 arg3 harg3 arg4 harg4 arg5 harg5 arg6 harg6 arg7 harg7 hc0 hc1 x0 x1 x2 x3 xs0

end Cert.KernelIdeal.Fr

end
-- ==== Proof.KI.Fc3.lean ====
import proofs.«421092_j39041252721056_4_alg».proof.Proof.KI.Fc3Runs
import proofs.«421092_j39041252721056_4_alg».proof.Proof.KI.Fc2

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid3.Coords) (arg2 : Memref sig .tc .vmem S1x2000x192 .f32) (harg2 : arg2.IsWhole) (arg3 : Memref sig .tc .vmem S2000x1 .f32) (harg3 : arg3.IsWhole) (arg4 : Memref sig .tc .vmem S1x192x256 .f32) (harg4 : arg4.IsWhole) (arg5 : Memref sig .tc .vmem S1x256 .f32) (harg5 : arg5.IsWhole) (arg6 : Memref sig .tc .vmem S2000x256 .f32) (harg6 : arg6.IsWhole) (arg7 : Memref sig .tc .vmem S2000x256 .f32) (harg7 : arg7.IsWhole)

section
variable (hc0 : cond3_0 i) (hc1 : ¬cond3_1 i) (x0 : Vec F S1x2000x192 .f32) (x1 : Vec F S2000x1 .f32) (x2 : Vec F S1x192x256 .f32) (x3 : Vec F S1x256 .f32)

def out3_A_4 : Vec F S2000x256 .f32 :=
  VO3_4.read (Elt F) (VO3_4.writes (Elt F) VO3_4.junk (kernelRun3_A c i _ harg2 _ harg3 _ harg4 _ harg5 _ harg6 _ harg7 hc0 hc1 x0 x1 x2 x3).1)

theorem scover3_A_0 (y : S2000x256.Idx) : ∃ pc ∈ (kernelRun3_A c i _ harg2 _ harg3 _ harg4 _ harg5 _ harg6 _ harg7 hc0 hc1 x0 x1 x2 x3).2.1, y ∈ pc.1.set :=
  scover2_A_0 c i _ harg2 _ harg3 _ harg4 _ harg5 _ harg6 _ harg7 hc0 hc1 x0 x1 x2 x3 y

def sout3_A_0 : Vec F S2000x256 .f32 :=
  VS3_0.read (Elt F) (VS3_0.writes (Elt F) VS3_0.junk (kernelRun3_A c i _ harg2 _ harg3 _ harg4 _ harg5 _ harg6 _ harg7 hc0 hc1 x0 x1 x2 x3).2.1)

end

section
variable (hc0 : ¬cond3_0 i) (hc1 : ¬cond3_1 i) (x0 : Vec F S1x2000x192 .f32) (x1 : Vec F S2000x1 .f32) (x2 : Vec F S1x192x256 .f32) (x3 : Vec F S1x256 .f32) (xs0 : Vec F S2000x256 .f32)

def out3_B_4 : Vec F S2000x256 .f32 :=
  VO3_4.read (Elt F) (VO3_4.writes (Elt F) VO3_4.junk (kernelRun3_B c i _ harg2 _ harg3 _ harg4 _ harg5 _ harg6 _ harg7 hc0 hc1 x0 x1 x2 x3 xs0).1)

theorem scover3_B_0 (y : S2000x256.Idx) : ∃ pc ∈ (kernelRun3_B c i _ harg2 _ harg3 _ harg4 _ harg5 _ harg6 _ harg7 hc0 hc1 x0 x1 x2 x3 xs0).2.1, y ∈ pc.1.set :=
  scover2_B_0 c i _ harg2 _ harg3 _ harg4 _ harg5 _ harg6 _ harg7 hc0 hc1 x0 x1 x2 x3 xs0 y

def sout3_B_0 : Vec F S2000x256 .f32 :=
  VS3_0.read (Elt F) (VS3_0.writes (Elt F) VS3_0.junk (kernelRun3_B c i _ harg2 _ harg3 _ harg4 _ harg5 _ harg6 _ harg7 hc0 hc1 x0 x1 x2 x3 xs0).2.1)

end

section
variable (hc0 : ¬cond3_0 i) (hc1 : cond3_1 i) (x0 : Vec F S1x2000x192 .f32) (x1 : Vec F S2000x1 .f32) (x2 : Vec F S1x192x256 .f32) (x3 : Vec F S1x256 .f32) (xs0 : Vec F S2000x256 .f32)

theorem cover3_C_4 (y : S2000x256.Idx) : ∃ pc ∈ (kernelRun3_C c i _ harg2 _ harg3 _ harg4 _ harg5 _ harg6 _ harg7 hc0 hc1 x0 x1 x2 x3 xs0).1, y ∈ pc.1.set :=
  cover2_C_4 c i _ harg2 _ harg3 _ harg4 _ harg5 _ harg6 _ harg7 hc0 hc1 x0 x1 x2 x3 xs0 y

def out3_C_4 : Vec F S2000x256 .f32 :=
  VO3_4.read (Elt F) (VO3_4.writes (Elt F) VO3_4.junk (kernelRun3_C c i _ harg2 _ harg3 _ harg4 _ harg5 _ harg6 _ harg7 hc0 hc1 x0 x1 x2 x3 xs0).1)

theorem scover3_C_0 (y : S2000x256.Idx) : ∃ pc ∈ (kernelRun3_C c i _ harg2 _ harg3 _ harg4 _ harg5 _ harg6 _ harg7 hc0 hc1 x0 x1 x2 x3 xs0).2.1, y ∈ pc.1.set :=
  scover2_C_0 c i _ harg2 _ harg3 _ harg4 _ harg5 _ harg6 _ harg7 hc0 hc1 x0 x1 x2 x3 xs0 y

def sout3_C_0 : Vec F S2000x256 .f32 :=
  VS3_0.read (Elt F) (VS3_0.writes (Elt F) VS3_0.junk (kernelRun3_C c i _ harg2 _ harg3 _ harg4 _ harg5 _ harg6 _ harg7 hc0 hc1 x0 x1 x2 x3 xs0).2.1)

end

end

-- What the output's buffer and the accumulator hold after point t, the accumulator found at s.
def step3 (c : Dev nD) (t : Fin cfg3.N) (s : Vec F S2000x256 .f32) : Vec F S2000x256 .f32 × Vec F S2000x256 .f32 :=
  if h0 : t.val % 5 = 0 then
    (out3_A_4 c _ _ (hs3_0 t) _ (hs3_1 t) _ (hs3_2 t) _ (hs3_3 t) _ (hs3_4 t) scM3_0 (Memref.isWhole_whole _) ((hcond3_0 t).mpr h0) (fun h => by have := (hcond3_1 t).mp h; omega) (iblk3 V c 0 t) (iblk3 V c 1 t) (iblk3 V c 2 t) (iblk3 V c 3 t), sout3_A_0 c _ _ (hs3_0 t) _ (hs3_1 t) _ (hs3_2 t) _ (hs3_3 t) _ (hs3_4 t) scM3_0 (Memref.isWhole_whole _) ((hcond3_0 t).mpr h0) (fun h => by have := (hcond3_1 t).mp h; omega) (iblk3 V c 0 t) (iblk3 V c 1 t) (iblk3 V c 2 t) (iblk3 V c 3 t))
  else if h1 : t.val % 5 = 4 then
    (out3_C_4 c _ _ (hs3_0 t) _ (hs3_1 t) _ (hs3_2 t) _ (hs3_3 t) _ (hs3_4 t) scM3_0 (Memref.isWhole_whole _) (fun h => h0 ((hcond3_0 t).mp h)) ((hcond3_1 t).mpr h1) (iblk3 V c 0 t) (iblk3 V c 1 t) (iblk3 V c 2 t) (iblk3 V c 3 t) s, sout3_C_0 c _ _ (hs3_0 t) _ (hs3_1 t) _ (hs3_2 t) _ (hs3_3 t) _ (hs3_4 t) scM3_0 (Memref.isWhole_whole _) (fun h => h0 ((hcond3_0 t).mp h)) ((hcond3_1 t).mpr h1) (iblk3 V c 0 t) (iblk3 V c 1 t) (iblk3 V c 2 t) (iblk3 V c 3 t) s)
  else
    (out3_B_4 c _ _ (hs3_0 t) _ (hs3_1 t) _ (hs3_2 t) _ (hs3_3 t) _ (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) s, sout3_B_0 c _ _ (hs3_0 t) _ (hs3_1 t) _ (hs3_2 t) _ (hs3_3 t) _ (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) s)

def outsAt3 (c : Dev nD) : (n : ℕ) → n < cfg3.N → Vec F S2000x256 .f32 × Vec F S2000x256 .f32
  | 0, hn => step3 V c ⟨0, hn⟩ (VS3_0.read (Elt F) VS3_0.junk)
  | n + 1, hn => step3 V c ⟨n + 1, hn⟩ (outsAt3 c n (Nat.lt_of_succ_lt hn)).2

theorem outsAt3_A (c : Dev nD) (t : Fin cfg3.N) (h0 : t.val % 5 = 0) (h1 : ¬t.val % 5 = 4) :
    outsAt3 V c t.val t.isLt = (out3_A_4 c _ _ (hs3_0 t) _ (hs3_1 t) _ (hs3_2 t) _ (hs3_3 t) _ (hs3_4 t) scM3_0 (Memref.isWhole_whole _) ((hcond3_0 t).mpr h0) (fun h => h1 ((hcond3_1 t).mp h)) (iblk3 V c 0 t) (iblk3 V c 1 t) (iblk3 V c 2 t) (iblk3 V c 3 t), sout3_A_0 c _ _ (hs3_0 t) _ (hs3_1 t) _ (hs3_2 t) _ (hs3_3 t) _ (hs3_4 t) scM3_0 (Memref.isWhole_whole _) ((hcond3_0 t).mpr h0) (fun h => h1 ((hcond3_1 t).mp h)) (iblk3 V c 0 t) (iblk3 V c 1 t) (iblk3 V c 2 t) (iblk3 V c 3 t)) := by
  obtain ⟨_ | n, hn⟩ := t
  · rfl
  · exact dif_pos h0

theorem outsAt3_B (c : Dev nD) (t : Fin cfg3.N) (h0 : ¬t.val % 5 = 0) (h1 : ¬t.val % 5 = 4) :
    outsAt3 V c t.val t.isLt = (out3_B_4 c _ _ (hs3_0 t) _ (hs3_1 t) _ (hs3_2 t) _ (hs3_3 t) _ (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2, sout3_B_0 c _ _ (hs3_0 t) _ (hs3_1 t) _ (hs3_2 t) _ (hs3_3 t) _ (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2) := by
  obtain ⟨_ | n, hn⟩ := t
  · exact absurd (Nat.zero_mod 5) h0
  · exact (dif_neg h0).trans (dif_neg h1)

theorem outsAt3_C (c : Dev nD) (t : Fin cfg3.N) (h0 : ¬t.val % 5 = 0) (h1 : t.val % 5 = 4) :
    outsAt3 V c t.val t.isLt = (out3_C_4 c _ _ (hs3_0 t) _ (hs3_1 t) _ (hs3_2 t) _ (hs3_3 t) _ (hs3_4 t) scM3_0 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2, sout3_C_0 c _ _ (hs3_0 t) _ (hs3_1 t) _ (hs3_2 t) _ (hs3_3 t) _ (hs3_4 t) scM3_0 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2) := by
  obtain ⟨_ | n, hn⟩ := t
  · exact absurd (Nat.zero_mod 5) h0
  · exact (dif_neg h0).trans (dif_pos h1)

-- The invariant: after point n the accumulator holds what that point left in it.
def PhiS3 (c : Dev nD) : (n : ℕ) → n ≤ cfg3.N → sProp 𝕄
  | 0, _ => Pipeline.ΦA spec3 c
  | n + 1, hn => Inv3 c (owns c scM3_0 fullShare (outsAt3 V c n hn).2)

theorem PhiS3_pos (c : Dev nD) (n : ℕ) (h : n ≤ cfg3.N) (hz : n ≠ 0) :
    PhiS3 V c n h = Inv3 c (owns c scM3_0 fullShare (outsAt3 V c (n - 1) (by omega)).2) := by
  cases n with
  | zero => exact absurd rfl hz
  | succ n => rfl

-- Forgetting what the accumulator holds gives the invariant of the first point back.
theorem PhiS3_any (c : Dev nD) : ∀ (n : ℕ) (h : n ≤ cfg3.N), PhiS3 V c n h ⊢ (Pipeline.ΦA spec3 c : sProp 𝕄)
  | 0, _ => Entails.of_eq rfl
  | n + 1, h => by
    unfold PhiS3; rw [PhiA3_eq]; unfold Inv3
    iintro ⟨⟨HS0, HR⟩, Hg⟩
    iframe HR Hg
    iexists _; iexact HS0

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl
theorem q_eq3 (c : Dev nD) (w : Fin cfg3.W) : (dat3 V c).q w = fullShare := rfl
theorem owed_eq3 (c : Dev nD) (t : Fin (cfg3.N + 1)) : (dat3 V c).owed t = 0 := rfl
theorem recorded_eq3 (c : Dev nD) (t : Fin (cfg3.N + 1)) : (dat3 V c).recorded t = Set.univ := rfl
theorem after3_4 (c : Dev nD) (t : Fin cfg3.N) : (dat3 V c).after 4 t = (outsAt3 V c t.val t.isLt).1 := rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

-- Each case's run, its inputs at their blocks; the accumulator goes in as the invariant holds it and comes back at this point's contents.
theorem sound_body3 (c : Dev nD) (t : Fin cfg3.N) :
    iprop(PhiS3 V c t.val (Nat.le_of_lt t.isLt) ∗ (dat3 V c).owesAt () t.castSucc
      ∗ (∃ d : (cfg3.win 0).block.Idx → Elt F (cfg3.win 0).elt, owns c (ms3_0 t) fullShare (iblk3 V c 0 t))
      ∗ (∃ d : (cfg3.win 1).block.Idx → Elt F (cfg3.win 1).elt, owns c (ms3_1 t) fullShare (iblk3 V c 1 t))
      ∗ (∃ d : (cfg3.win 2).block.Idx → Elt F (cfg3.win 2).elt, owns c (ms3_2 t) fullShare (iblk3 V c 2 t))
      ∗ (∃ d : (cfg3.win 3).block.Idx → Elt F (cfg3.win 3).elt, owns c (ms3_3 t) fullShare (iblk3 V c 3 t))
      ∗ (∃ d, owns c (ms3_4 t) fullShare ((dat3 V c).before 4 t d)))
    ⊢ wp frame (wpE (defs₀ (F := F)) Variants.none c none) Set.univ (bodyAt3 t) (fun _ => iprop(Inv3 c (owns c scM3_0 fullShare (outsAt3 V c t.val t.isLt).2) ∗ (dat3 V c).owesAt () t.castSucc
      ∗ owns c (ms3_0 t) fullShare (iblk3 V c 0 t) ∗ owns c (ms3_1 t) fullShare (iblk3 V c 1 t) ∗ owns c (ms3_2 t) fullShare (iblk3 V c 2 t) ∗ owns c (ms3_3 t) fullShare (iblk3 V c 3 t)
      ∗ (dat3 V c).leavesExact 4 t)) := by
  unfold bodyAt3; rw [cc3_eq]
  by_cases h1 : t.val % 5 = 4
  · have h0 : ¬t.val % 5 = 0 := by omega
    have hc0 := fun h => h0 ((hcond3_0 t).mp h)
    have hc1 := (hcond3_1 t).mpr h1
    rw [show (dat3 V c).leavesExact 4 t = owns c (ms3_4 t) fullShare ((dat3 V c).after 4 t) from by
          unfold Dat.leavesExact; rw [liveAt3_4 t hc1],
      after3_4, outsAt3_C V c t h0 h1, PhiS3_pos V c _ _ (by omega : t.val ≠ 0)]
    unfold Inv3; dsimp only
    iintro ⟨⟨⟨HS0, HR⟩, Hg⟩, Ho, ⟨%d0, H0⟩, ⟨%d1, H1⟩, ⟨%d2, H2⟩, ⟨%d3, H3⟩, ⟨%d4, H4⟩⟩
    iapply (kernelRun3_C c _ _ _ _ _ _ _ _ _ _ _ _ _ hc0 hc1 _ _ _ _ _).2.2 Set.univ _
    iframe H0 H1 H2 H3 HS0
    isplitl [H4]; · iexists _; iexact H4
    iintro ⟨H0, H1, H2, H3, H4, HS0⟩
    iframe HR Hg Ho H0 H1 H2 H3
    isplitl [HS0]
    · iapply owns_of_writes c _ _ _ _ fun _ => View.read_writes_of_cover _ _ _ _ _ (scover3_C_0 c _ _ _ _ _ _ _ _ _ _ _ _ _ hc0 hc1 _ _ _ _ _)
      iexact HS0
    iapply owns_of_writes c _ _ _ _ fun _ => View.read_writes_of_cover _ _ _ _ _ (cover3_C_4 c _ _ _ _ _ _ _ _ _ _ _ _ _ hc0 hc1 _ _ _ _ _)
    iexact H4
  · have hc1 := fun h => h1 ((hcond3_1 t).mp h)
    rw [Dat.leavesExact_idle (dat3 V c) 4 t (idleAt3_4 t hc1).1 (idleAt3_4 t hc1).2]
    by_cases h0 : t.val % 5 = 0
    · have hc0 := (hcond3_0 t).mpr h0
      rw [outsAt3_A V c t h0 h1]
      dsimp only
      refine BIBase.Entails.trans (sep_mono_left (PhiS3_any V c _ _)) ?_
      rw [PhiA3_eq]; unfold Inv3
      iintro ⟨⟨⟨⟨%ds0, HS0⟩, HR⟩, Hg⟩, Ho, ⟨%d0, H0⟩, ⟨%d1, H1⟩, ⟨%d2, H2⟩, ⟨%d3, H3⟩, ⟨%d4, H4⟩⟩
      iapply (kernelRun3_A c _ _ _ _ _ _ _ _ _ _ _ _ _ hc0 hc1 _ _ _ _).2.2 _ Set.univ _
      iframe H0 H1 H2 H3 H4
      isplitl [HS0]; · iexists _; iexact HS0
      iintro ⟨H0, H1, H2, H3, H4, HS0⟩
      iframe HR Hg Ho H0 H1 H2 H3
      isplitl [HS0]
      · iapply owns_of_writes c _ _ _ _ fun _ => View.read_writes_of_cover _ _ _ _ _ (scover3_A_0 c _ _ _ _ _ _ _ _ _ _ _ _ _ hc0 hc1 _ _ _ _)
        iexact HS0
      iexists _; iexact H4
    · have hc0 := fun h => h0 ((hcond3_0 t).mp h)
      rw [outsAt3_B V c t h0 h1, PhiS3_pos V c _ _ (by omega : t.val ≠ 0)]
      unfold Inv3; dsimp only
      iintro ⟨⟨⟨HS0, HR⟩, Hg⟩, Ho, ⟨%d0, H0⟩, ⟨%d1, H1⟩, ⟨%d2, H2⟩, ⟨%d3, H3⟩, ⟨%d4, H4⟩⟩
      iapply (kernelRun3_B c _ _ _ _ _ _ _ _ _ _ _ _ _ hc0 hc1 _ _ _ _ _).2.2 _ Set.univ _
      iframe H0 H1 H2 H3 H4 HS0
      iintro ⟨H0, H1, H2, H3, H4, HS0⟩
      iframe HR Hg Ho H0 H1 H2 H3
      isplitl [HS0]
      · iapply owns_of_writes c _ _ _ _ fun _ => View.read_writes_of_cover _ _ _ _ _ (scover3_B_0 c _ _ _ _ _ _ _ _ _ _ _ _ _ hc0 hc1 _ _ _ _ _)
        iexact HS0
      iexists _; iexact H4

theorem body_obligation3 (c : Dev nD) : BodyObligation (dat3 (F := F) V c) (defs₀ (F := F)) Variants.none () Set.univ := fun t => by
  rw [bigSep_W3, bigSep_W3]
  simp only [before3_0, before3_1, before3_2, before3_3]
  exact sound_body3 V c t

theorem hin3 (c : Dev nD) : (Pipeline.ΦA spec3 c : sProp 𝕄) ⊢ (dat3 V c).Φ 0 := Entails.of_eq rfl

theorem hout3 (c : Dev nD) : (dat3 V c).Φ (Fin.last cfg3.N) ⊢ (Pipeline.ΦA spec3 c : sProp 𝕄) := PhiS3_any V c (Fin.last cfg3.N).val _

end Cert.KernelIdeal.Fr

end
-- ==== Proof.KI.Run.lean ====
import proofs.«421092_j39041252721056_4_alg».proof.Proof.KI.Embed0
import proofs.«421092_j39041252721056_4_alg».proof.Proof.KI.Embed1
import proofs.«421092_j39041252721056_4_alg».proof.Proof.KI.Fc2
import proofs.«421092_j39041252721056_4_alg».proof.Proof.KI.Fc3

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after main_part0_ops0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev V3 : (c : Dev nD) → (b : Ref sig .tc) → Buf (Elt F) ((c : Thread nD τ).loc b) := fun c b => W3 m ρ c b

abbrev W4 : Dev nD → Valuation τ sig (Elt F) := fun c => StableHlo.after main_part0_ops1 (W3 m ρ c)

abbrev W5 : Dev nD → Valuation τ sig (Elt F) := fun c => StableHlo.after main_part1_ops0 (W4 m ρ c)

abbrev W6 : Dev nD → Valuation τ sig (Elt F) := fun c => StableHlo.after main_part2_ops0 (W5 m ρ c)

abbrev W7 : Dev nD → Valuation τ sig (Elt F) := fun c => StableHlo.after main_part3_ops0 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb

abbrev V8 : (c : Dev nD) → (b : Ref sig .tc) → Buf (Elt F) ((c : Thread nD τ).loc b) := fun c b => W8 m ρ c b

def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb

abbrev V9 : (c : Dev nD) → (b : Ref sig .tc) → Buf (Elt F) ((c : Thread nD τ).loc b) := fun c b => W9 m ρ c b

abbrev adm : (p : Fin 4) → (pcfgs (F := F) p).Adm := fun p => (cfgs p).toPCfg_adm
abbrev sp (p : Fin 4) := (Pipeline.pin (pcfgs (F := F)) adm p).spec

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V7 m ρ) c
  | ⟨3, _⟩ => fun c => dat3 (V8 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m ρ c) ∗ ∃ r, prngReg c r)

set_option backward.isDefEq.respectTransparency.types false in
/-- A region entered with the buffers at `Win` leaves them at `Wout`: its arrays are split out and put back, nothing is owed. -/
def mkReg (p : Fin 4) (lf : Pipeline.LaunchFacts (nD := nD) (τ := τ) cfgs p) (Win Wout : Dev nD → Valuation τ sig (Elt F))
    (hq : ∀ c w, (pdats m ρ p c).q w = fullShare)
    (hA : ∀ c w, (pdats m ρ p c).A w = Win c (Proc.devRef .tc (Pipeline.arrRef (sp (F := F) p) w)))
    (howed : ∀ c t, (pdats m ρ p c).owed t = 0) (hrec : ∀ c, (pdats m ρ p c).recorded 0 = Set.univ)
    (hbody : ∀ c, BodyObligation (pdats m ρ p c) (defs₀ (F := F)) 𝒱₀ () Set.univ)
    (hΦi : ∀ c, (Pipeline.ΦA (sp (F := F) p) c : sProp 𝕄) ⊢ (pdats m ρ p c).Φ 0)
    (hΦo : ∀ c, (pdats m ρ p c).Φ (Fin.last _) ⊢ (Pipeline.ΦA (sp (F := F) p) c : sProp 𝕄))
    (harr : ∀ c w, Wout c (Proc.devRef .tc (Pipeline.arrRef (sp (F := F) p) w)) = (pdats m ρ p c).arrAt w (Pipeline.pin (pcfgs (F := F)) adm p).N)
    (hne : ∀ c (b : Ref sig .tc), (∀ w, Pipeline.arrRef (sp (F := F) p) w ≠ b) → Wout c (Proc.devRef .tc b) = Win c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (sp (F := F) p) c (fun b => Win c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have e0 : (pdats m ρ p c).owed 0 = 0 := howed c 0
      have er : (pdats m ρ p c).recorded 0 = Set.univ := hrec c
      unfold Pipeline.Dat.owesAt Pipeline.owesWithin
      rw [e0]
      icases HO with ⟨%W, HO⟩; iexists W; isplitr; · ipureintro; exact fun x _ => Or.inl (er ▸ Set.mem_univ x)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Win c b) (fun b => Wout c b) ((pdats m ρ p c).arrAt · (Pipeline.pin (pcfgs (F := F)) adm p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    have eN : (pdats m ρ p c).owed (Fin.last (Pipeline.pin (pcfgs (F := F)) adm p).N) = 0 := howed c _
    unfold Pipeline.Dat.owesAt Pipeline.owesWithin
    rw [eN]
    icases HO with ⟨%W, -, HO⟩; iexists W; iexact HO

def reg0 : Pipeline.RegionSeg (pcfgs (F := F)) adm (pdats m ρ) () defs₀ 𝒱₀ L lv 0 :=
  mkReg m ρ 0 launch0 (W1 m ρ) (W2 m ρ) (q_eq0 (V1 m ρ)) (A_eq0 (V1 m ρ)) (owed_eq0 (V1 m ρ))
    (fun c => recorded_eq0 (V1 m ρ) c 0) (body_obligation0 (V1 m ρ)) (hin0 (V1 m ρ)) (hout0 (V1 m ρ)) (W2_arr m ρ) (W2_of_ne m ρ)
def reg1 : Pipeline.RegionSeg (pcfgs (F := F)) adm (pdats m ρ) () defs₀ 𝒱₀ L lv 1 :=
  mkReg m ρ 1 launch1 (W2 m ρ) (W3 m ρ) (q_eq1 (V2 m ρ)) (A_eq1 (V2 m ρ)) (owed_eq1 (V2 m ρ))
    (fun c => recorded_eq1 (V2 m ρ) c 0) (body_obligation1 (V2 m ρ)) (hin1 (V2 m ρ)) (hout1 (V2 m ρ)) (W3_arr m ρ) (W3_of_ne m ρ)
def reg2 : Pipeline.RegionSeg (pcfgs (F := F)) adm (pdats m ρ) () defs₀ 𝒱₀ L lv 2 :=
  mkReg m ρ 2 launch2 (W7 m ρ) (W8 m ρ) (q_eq2 (V7 m ρ)) (A_eq2 (V7 m ρ)) (owed_eq2 (V7 m ρ))
    (fun c => recorded_eq2 (V7 m ρ) c 0) (body_obligation2 (V7 m ρ)) (hin2 (V7 m ρ)) (hout2 (V7 m ρ)) (W8_arr m ρ) (W8_of_ne m ρ)
def reg3 : Pipeline.RegionSeg (pcfgs (F := F)) adm (pdats m ρ) () defs₀ 𝒱₀ L lv 3 :=
  mkReg m ρ 3 launch3 (W8 m ρ) (W9 m ρ) (q_eq3 (V8 m ρ)) (A_eq3 (V8 m ρ)) (owed_eq3 (V8 m ρ))
    (fun c => recorded_eq3 (V8 m ρ) c 0) (body_obligation3 (V8 m ρ)) (hin3 (V8 m ρ)) (hout3 (V8 m ρ)) (W9_arr m ρ) (W9_of_ne m ρ)

abbrev segs : List (Pipeline.Seg (pcfgs (F := F)) adm (pdats m ρ) () defs₀ 𝒱₀ L lv) :=
  [ .host (hseg main_part0_ops0 main_part0_ops0_sub (by (repeat' apply And.intro) <;> rfl) (W0 m ρ)),
    .region (reg0 m ρ),
    .region (reg1 m ρ),
    .host (hseg main_part0_ops1 main_part0_ops1_sub (by (repeat' apply And.intro) <;> rfl) (W3 m ρ)),
    .host (hseg main_part1_ops0 main_part1_ops0_sub (by (repeat' apply And.intro) <;> rfl) (W4 m ρ)),
    .host (hseg main_part2_ops0 main_part2_ops0_sub (by (repeat' apply And.intro) <;> rfl) (W5 m ρ)),
    .host (hseg main_part3_ops0 main_part3_ops0_sub (by (repeat' apply And.intro) <;> rfl) (W6 m ρ)),
    .region (reg2 m ρ),
    .region (reg3 m ρ) ]

theorem main_run (c : Dev nD) : main (F := F) c = Pipeline.Seg.run (segs m ρ) := (main_chain_windows c).trans (by chain_rfl)

set_option backward.isDefEq.respectTransparency.types false in

theorem run_all : θ_run defs (onTc (τ := τ) (main (F := F))) ⟨m, fun _ => 0, ρ⟩ (fun s => ∀ c : Dev nD,
      ∀ b ∈ Pipeline.ucRefs τ sig, s.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        show iprop(_ ∗ _ ∗ _) ⊢ iprop((_ ∗ _) ∗ _); iintro ⟨Hh, Hp, Ho⟩; isplitr [Ho]; isplitl [Hh]; iexact Hh; iexact Hp; iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Fr

end
-- ==== Proof.KI.Keep.lean ====
import proofs.«421092_j39041252721056_4_alg».proof.Proof.Gen.KernelIdeal.Launch

set_option maxRecDepth 16384

noncomputable section

namespace Cert.KernelIdeal.Fr

open Idealize.ShloMosaic Idealize.ShloMosaic.TcCoe Idealize.SL.Sem
open Cert.KernelIdeal Cert.KernelIdeal.Gen

variable {F : FTy → Type} [FloatOps F] (W : Valuation τ sig (Elt F)) (b : Ref sig .tc)

abbrev wr0 : List (Ref sig .tc) := [main_v0, main_v1, main_v2]
abbrev wr1 : List (Ref sig .tc) := [main_v5, main_v6, main_v7, main_v8, main_c, main_v9, main_v10, main_c_0, main_v11, main_v12, main_v13, main_v14, main_v15, main_v16, main_v17, main_cst, main_v18, main_v19, main_v20, main_v21, main_v22, main_v23, main_v24, main_c_1, main_v25, main_v26, main_c_2, main_v27, main_v28, main_v29, main_v30, main_v31, main_v32, main_v33, main_cst_3, main_v34, main_v35, main_v36, main_v37, main_v38, main_v39, main_v40, main_c_4, main_v41, main_v42, main_c_5, main_v43, main_v44, main_v45, main_v46, main_v47, main_v48, main_v49, main_cst_6, main_v50]
abbrev wr2 : List (Ref sig .tc) := [main_v51, main_v52, main_v53, main_v54, main_v55, main_v56, main_c_7, main_v57, main_v58, main_c_8, main_v59, main_v60, main_v61, main_v62, main_v63, main_v64, main_v65, main_cst_9, main_v66, main_v67, main_v68, main_v69, main_v70, main_v71, main_v72, main_c_10, main_v73, main_v74, main_c_11, main_v75, main_v76, main_v77, main_v78, main_v79, main_v80, main_v81, main_cst_12, main_v82, main_v83, main_v84, main_v85, main_v86, main_v87, main_v88, main_v89, main_v90, main_v91, main_v92, main_v93, main_v94, main_c_13, main_v95, main_v96, main_c_14, main_v97, main_v98, main_v99, main_v100, main_v101, main_v102]
abbrev wr3 : List (Ref sig .tc) := [main_v103, main_cst_15, main_v104, main_v105, main_v106, main_v107, main_v108, main_v109, main_v110, main_c_16, main_v111, main_v112, main_c_17, main_v113, main_v114, main_v115, main_v116, main_v117, main_v118, main_v119, main_cst_18, main_v120, main_v121, main_v122, main_v123, main_v124, main_v125, main_v126, main_c_19, main_v127, main_v128, main_c_20, main_v129, main_v130, main_v131, main_v132, main_v133, main_v134, main_v135, main_cst_21, main_v136, main_v137, main_v138, main_v139, main_v140, main_v141, main_v142, main_c_22, main_v143, main_v144, main_c_23, main_v145, main_v146, main_v147, main_v148, main_v149, main_v150, main_v151, main_cst_24, main_v152]
abbrev wr4 : List (Ref sig .tc) := [main_v153, main_v154, main_v155, main_v156, main_v157, main_v158, main_c_25, main_v159, main_v160, main_c_26, main_v161, main_v162, main_v163, main_v164, main_v165, main_v166, main_v167, main_cst_27, main_v168, main_v169, main_v170, main_v171, main_v172, main_v173, main_v174, main_v175, main_v176, main_v177, main_v178]

/-- A stretch of host operations changes only the references its operations write: each writes its one result. -/
theorem keep0 (hb : b ∉ wr0) : StableHlo.after main_part0_ops0 W (Proc.devRef .tc b) = W (Proc.devRef .tc b) := by
  refine StableHlo.after_of_writes_sub _ _ ?_ hb
  repeat' apply And.intro
  all_goals exact Finset.singleton_subset_iff.2 (List.mem_toFinset.2 (List.mem_map_of_mem (by decide)))
theorem keep1 (hb : b ∉ wr1) : StableHlo.after main_part0_ops1 W (Proc.devRef .tc b) = W (Proc.devRef .tc b) := by
  refine StableHlo.after_of_writes_sub _ _ ?_ hb
  repeat' apply And.intro
  all_goals exact Finset.singleton_subset_iff.2 (List.mem_toFinset.2 (List.mem_map_of_mem (by decide)))
theorem keep2 (hb : b ∉ wr2) : StableHlo.after main_part1_ops0 W (Proc.devRef .tc b) = W (Proc.devRef .tc b) := by
  refine StableHlo.after_of_writes_sub _ _ ?_ hb
  repeat' apply And.intro
  all_goals exact Finset.singleton_subset_iff.2 (List.mem_toFinset.2 (List.mem_map_of_mem (by decide)))
theorem keep3 (hb : b ∉ wr3) : StableHlo.after main_part2_ops0 W (Proc.devRef .tc b) = W (Proc.devRef .tc b) := by
  refine StableHlo.after_of_writes_sub _ _ ?_ hb
  repeat' apply And.intro
  all_goals exact Finset.singleton_subset_iff.2 (List.mem_toFinset.2 (List.mem_map_of_mem (by decide)))
theorem keep4 (hb : b ∉ wr4) : StableHlo.after main_part3_ops0 W (Proc.devRef .tc b) = W (Proc.devRef .tc b) := by
  refine StableHlo.after_of_writes_sub _ _ ?_ hb
  repeat' apply And.intro
  all_goals exact Finset.singleton_subset_iff.2 (List.mem_toFinset.2 (List.mem_map_of_mem (by decide)))

end Cert.KernelIdeal.Fr

end
-- ==== Proof.KI.Kept.lean ====
import proofs.«421092_j39041252721056_4_alg».proof.Proof.KI.Run
import proofs.«421092_j39041252721056_4_alg».proof.Proof.KI.Keep

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] (m : (ℓ : Loc nD τ sig) → Buf (Elt F) ℓ) (ρ : Dev nD → PrngReg)

/-- A region changes its output arrays only: an input window's array, and a buffer it does not name, leave as they entered. -/
theorem W2_keep (c : Dev nD) (b : Ref sig .tc) (hb : ∀ w, Pipeline.arrRef spec0 w = b → (cfg0.win w).isOut = false) :
    W2 m ρ c (Proc.devRef .tc b) = W1 m ρ c (Proc.devRef .tc b) :=
  (Classical.em (∃ w, Pipeline.arrRef spec0 w = b)).elim
    (fun ⟨w, e⟩ => by subst e; exact (W2_arr m ρ c w).trans (((dat0 (V1 m ρ) c).arrAt_in w (hb w rfl) _).trans (A_eq0 (V1 m ρ) c w)))
    fun h => W2_of_ne m ρ c b fun w e => h ⟨w, e⟩
theorem W3_keep (c : Dev nD) (b : Ref sig .tc) (hb : ∀ w, Pipeline.arrRef spec1 w = b → (cfg1.win w).isOut = false) :
    W3 m ρ c (Proc.devRef .tc b) = W2 m ρ c (Proc.devRef .tc b) :=
  (Classical.em (∃ w, Pipeline.arrRef spec1 w = b)).elim
    (fun ⟨w, e⟩ => by subst e; exact (W3_arr m ρ c w).trans (((dat1 (V2 m ρ) c).arrAt_in w (hb w rfl) _).trans (A_eq1 (V2 m ρ) c w)))
    fun h => W3_of_ne m ρ c b fun w e => h ⟨w, e⟩
theorem W8_keep (c : Dev nD) (b : Ref sig .tc) (hb : ∀ w, Pipeline.arrRef spec2 w = b → (cfg2.win w).isOut = false) :
    W8 m ρ c (Proc.devRef .tc b) = W7 m ρ c (Proc.devRef .tc b) :=
  (Classical.em (∃ w, Pipeline.arrRef spec2 w = b)).elim
    (fun ⟨w, e⟩ => by subst e; exact (W8_arr m ρ c w).trans (((dat2 (V7 m ρ) c).arrAt_in w (hb w rfl) _).trans (A_eq2 (V7 m ρ) c w)))
    fun h => W8_of_ne m ρ c b fun w e => h ⟨w, e⟩
theorem W9_keep (c : Dev nD) (b : Ref sig .tc) (hb : ∀ w, Pipeline.arrRef spec3 w = b → (cfg3.win w).isOut = false) :
    W9 m ρ c (Proc.devRef .tc b) = W8 m ρ c (Proc.devRef .tc b) :=
  (Classical.em (∃ w, Pipeline.arrRef spec3 w = b)).elim
    (fun ⟨w, e⟩ => by subst e; exact (W9_arr m ρ c w).trans (((dat3 (V8 m ρ) c).arrAt_in w (hb w rfl) _).trans (A_eq3 (V8 m ρ) c w)))
    fun h => W9_of_ne m ρ c b fun w e => h ⟨w, e⟩

abbrev args : List (Ref sig .tc) :=
  [main_arg0, main_arg1, main_arg2, main_arg3, main_arg4, main_arg5, main_arg6, main_arg7, main_arg8, main_arg9, main_arg10, main_arg11]

/-- No host operation writes an argument and no region has one as an output window. -/
theorem args_ok : ∀ b ∈ args, b ∉ wr0 ∧ b ∉ wr1 ∧ b ∉ wr2 ∧ b ∉ wr3 ∧ b ∉ wr4
    ∧ (∀ w, Pipeline.arrRef spec0 w = b → (cfg0.win w).isOut = false) ∧ (∀ w, Pipeline.arrRef spec1 w = b → (cfg1.win w).isOut = false)
    ∧ (∀ w, Pipeline.arrRef spec2 w = b → (cfg2.win w).isOut = false) ∧ (∀ w, Pipeline.arrRef spec3 w = b → (cfg3.win w).isOut = false)
    ∧ ¬(Proc.devRef .tc b : DevRef τ sig).isScoped := by decide

variable (b : Ref sig .tc) (hb : b ∈ args) (c : Dev nD)
include hb

/-- So every argument array holds its launch contents at each boundary. -/
theorem kept1 : W1 m ρ c (Proc.devRef .tc b) = m ((c : Thread nD τ).loc b) := keep0 _ b (args_ok b hb).1
theorem kept2 : W2 m ρ c (Proc.devRef .tc b) = m ((c : Thread nD τ).loc b) :=
  (W2_keep m ρ c b (args_ok b hb).2.2.2.2.2.1).trans (kept1 m ρ b hb c)
theorem kept3 : W3 m ρ c (Proc.devRef .tc b) = m ((c : Thread nD τ).loc b) :=
  (W3_keep m ρ c b (args_ok b hb).2.2.2.2.2.2.1).trans (kept2 m ρ b hb c)
theorem kept7 : W7 m ρ c (Proc.devRef .tc b) = m ((c : Thread nD τ).loc b) :=
  (keep4 _ b (args_ok b hb).2.2.2.2.1).trans ((keep3 _ b (args_ok b hb).2.2.2.1).trans ((keep2 _ b (args_ok b hb).2.2.1).trans
    ((keep1 _ b (args_ok b hb).2.1).trans (kept3 m ρ b hb c))))
theorem kept8 : W8 m ρ c (Proc.devRef .tc b) = m ((c : Thread nD τ).loc b) :=
  (W8_keep m ρ c b (args_ok b hb).2.2.2.2.2.2.2.1).trans (kept7 m ρ b hb c)
theorem kept9 : W9 m ρ c (Proc.devRef .tc b) = m ((c : Thread nD τ).loc b) :=
  (W9_keep m ρ c b (args_ok b hb).2.2.2.2.2.2.2.2.1).trans (kept8 m ρ b hb c)

theorem unsc : Proc.devRef .tc b ∈ Pipeline.ucRefs τ sig := mem_uc b (args_ok b hb).2.2.2.2.2.2.2.2.2

omit hb

theorem W9_v179 : W9 m ρ c (Proc.devRef .tc main_v179) = (dat2 (V7 m ρ) c).arrAt 4 cfg2.N :=
  (W9_of_ne m ρ c main_v179 (by decide)).trans (W8_arr m ρ c 4)
theorem W9_v180 : W9 m ρ c (Proc.devRef .tc main_v180) = (dat3 (V8 m ρ) c).arrAt 4 cfg3.N := W9_arr m ρ c 4
theorem V8_v90 : V8 m ρ c main_v90 = V7 m ρ c main_v90 := W8_keep m ρ c main_v90 (by decide)
theorem V8_v177 : V8 m ρ c main_v177 = V7 m ρ c main_v177 := W8_keep m ρ c main_v177 (by decide)
theorem V8_v178 : V8 m ρ c main_v178 = V7 m ρ c main_v178 := W8_keep m ρ c main_v178 (by decide)
theorem W3_v4 : W3 m ρ c (Proc.devRef .tc main_v4) = (dat1 (V2 m ρ) c).arrAt 3 cfg1.N := W3_arr m ρ c 3
theorem W3_v3 : W3 m ρ c (Proc.devRef .tc main_v3) = (dat0 (V1 m ρ) c).arrAt 3 cfg0.N :=
  (W3_of_ne m ρ c main_v3 (by decide)).trans (W2_arr m ρ c 3)
theorem V2_v2 : V2 m ρ c main_v2 = V1 m ρ c main_v2 := W2_keep m ρ c main_v2 (by decide)

end Cert.KernelIdeal.Fr

end
-- ==== Proof.KI.HostDefs.lean ====
import proofs.«421092_j39041252721056_4_alg».proof.Proof.Gen.KernelIdeal.Launch
import Idealize.ShloMosaic.Lib.StableHlo.Run

noncomputable section

namespace Cert.KernelIdeal.Val

open Cert.KernelIdeal Cert.KernelIdeal.Gen Idealize.ShloMosaic Idealize.ShloMosaic.TcCoe Idealize.SL.Sem Idealize.ShloMosaic.StableHlo

variable {F : FTy → Type} [FloatOps F]

def rowSlice (a : IVec S5x500000 32) : Fin 5 → IVec S1x500000 32
  | 0 => extractStridedSlice S1x500000 ![0, 0] a slices_S5x500000_S1x500000_0_0
  | 1 => extractStridedSlice S1x500000 ![1, 0] a slices_S5x500000_S1x500000_1_0
  | 2 => extractStridedSlice S1x500000 ![2, 0] a slices_S5x500000_S1x500000_2_0
  | 3 => extractStridedSlice S1x500000 ![3, 0] a slices_S5x500000_S1x500000_3_0
  | 4 => extractStridedSlice S1x500000 ![4, 0] a slices_S5x500000_S1x500000_4_0
  | ⟨_ + 5, h⟩ => absurd h (Nat.not_lt.2 (Nat.le_add_left _ _))

def rowOf (a : IVec S5x500000 32) (r : Fin 5) : IVec S500000 32 :=
  shapeCast S500000 (rowSlice a r) shapeCasts_S1x500000_S500000

def sliceTbl (x : FVec F S5x50000x192 .f32) : Fin 5 → FVec F S50000x192 .f32
  | 0 => shapeCast S50000x192 (extractStridedSlice S1x50000x192 ![0, 0, 0] x slices_S5x50000x192_S1x50000x192_0_0_0) shapeCasts_S1x50000x192_S50000x192
  | 1 => shapeCast S50000x192 (extractStridedSlice S1x50000x192 ![1, 0, 0] x slices_S5x50000x192_S1x50000x192_1_0_0) shapeCasts_S1x50000x192_S50000x192
  | 2 => shapeCast S50000x192 (extractStridedSlice S1x50000x192 ![2, 0, 0] x slices_S5x50000x192_S1x50000x192_2_0_0) shapeCasts_S1x50000x192_S50000x192
  | 3 => shapeCast S50000x192 (extractStridedSlice S1x50000x192 ![3, 0, 0] x slices_S5x50000x192_S1x50000x192_3_0_0) shapeCasts_S1x50000x192_S50000x192
  | 4 => shapeCast S50000x192 (extractStridedSlice S1x50000x192 ![4, 0, 0] x slices_S5x50000x192_S1x50000x192_4_0_0) shapeCasts_S1x50000x192_S50000x192
  | ⟨_ + 5, h⟩ => absurd h (Nat.not_lt.2 (Nat.le_add_left _ _))

def col (idx : IVec S500000 32) : IVec S500000x1 32 :=
  broadcastInDim S500000x1 ![0] bcast_S500000_S500000x1_0 idx

def wrapCol (idx : IVec S500000 32) : IVec S500000x1 32 :=
  col (select (cmpi .slt idx (broadcastInDim S500000 ![] bcast_S_S500000 (constantI S_ 32 0#32)))
        (addi idx (broadcastInDim S500000 ![] bcast_S_S500000 (constantI S_ 32 50000#32))) idx)

def zerosTbl : FVec F S50000x192 .f32 :=
  broadcastInDim S50000x192 ![] bcast_S_S50000x192 (constant S_ .f32 0x00000000#32)

def gatherK (tbl : FVec F S50000x192 .f32) (gidx : IVec S500000 32) : FVec F S500000x192 .f32 :=
  Host.gather gather_S50000x192_S500000x1_S500000x192_1_0_n_n_0_1_1192 tbl (wrapCol gidx)

def scatterK (upd : FVec F S500000x192 .f32) (sidx : IVec S500000 32) : FVec F S50000x192 .f32 :=
  Host.scatterAdd scatter_S50000x192_S500000x1_S500000x192_1_0_0_1 zerosTbl (col sidx) upd

def aggK (tbl : FVec F S50000x192 .f32) (gidx sidx : IVec S500000 32) : FVec F S50000x192 .f32 :=
  scatterK (gatherK tbl gidx) sidx

def lift1 (x : FVec F S50000x192 .f32) : FVec F S1x50000x192 .f32 :=
  broadcastInDim S1x50000x192 ![1, 2] bcast_S50000x192_S1x50000x192_1_2 x

def stack5 (u0 u1 u2 u3 u4 : FVec F S1x50000x192 .f32) : FVec F S5x50000x192 .f32 :=
  concatenate S5x50000x192 0 [⟨S1x50000x192, u0⟩, ⟨S1x50000x192, u1⟩, ⟨S1x50000x192, u2⟩, ⟨S1x50000x192, u3⟩, ⟨S1x50000x192, u4⟩]
    concatenates_S1x50000x192_S1x50000x192_S1x50000x192_S1x50000x192_S1x50000x192_S5x50000x192_d0

def aggAll (x : FVec F S5x50000x192 .f32) (g s : IVec S5x500000 32) : FVec F S5x50000x192 .f32 :=
  stack5 (lift1 (aggK (sliceTbl x 0) (rowOf g 0) (rowOf s 0)))
    (lift1 (aggK (sliceTbl x 1) (rowOf g 1) (rowOf s 1)))
    (lift1 (aggK (sliceTbl x 2) (rowOf g 2) (rowOf s 2)))
    (lift1 (aggK (sliceTbl x 3) (rowOf g 3) (rowOf s 3)))
    (lift1 (aggK (sliceTbl x 4) (rowOf g 4) (rowOf s 4)))

abbrev mid (W : Valuation τ sig (Elt F)) : Valuation τ sig (Elt F) :=
  after main_part3_ops0 (after main_part2_ops0 (after main_part1_ops0 (after main_part0_ops1 W)))

end Cert.KernelIdeal.Val

end
-- ==== Proof.KI.HostVal.lean ====
import proofs.«421092_j39041252721056_4_alg».proof.Proof.KI.HostDefs

noncomputable section

namespace Cert.KernelIdeal.Val

open Cert.KernelIdeal Cert.KernelIdeal.Gen Idealize.ShloMosaic Idealize.ShloMosaic.TcCoe Idealize.SL.Sem Idealize.ShloMosaic.StableHlo

variable {F : FTy → Type} [FloatOps F]

theorem after_pre_v2 (W : Valuation τ sig (Elt F)) :
    after main_part0_ops0 W (Proc.devRef .tc main_v2)
      = shapeCast _ (Host.dotGeneral dot_S5x4_S4x65536_S5x65536_1_0_0_1_n_n none (W (Proc.devRef .tc main_arg8))
          (shapeCast _ (W (Proc.devRef .tc main_arg9)) shapeCasts_S4x1024x64_S4x65536)) shapeCasts_S5x65536_S5x1024x64 := by
  simp only [main_part0_ops0]
  after_results_simp
  rfl

set_option maxHeartbeats 2000000 in
theorem mid_v90 (W : Valuation τ sig (Elt F)) :
    mid W (Proc.devRef .tc main_v90) = aggAll (W (Proc.devRef .tc main_v3)) (W (Proc.devRef .tc main_arg2)) (W (Proc.devRef .tc main_arg3)) := by
  unfold mid
  simp only [main_part3_ops0, main_part2_ops0, main_part1_ops0, main_part0_ops1]
  after_results_simp
  rfl

set_option maxHeartbeats 2000000 in
theorem mid_v176 (W : Valuation τ sig (Elt F)) :
    mid W (Proc.devRef .tc main_v176) = aggAll (W (Proc.devRef .tc main_v4)) (W (Proc.devRef .tc main_arg3)) (W (Proc.devRef .tc main_arg2)) := by
  unfold mid
  simp only [main_part3_ops0, main_part2_ops0, main_part1_ops0, main_part0_ops1]
  after_results_simp
  rfl

theorem mid_v177 (W : Valuation τ sig (Elt F)) :
    mid W (Proc.devRef .tc main_v177) = shapeCast _ (W (Proc.devRef .tc main_arg10)) shapeCasts_S960x256_S5x192x256 := by
  unfold mid
  simp only [main_part3_ops0, main_part2_ops0, main_part1_ops0, main_part0_ops1]
  after_results_simp
  rfl

theorem mid_v178 (W : Valuation τ sig (Elt F)) :
    mid W (Proc.devRef .tc main_v178) = shapeCast _ (W (Proc.devRef .tc main_arg11)) shapeCasts_S256_S1x256 := by
  unfold mid
  simp only [main_part3_ops0, main_part2_ops0, main_part1_ops0, main_part0_ops1]
  after_results_simp
  rfl

end Cert.KernelIdeal.Val

end
-- ==== Proof.KI.EmbedArr0.lean ====
import proofs.«421092_j39041252721056_4_alg».proof.Proof.KI.Embed0
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.SL.Sem Cert.KernelIdeal Cert.KernelIdeal.Gen

variable {F : FTy → Type} [FloatOps F]

variable (V : (c : Dev nD) → (b : Ref sig .tc) → Buf (Elt F) ((c : Thread nD τ).loc b))

open Idealize.ShloMosaic.ValueIdx

theorem zero3 : (![0, 0, 0] : Fin 3 → Nat) = fun _ => 0 := funext fun a => by fin_cases a <;> rfl
theorem zero2 : (![0, 0] : Fin 2 → Nat) = fun _ => 0 := funext fun a => by fin_cases a <;> rfl

def embedG0 (W : Vec F S5x1024x64 .f32) (feat : Vec F S50000x3 .i32) (cj : Vec F S50000x1 .f32) : Vec F S5x50000x192 .f32 :=
  fun i => k0_pay1
    (fun y : S1x1024x64.Idx => W (ix3 (i 0 : Fin 5) (y 1 : Fin 1024) (y 2 : Fin 64)))
    (fun y : S2000x3.Idx => feat (ix2 (⟨2000 * ((i 1).val / 2000) + (y 0).val, by
        have h1 : (i 1).val < 50000 := (i 1).isLt
        have h2 : (y 0).val < 2000 := (y 0).isLt
        omega⟩ : Fin 50000) (y 1 : Fin 3)))
    (fun y : S2000x1.Idx => cj (ix2 (⟨2000 * ((i 1).val / 2000) + (y 0).val, by
        have h1 : (i 1).val < 50000 := (i 1).isLt
        have h2 : (y 0).val < 2000 := (y 0).isLt
        omega⟩ : Fin 50000) (y 1 : Fin 1)))
    (ix3 (0 : Fin 1) (⟨(i 1).val % 2000, Nat.mod_lt _ (by decide)⟩ : Fin 2000) (i 2 : Fin 192))

theorem embed0_idx : ∀ t : Fin cfg0.N,
    win0_0.index t (0 : Fin 3) = t.val / 25 ∧ win0_0.index t (1 : Fin 3) = 0 ∧ win0_0.index t (2 : Fin 3) = 0
    ∧ win0_1.index t (0 : Fin 2) = t.val % 25 ∧ win0_1.index t (1 : Fin 2) = 0
    ∧ win0_2.index t (0 : Fin 2) = t.val % 25 ∧ win0_2.index t (1 : Fin 2) = 0
    ∧ win0_3.index t (0 : Fin 3) = t.val / 25 ∧ win0_3.index t (1 : Fin 3) = t.val % 25 ∧ win0_3.index t (2 : Fin 3) = 0 :=
  (by decide +kernel : ∀ t : Fin grid0.N, _)

theorem embed0_out (x0 : Vec F S1x1024x64 .f32) (x1 : Vec F S2000x3 .i32) (x2 : Vec F S2000x1 .f32) :
    out0_3 x0 x1 x2 = k0_pay1 x0 x1 x2 := by
  unfold out0_3
  rw [View.canon_unit_zero zero3, View.ld_unit_zero zero3, View.ld_unit_zero zero2, View.ld_unit_zero zero2]

-- The body's value on the blocks of point t of any three arrays is block t of embedG0 of the arrays: each block's rows are the array's rows shifted by the tile's first row.
theorem embed0_blk (A : Vec F S5x1024x64 .f32) (B : Vec F S50000x3 .i32) (D : Vec F S50000x1 .f32) (t : Fin cfg0.N) :
    k0_pay1 (fun y => A (((cfg0.win 0).blk t).view.emb y)) (fun y => B (((cfg0.win 1).blk t).view.emb y))
      (fun y => D (((cfg0.win 2).blk t).view.emb y)) = ((cfg0.win 3).blk t).view.read (Elt F) (embedG0 A B D) := by
  obtain ⟨a00, a01, a02, a10, a11, a20, a21, a30, a31, a32⟩ := embed0_idx t
  funext j
  have hj0 : (j 0).val < 1 := (j 0).isLt
  have hj1 : (j 1).val < 2000 := (j 1).isLt
  show _ = embedG0 A B D (((cfg0.win 3).blk t).view.emb j)
  unfold embedG0
  congr 1
  · funext y
    have hy0 : (y 0).val < 1 := (y 0).isLt
    refine congrArg A (funext fun a => Fin.ext ?_)
    match a with
    | ⟨0, _⟩ => show win0_0.index t (0 : Fin 3) * 1 + 1 * (y 0).val = win0_3.index t (0 : Fin 3) * 1 + 1 * (j 0).val; omega
    | ⟨1, _⟩ => show win0_0.index t (1 : Fin 3) * 1024 + 1 * (y 1).val = (y 1).val; omega
    | ⟨2, _⟩ => show win0_0.index t (2 : Fin 3) * 64 + 1 * (y 2).val = (y 2).val; omega
  · funext y
    refine congrArg B (funext fun a => Fin.ext ?_)
    match a with
    | ⟨0, _⟩ => show win0_1.index t (0 : Fin 2) * 2000 + 1 * (y 0).val = 2000 * ((win0_3.index t (1 : Fin 3) * 2000 + 1 * (j 1).val) / 2000) + (y 0).val; omega
    | ⟨1, _⟩ => show win0_1.index t (1 : Fin 2) * 3 + 1 * (y 1).val = (y 1).val; omega
  · funext y
    refine congrArg D (funext fun a => Fin.ext ?_)
    match a with
    | ⟨0, _⟩ => show win0_2.index t (0 : Fin 2) * 2000 + 1 * (y 0).val = 2000 * ((win0_3.index t (1 : Fin 3) * 2000 + 1 * (j 1).val) / 2000) + (y 0).val; omega
    | ⟨1, _⟩ => show win0_2.index t (1 : Fin 2) * 1 + 1 * (y 1).val = (y 1).val; omega
  · funext a; apply Fin.ext
    match a with
    | ⟨0, _⟩ => show (j 0).val = 0; omega
    | ⟨1, _⟩ => show (j 1).val = (win0_3.index t (1 : Fin 3) * 2000 + 1 * (j 1).val) % 2000; omega
    | ⟨2, _⟩ => show (j 2).val = win0_3.index t (2 : Fin 3) * 192 + 1 * (j 2).val; omega

-- Index i lies in the block of the point 25 * (its relation) + (its row's tile).
theorem embed0_cover (i : S5x50000x192.Idx) :
    ∃ t : Fin cfg0.N, (cfg0.win 3).flush t = true ∧ i ∈ ((cfg0.win 3).blk t).view.set := by
  have hi0 : (i 0).val < 5 := (i 0).isLt
  have hi1 : (i 1).val < 50000 := (i 1).isLt
  have hi2 : (i 2).val < 192 := (i 2).isLt
  obtain ⟨t, ht⟩ : ∃ t : Fin cfg0.N, t.val = 25 * (i 0).val + (i 1).val / 2000 :=
    ⟨⟨25 * (i 0).val + (i 1).val / 2000, by show _ < grid0.N; rw [N_0]; omega⟩, rfl⟩
  refine ⟨t, flush0_3 t, ?_⟩
  show i ∈ ((View.whole main_v3).slice (win0_3.rect t)).set
  rw [View.set_slice_whole, Rect.mem_set_unit]
  obtain ⟨-, -, -, -, -, -, -, a30, a31, a32⟩ := embed0_idx t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2000 ≤ (i 1).val ∧ (i 1).val < win0_3.index t (1 : Fin 3) * 2000 + 2000; omega
  | ⟨2, _⟩ => show win0_3.index t (2 : Fin 3) * 192 ≤ (i 2).val ∧ (i 2).val < win0_3.index t (2 : Fin 3) * 192 + 192; omega

theorem embed0_final (c : Dev nD) : (dat0 V c).arrAt 3 cfg0.N = embedG0 (V c main_v2) (V c main_arg0) (V c main_arg4) :=
  (dat0 V c).arrAt_eq_of_cover 3 _ (fun t _ => by
    show (cfg0.win 3).cut (grid0.coords t) ((dat0 V c).after 3 t) = _
    rw [after0_3, embed0_out]
    exact embed0_blk _ _ _ t) embed0_cover

end Cert.KernelIdeal.Fr

end
-- ==== Proof.KI.EmbedArr1.lean ====
import proofs.«421092_j39041252721056_4_alg».proof.Proof.KI.Embed1
import proofs.«421092_j39041252721056_4_alg».proof.Proof.KI.EmbedArr0

set_option maxRecDepth 16384

noncomputable section

namespace Cert.KernelIdeal.Fr

open Idealize.ShloMosaic Idealize.ShloMosaic.TcCoe Idealize.SL.Sem Cert.KernelIdeal Cert.KernelIdeal.Gen

variable {F : FTy → Type} [FloatOps F]

variable (V : (c : Dev nD) → (b : Ref sig .tc) → Buf (Elt F) ((c : Thread nD τ).loc b))

def embedG1 (W : Vec F S5x1024x64 .f32) (feat : Vec F S50000x3 .i32) (cj : Vec F S50000x1 .f32) : Vec F S5x50000x192 .f32 :=
  embedG0 W feat cj

-- Region 1 runs region 0's body over the same grid and the same blocks, so region 0's block and cover lemmas apply as they stand.
theorem embed1_final (c : Dev nD) : (dat1 V c).arrAt 3 cfg1.N = embedG1 (V c main_v2) (V c main_arg1) (V c main_arg6) :=
  (dat1 V c).arrAt_eq_of_cover 3 _ (fun t _ => by
    show (cfg1.win 3).cut (grid1.coords t) ((dat1 V c).after 3 t) = _
    rw [after1_3]
    exact (embed0_out _ _ _).trans (embed0_blk _ _ _ t)) embed0_cover

end Cert.KernelIdeal.Fr

end
-- ==== Proof.KI.Fc2Value.lean ====
import proofs.«421092_j39041252721056_4_alg».proof.Proof.KI.Fc2
import Idealize.ShloMosaic.Lib.Pipeline.Value

set_option maxRecDepth 16384

noncomputable section

namespace Cert.KernelIdeal.Fr

open Idealize.ShloMosaic Idealize.ShloMosaic.TcCoe Idealize.SL.Sem Cert.KernelIdeal Cert.KernelIdeal.Gen

variable {F : FTy → Type} [FloatOps F]

theorem hz2_2d : (![0, 0] : Fin 2 → Nat) = fun _ => 0 := funext fun a => by fin_cases a <;> rfl
theorem hz2_3d : (![0, 0, 0] : Fin 3 → Nat) = fun _ => 0 := funext fun a => by fin_cases a <;> rfl

variable {c : Dev nD} {i : grid2.Coords} {arg2 : Memref sig .tc .vmem S1x2000x192 .f32} {harg2 : arg2.IsWhole}
  {arg3 : Memref sig .tc .vmem S2000x1 .f32} {harg3 : arg3.IsWhole} {arg4 : Memref sig .tc .vmem S1x192x256 .f32} {harg4 : arg4.IsWhole}
  {arg5 : Memref sig .tc .vmem S1x256 .f32} {harg5 : arg5.IsWhole} {arg6 : Memref sig .tc .vmem S2000x256 .f32} {harg6 : arg6.IsWhole}
  {arg7 : Memref sig .tc .vmem S2000x256 .f32} {harg7 : arg7.IsWhole}
  {x0 : Vec F S1x2000x192 .f32} {x1 : Vec F S2000x1 .f32} {x2 : Vec F S1x192x256 .f32} {x3 : Vec F S1x256 .f32} {xs0 : Vec F S2000x256 .f32}

-- Each value below is the payload of the one written piece, which covers the whole block; every read is of a whole block.
theorem sout2_B_0_eq {hc0 : ¬cond2_0 i} {hc1 : ¬cond2_1 i} :
    sout2_B_0 c i arg2 harg2 arg3 harg3 arg4 harg4 arg5 harg5 arg6 harg6 arg7 harg7 hc0 hc1 x0 x1 x2 x3 xs0 = k2_pay2 x0 x1 x2 xs0 := by
  unfold sout2_B_0
  rw [View.read_writes_eq_canon _ _ _ fun _ => scover2_B_0 ..]
  unfold kernelRun2_B
  dsimp only
  rw [View.canon_unit_zero hz2_2d]
  simp only [View.readAt_eq_ld, Memref.IsWhole.read_unread, View.ld_unit_zero (S := S1x2000x192) hz2_3d, View.ld_unit_zero (S := S2000x1) hz2_2d, View.ld_unit_zero (S := S1x192x256) hz2_3d, View.ld_unit_zero (S := S1x256) hz2_2d, View.ld_unit_zero (S := S2000x256) hz2_2d, View.readCov_unit_zero (S := S2000x256) _ hz2_2d]

theorem sout2_C_0_eq {hc0 : ¬cond2_0 i} {hc1 : cond2_1 i} :
    sout2_C_0 c i arg2 harg2 arg3 harg3 arg4 harg4 arg5 harg5 arg6 harg6 arg7 harg7 hc0 hc1 x0 x1 x2 x3 xs0 = k2_pay2 x0 x1 x2 xs0 := by
  unfold sout2_C_0
  rw [View.read_writes_eq_canon _ _ _ fun _ => scover2_C_0 ..]
  unfold kernelRun2_C
  dsimp only
  sl_unfold_words
  rw [View.canon_unit_zero hz2_2d]
  simp only [View.readAt_eq_ld, Memref.IsWhole.read_unread, View.ld_unit_zero (S := S1x2000x192) hz2_3d, View.ld_unit_zero (S := S2000x1) hz2_2d, View.ld_unit_zero (S := S1x192x256) hz2_3d, View.ld_unit_zero (S := S1x256) hz2_2d, View.ld_unit_zero (S := S2000x256) hz2_2d, View.readCov_unit_zero (S := S2000x256) _ hz2_2d]

theorem out2_C_4_eq {hc0 : ¬cond2_0 i} {hc1 : cond2_1 i} :
    out2_C_4 c i arg2 harg2 arg3 harg3 arg4 harg4 arg5 harg5 arg6 harg6 arg7 harg7 hc0 hc1 x0 x1 x2 x3 xs0 = k2_pay3 (k2_pay2 x0 x1 x2 xs0) x3 := by
  unfold out2_C_4
  rw [View.read_writes_eq_canon _ _ _ fun _ => cover2_C_4 ..]
  unfold kernelRun2_C
  dsimp only
  sl_unfold_words
  rw [View.canon_unit_zero hz2_2d]
  simp only [View.readAt_eq_ld, Memref.IsWhole.read_unread, View.ld_unit_zero (S := S1x2000x192) hz2_3d, View.ld_unit_zero (S := S2000x1) hz2_2d, View.ld_unit_zero (S := S1x192x256) hz2_3d, View.ld_unit_zero (S := S1x256) hz2_2d, View.ld_unit_zero (S := S2000x256) hz2_2d, View.readCov_unit_zero (S := S2000x256) _ hz2_2d]

theorem sout2_A_0_eq {hc0 : cond2_0 i} {hc1 : ¬cond2_1 i} :
    sout2_A_0 c i arg2 harg2 arg3 harg3 arg4 harg4 arg5 harg5 arg6 harg6 arg7 harg7 hc0 hc1 x0 x1 x2 x3 = k2_pay2 x0 x1 x2 k2_pay1 := by
  unfold sout2_A_0
  rw [View.read_writes_eq_canon _ _ _ fun _ => scover2_A_0 ..]
  unfold kernelRun2_A
  dsimp only
  sl_unfold_words
  rw [View.canon_cons_unit_zero (S := S2000x256) hz2_2d]
  simp only [View.readAt_eq_ld, Memref.IsWhole.read_unread, View.ld_unit_zero (S := S1x2000x192) hz2_3d, View.ld_unit_zero (S := S2000x1) hz2_2d, View.ld_unit_zero (S := S1x192x256) hz2_3d, View.ld_unit_zero (S := S1x256) hz2_2d, View.ld_unit_zero (S := S2000x256) hz2_2d, View.readCov_unit_zero (S := S2000x256) _ hz2_2d]

end Cert.KernelIdeal.Fr

end
-- ==== Proof.KI.FcArrDefs2.lean ====
import proofs.«421092_j39041252721056_4_alg».proof.Proof.Gen.KernelIdeal.Skeleton
import Idealize.ShloMosaic.Lib.ValueIdx

set_option maxRecDepth 16384

noncomputable section

namespace Cert.KernelIdeal.Fr
open Idealize.ShloMosaic Idealize.ShloMosaic.ValueIdx Idealize.SL.Sem
open Cert.KernelIdeal Cert.KernelIdeal.Gen
variable {F : FTy → Type} [FloatOps F]

abbrev fcH2 (H : Vec F S5x50000x192 .f32) (tile : Fin 25) (r : Fin 5) : Vec F S1x2000x192 .f32 :=
  fun y : S1x2000x192.Idx => H (ix3 r (⟨2000 * tile.val + (y 1).val, by
    have h1 := tile.isLt; have h2 : (y 1).val < 2000 := (y 1).isLt; omega⟩ : Fin 50000) (y 2 : Fin 192))

abbrev fcC2 (ci : Vec F S50000x1 .f32) (tile : Fin 25) : Vec F S2000x1 .f32 :=
  fun y : S2000x1.Idx => ci (ix2 (⟨2000 * tile.val + (y 0).val, by
    have h1 := tile.isLt; have h2 : (y 0).val < 2000 := (y 0).isLt; omega⟩ : Fin 50000) (y 1 : Fin 1))

abbrev fcW2 (w3 : Vec F S5x192x256 .f32) (r : Fin 5) : Vec F S1x192x256 .f32 :=
  fun y : S1x192x256.Idx => w3 (ix3 r (y 1 : Fin 192) (y 2 : Fin 256))

def fcAcc2 (H : Vec F S5x50000x192 .f32) (ci : Vec F S50000x1 .f32) (w3 : Vec F S5x192x256 .f32) (tile : Fin 25) :
    (r : ℕ) → r < 5 → Vec F S2000x256 .f32
  | 0, h => k2_pay2 (fcH2 H tile ⟨0, h⟩) (fcC2 ci tile) (fcW2 w3 ⟨0, h⟩) k2_pay1
  | r + 1, h => k2_pay2 (fcH2 H tile ⟨r + 1, h⟩) (fcC2 ci tile) (fcW2 w3 ⟨r + 1, h⟩) (fcAcc2 H ci w3 tile r (by omega))

def fcG2 (H : Vec F S5x50000x192 .f32) (ci : Vec F S50000x1 .f32) (w3 : Vec F S5x192x256 .f32) (b2 : Vec F S1x256 .f32) : Vec F S50000x256 .f32 :=
  fun i => k2_pay3 (fcAcc2 H ci w3 (⟨(i 0).val / 2000, by have h : (i 0).val < 50000 := (i 0).isLt; omega⟩ : Fin 25) 4 (by decide)) b2
    (ix2 (⟨(i 0).val % 2000, Nat.mod_lt _ (by decide)⟩ : Fin 2000) (i 1 : Fin 256))

end Cert.KernelIdeal.Fr

end
-- ==== Proof.KI.FcArr2.lean ====
import proofs.«421092_j39041252721056_4_alg».proof.Proof.KI.Fc2Value
import proofs.«421092_j39041252721056_4_alg».proof.Proof.KI.FcArrDefs2
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.SL.Sem Cert.KernelIdeal Cert.KernelIdeal.Gen

variable {F : FTy → Type} [FloatOps F]

variable (V : (c : Dev nD) → (b : Ref sig .tc) → Buf (Elt F) ((c : Thread nD τ).loc b))

open Idealize.ShloMosaic.ValueIdx

theorem fc2_idx : ∀ t : Fin cfg2.N,
    win2_0.index t (0 : Fin 3) = t.val % 5 ∧ win2_0.index t (1 : Fin 3) = t.val / 5 ∧ win2_0.index t (2 : Fin 3) = 0
    ∧ win2_1.index t (0 : Fin 2) = t.val / 5 ∧ win2_1.index t (1 : Fin 2) = 0
    ∧ win2_2.index t (0 : Fin 3) = t.val % 5 ∧ win2_2.index t (1 : Fin 3) = 0 ∧ win2_2.index t (2 : Fin 3) = 0
    ∧ win2_3.index t (0 : Fin 2) = 0 ∧ win2_3.index t (1 : Fin 2) = 0
    ∧ win2_4.index t (0 : Fin 2) = t.val / 5 ∧ win2_4.index t (1 : Fin 2) = 0 :=
  (by decide +kernel : ∀ t : Fin grid2.N, _)

section Acc
variable (H : Vec F S5x50000x192 .f32) (ci : Vec F S50000x1 .f32) (w3 : Vec F S5x192x256 .f32) (b : Vec F S1x256 .f32)
  (i0 : Fin cfg2.N → Vec F S1x2000x192 .f32) (i1 : Fin cfg2.N → Vec F S2000x1 .f32) (i2 : Fin cfg2.N → Vec F S1x192x256 .f32)
  (i3 : Fin cfg2.N → Vec F S1x256 .f32)
  (e0 : ∀ t y, i0 t y = H (((cfg2.win 0).blk t).view.emb y)) (e1 : ∀ t y, i1 t y = ci (((cfg2.win 1).blk t).view.emb y))
  (e2 : ∀ t y, i2 t y = w3 (((cfg2.win 2).blk t).view.emb y)) (e3 : ∀ t y, i3 t y = b (((cfg2.win 3).blk t).view.emb y))
  (s : (n : ℕ) → n < cfg2.N → Vec F S2000x256 .f32)
  (hA : ∀ t : Fin cfg2.N, t.val % 5 = 0 → s t.val t.isLt = k2_pay2 (i0 t) (i1 t) (i2 t) k2_pay1)
  (hB : ∀ t : Fin cfg2.N, ¬t.val % 5 = 0 →
    s t.val t.isLt = k2_pay2 (i0 t) (i1 t) (i2 t) (s (t.val - 1) (Nat.lt_of_le_of_lt (Nat.sub_le _ _) t.isLt)))
include e0 e1 e2

-- Point t = 5 q + r reads relation r's block of row tile q, the tile's scales, and relation r's weights.
theorem fcStep2_eq (t : Fin cfg2.N) (q : Fin 25) (r : Fin 5) (hq : t.val / 5 = q.val) (hr : t.val % 5 = r.val)
    (acc : Vec F S2000x256 .f32) :
    k2_pay2 (i0 t) (i1 t) (i2 t) acc = k2_pay2 (fcH2 H q r) (fcC2 ci q) (fcW2 w3 r) acc := by
  obtain ⟨a00, a01, a02, a10, a11, a20, a21, a22, -⟩ := fc2_idx t
  refine congrArg (fun f => f acc) (congr (congr (congrArg k2_pay2 ?_) ?_) ?_) <;> funext y
  · have hy0 : (y 0).val < 1 := (y 0).isLt
    refine (e0 t y).trans (congrArg H (funext fun a => Fin.ext ?_))
    match a with
    | ⟨0, _⟩ => show win2_0.index t (0 : Fin 3) * 1 + 1 * (y 0).val = r.val; omega
    | ⟨1, _⟩ => show win2_0.index t (1 : Fin 3) * 2000 + 1 * (y 1).val = 2000 * q.val + (y 1).val; omega
    | ⟨2, _⟩ => show win2_0.index t (2 : Fin 3) * 192 + 1 * (y 2).val = (y 2).val; omega
  · refine (e1 t y).trans (congrArg ci (funext fun a => Fin.ext ?_))
    match a with
    | ⟨0, _⟩ => show win2_1.index t (0 : Fin 2) * 2000 + 1 * (y 0).val = 2000 * q.val + (y 0).val; omega
    | ⟨1, _⟩ => show win2_1.index t (1 : Fin 2) * 1 + 1 * (y 1).val = (y 1).val; omega
  · have hy0 : (y 0).val < 1 := (y 0).isLt
    refine (e2 t y).trans (congrArg w3 (funext fun a => Fin.ext ?_))
    match a with
    | ⟨0, _⟩ => show win2_2.index t (0 : Fin 3) * 1 + 1 * (y 0).val = r.val; omega
    | ⟨1, _⟩ => show win2_2.index t (1 : Fin 3) * 192 + 1 * (y 1).val = (y 1).val; omega
    | ⟨2, _⟩ => show win2_2.index t (2 : Fin 3) * 256 + 1 * (y 2).val = (y 2).val; omega

include hA hB

-- A sequence that restarts from the zero block at relation 0 and steps otherwise is, at point 5 q + j, tile q's accumulator after relation j.
theorem fc2_acc : ∀ (j : ℕ) (hj : j < 5) (t : Fin cfg2.N) (q : Fin 25), t.val / 5 = q.val → t.val % 5 = j →
    s t.val t.isLt = fcAcc2 H ci w3 q j hj
  | 0, hj, t, q, hq, hr => by
    rw [hA t hr, fcAcc2, fcStep2_eq H ci w3 i0 i1 i2 e0 e1 e2 t q ⟨0, hj⟩ hq hr]
  | j + 1, hj, t, q, hq, hr => by
    have hN : t.val < 125 := lt_of_lt_of_eq t.isLt (show cfg2.N = 125 from N_2)
    rw [hB t (by omega), fcAcc2, fcStep2_eq H ci w3 i0 i1 i2 e0 e1 e2 t q ⟨j + 1, hj⟩ hq hr]
    exact congrArg _ (fc2_acc j (by omega) ⟨t.val - 1, Nat.lt_of_le_of_lt (Nat.sub_le _ _) t.isLt⟩ q
      (by dsimp only; omega) (by dsimp only; omega))

include e3 in
-- At a point with relation 4, the sequence's value plus the bias row is the point's block of fcG2 of the arrays.
theorem fc2_out (t : Fin cfg2.N) (h4 : t.val % 5 = 4) :
    k2_pay3 (s t.val t.isLt) (i3 t)
      = ((cfg2.win 4).blk t).view.read (Elt F) (fcG2 H ci w3 b) := by
  have hN : t.val < 125 := lt_of_lt_of_eq t.isLt (show cfg2.N = 125 from N_2)
  obtain ⟨-, -, -, -, -, -, -, -, a30, a31, a40, a41⟩ := fc2_idx t
  rw [fc2_acc H ci w3 i0 i1 i2 e0 e1 e2 s hA hB 4 (by decide) t ⟨t.val / 5, by omega⟩ rfl h4]
  funext j
  have hj0 : (j 0).val < 2000 := (j 0).isLt
  show _ = fcG2 H ci w3 b (((cfg2.win 4).blk t).view.emb j)
  unfold fcG2
  refine congr (congr (congrArg k2_pay3 ?_) ?_) ?_
  · refine congrArg (fun tl : Fin 25 => fcAcc2 H ci w3 tl 4 (by decide)) (Fin.ext ?_)
    show t.val / 5 = (win2_4.index t (0 : Fin 2) * 2000 + 1 * (j 0).val) / 2000
    omega
  · funext y
    refine (e3 t y).trans (congrArg b (funext fun a => Fin.ext ?_))
    match a with
    | ⟨0, _⟩ => show win2_3.index t (0 : Fin 2) * 1 + 1 * (y 0).val = (y 0).val; omega
    | ⟨1, _⟩ => show win2_3.index t (1 : Fin 2) * 256 + 1 * (y 1).val = (y 1).val; omega
  · funext a; apply Fin.ext
    match a with
    | ⟨0, _⟩ => show (j 0).val = (win2_4.index t (0 : Fin 2) * 2000 + 1 * (j 0).val) % 2000; omega
    | ⟨1, _⟩ => show (j 1).val = win2_4.index t (1 : Fin 2) * 256 + 1 * (j 1).val; omega

end Acc

-- Index i lies in the block of the last point of its row's tile.
theorem fc2_cover (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  obtain ⟨t, ht⟩ : ∃ t : Fin cfg2.N, t.val = 5 * ((i 0).val / 2000) + 4 :=
    ⟨⟨5 * ((i 0).val / 2000) + 4, by show _ < grid2.N; rw [N_2]; omega⟩, rfl⟩
  refine ⟨t, (flush2_4 t).mpr (by omega), ?_⟩
  show i ∈ ((View.whole main_v179).slice (win2_4.rect t)).set
  rw [View.set_slice_whole, Rect.mem_set_unit]
  obtain ⟨-, -, -, -, -, -, -, -, -, -, a40, a41⟩ := fc2_idx t
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 256 ≤ (i 1).val ∧ (i 1).val < win2_4.index t (1 : Fin 2) * 256 + 256; omega

theorem outsAt2_snd_A (c : Dev nD) (t : Fin cfg2.N) (h0 : t.val % 5 = 0) :
    (outsAt2 V c t.val t.isLt).2 = k2_pay2 (iblk2 V c 0 t) (iblk2 V c 1 t) (iblk2 V c 2 t) k2_pay1 := by
  rw [outsAt2_A V c t h0 (by omega)]; dsimp only; rw [sout2_A_0_eq]

theorem outsAt2_snd_BC (c : Dev nD) (t : Fin cfg2.N) (h0 : ¬t.val % 5 = 0) :
    (outsAt2 V c t.val t.isLt).2 = k2_pay2 (iblk2 V c 0 t) (iblk2 V c 1 t) (iblk2 V c 2 t)
      (outsAt2 V c (t.val - 1) (Nat.lt_of_le_of_lt (Nat.sub_le _ _) t.isLt)).2 := by
  by_cases h1 : t.val % 5 = 4
  · rw [outsAt2_C V c t h0 h1]; dsimp only; rw [sout2_C_0_eq]
  · rw [outsAt2_B V c t h0 h1]; dsimp only; rw [sout2_B_0_eq]

theorem outsAt2_fst_C (c : Dev nD) (t : Fin cfg2.N) (h1 : t.val % 5 = 4) :
    (outsAt2 V c t.val t.isLt).1 = k2_pay3 (outsAt2 V c t.val t.isLt).2 (iblk2 V c 3 t) := by
  rw [outsAt2_C V c t (by omega) h1]; dsimp only
  rw [sout2_C_0_eq]; exact out2_C_4_eq

theorem fc2_final (c : Dev nD) : (dat2 V c).arrAt 4 cfg2.N = fcG2 (V c main_v176) (V c main_arg5) (V c main_v177) (V c main_v178) :=
  (dat2 V c).arrAt_eq_of_cover 4 _ (fun t hf => by
    have h4 : t.val % 5 = 4 := (flush2_4 t).mp hf
    show (cfg2.win 4).cut (grid2.coords t) ((dat2 V c).after 4 t) = _
    rw [after2_4, outsAt2_fst_C V c t h4]
    exact fc2_out (V c main_v176) (V c main_arg5) (V c main_v177) (V c main_v178) (iblk2 V c 0) (iblk2 V c 1) (iblk2 V c 2) (iblk2 V c 3) (fun _ _ => rfl) (fun _ _ => rfl)
      (fun _ _ => rfl) (fun _ _ => rfl) (fun n h => (outsAt2 V c n h).2) (outsAt2_snd_A V c) (outsAt2_snd_BC V c) t h4) fc2_cover

end Cert.KernelIdeal.Fr

end
-- ==== Proof.KI.Fc3Value.lean ====
import proofs.«421092_j39041252721056_4_alg».proof.Proof.KI.Fc3
import proofs.«421092_j39041252721056_4_alg».proof.Proof.KI.Fc2Value

noncomputable section

namespace Cert.KernelIdeal.Fr

open Idealize.ShloMosaic Idealize.ShloMosaic.TcCoe Idealize.SL.Sem Cert.KernelIdeal Cert.KernelIdeal.Gen

variable {F : FTy → Type} [FloatOps F]

variable {c : Dev nD} {i : grid3.Coords} {arg2 : Memref sig .tc .vmem S1x2000x192 .f32} {harg2 : arg2.IsWhole}
  {arg3 : Memref sig .tc .vmem S2000x1 .f32} {harg3 : arg3.IsWhole} {arg4 : Memref sig .tc .vmem S1x192x256 .f32} {harg4 : arg4.IsWhole}
  {arg5 : Memref sig .tc .vmem S1x256 .f32} {harg5 : arg5.IsWhole} {arg6 : Memref sig .tc .vmem S2000x256 .f32} {harg6 : arg6.IsWhole}
  {arg7 : Memref sig .tc .vmem S2000x256 .f32} {harg7 : arg7.IsWhole}
  {x0 : Vec F S1x2000x192 .f32} {x1 : Vec F S2000x1 .f32} {x2 : Vec F S1x192x256 .f32} {x3 : Vec F S1x256 .f32} {xs0 : Vec F S2000x256 .f32}

-- Region 3's pieces are region 2's, and they cover the block: each value is region 2's, whichever buffer it is read back through.
theorem sout3_B_0_eq {hc0 : ¬cond3_0 i} {hc1 : ¬cond3_1 i} :
    sout3_B_0 c i arg2 harg2 arg3 harg3 arg4 harg4 arg5 harg5 arg6 harg6 arg7 harg7 hc0 hc1 x0 x1 x2 x3 xs0 = k3_pay2 x0 x1 x2 xs0 :=
  (View.read_writes_of_cover _ _ _ _ _ fun _ => scover3_B_0 ..).trans sout2_B_0_eq

theorem sout3_C_0_eq {hc0 : ¬cond3_0 i} {hc1 : cond3_1 i} :
    sout3_C_0 c i arg2 harg2 arg3 harg3 arg4 harg4 arg5 harg5 arg6 harg6 arg7 harg7 hc0 hc1 x0 x1 x2 x3 xs0 = k3_pay2 x0 x1 x2 xs0 :=
  (View.read_writes_of_cover _ _ _ _ _ fun _ => scover3_C_0 ..).trans sout2_C_0_eq

theorem out3_C_4_eq {hc0 : ¬cond3_0 i} {hc1 : cond3_1 i} :
    out3_C_4 c i arg2 harg2 arg3 harg3 arg4 harg4 arg5 harg5 arg6 harg6 arg7 harg7 hc0 hc1 x0 x1 x2 x3 xs0 = k3_pay3 (k3_pay2 x0 x1 x2 xs0) x3 :=
  (View.read_writes_of_cover _ _ _ _ _ fun _ => cover3_C_4 ..).trans out2_C_4_eq

theorem sout3_A_0_eq {hc0 : cond3_0 i} {hc1 : ¬cond3_1 i} :
    sout3_A_0 c i arg2 harg2 arg3 harg3 arg4 harg4 arg5 harg5 arg6 harg6 arg7 harg7 hc0 hc1 x0 x1 x2 x3 = k3_pay2 x0 x1 x2 k3_pay1 :=
  (View.read_writes_of_cover _ _ _ _ _ fun _ => scover3_A_0 ..).trans sout2_A_0_eq

end Cert.KernelIdeal.Fr

end
-- ==== Proof.KI.FcArrDefs3.lean ====
import proofs.«421092_j39041252721056_4_alg».proof.Proof.KI.FcArrDefs2

noncomputable section

namespace Cert.KernelIdeal.Fr
open Idealize.ShloMosaic Idealize.SL.Sem
open Cert.KernelIdeal Cert.KernelIdeal.Gen
variable {F : FTy → Type} [FloatOps F]

def fcG3 (H : Vec F S5x50000x192 .f32) (ci : Vec F S50000x1 .f32) (w3 : Vec F S5x192x256 .f32) (b2 : Vec F S1x256 .f32) : Vec F S50000x256 .f32 :=
  fcG2 H ci w3 b2

end Cert.KernelIdeal.Fr

end
-- ==== Proof.KI.FcArr3.lean ====
import proofs.«421092_j39041252721056_4_alg».proof.Proof.KI.Fc3Value
import proofs.«421092_j39041252721056_4_alg».proof.Proof.KI.FcArrDefs3
import proofs.«421092_j39041252721056_4_alg».proof.Proof.KI.FcArr2

set_option maxRecDepth 16384

noncomputable section

namespace Cert.KernelIdeal.Fr

open Idealize.ShloMosaic Idealize.ShloMosaic.TcCoe Idealize.SL.Sem Cert.KernelIdeal Cert.KernelIdeal.Gen

variable {F : FTy → Type} [FloatOps F]

variable (V : (c : Dev nD) → (b : Ref sig .tc) → Buf (Elt F) ((c : Thread nD τ).loc b))

-- Region 3 runs region 2's body over the same grid and the same blocks, so region 2's lemmas on the accumulator apply as they stand.

theorem outsAt3_snd_A (c : Dev nD) (t : Fin cfg3.N) (h0 : t.val % 5 = 0) :
    (outsAt3 V c t.val t.isLt).2 = k3_pay2 (iblk3 V c 0 t) (iblk3 V c 1 t) (iblk3 V c 2 t) k3_pay1 := by
  rw [outsAt3_A V c t h0 (by omega)]; dsimp only; rw [sout3_A_0_eq]

theorem outsAt3_snd_BC (c : Dev nD) (t : Fin cfg3.N) (h0 : ¬t.val % 5 = 0) :
    (outsAt3 V c t.val t.isLt).2 = k3_pay2 (iblk3 V c 0 t) (iblk3 V c 1 t) (iblk3 V c 2 t)
      (outsAt3 V c (t.val - 1) (Nat.lt_of_le_of_lt (Nat.sub_le _ _) t.isLt)).2 := by
  by_cases h1 : t.val % 5 = 4
  · rw [outsAt3_C V c t h0 h1]; dsimp only; rw [sout3_C_0_eq]
  · rw [outsAt3_B V c t h0 h1]; dsimp only; rw [sout3_B_0_eq]

theorem outsAt3_fst_C (c : Dev nD) (t : Fin cfg3.N) (h1 : t.val % 5 = 4) :
    (outsAt3 V c t.val t.isLt).1 = k3_pay3 (outsAt3 V c t.val t.isLt).2 (iblk3 V c 3 t) := by
  rw [outsAt3_C V c t (by omega) h1]; dsimp only
  rw [sout3_C_0_eq]; exact out3_C_4_eq

theorem fc3_final (c : Dev nD) : (dat3 V c).arrAt 4 cfg3.N = fcG3 (V c main_v90) (V c main_arg7) (V c main_v177) (V c main_v178) :=
  (dat3 V c).arrAt_eq_of_cover 4 _ (fun t hf => by
    have h4 : t.val % 5 = 4 := (flush3_4 t).mp hf
    show (cfg3.win 4).cut (grid3.coords t) ((dat3 V c).after 4 t) = _
    rw [after3_4, outsAt3_fst_C V c t h4]
    exact fc2_out (V c main_v90) (V c main_arg7) (V c main_v177) (V c main_v178) (iblk3 V c 0) (iblk3 V c 1) (iblk3 V c 2) (iblk3 V c 3) (fun _ _ => rfl) (fun _ _ => rfl)
      (fun _ _ => rfl) (fun _ _ => rfl) (fun n h => (outsAt3 V c n h).2) (outsAt3_snd_A V c) (outsAt3_snd_BC V c) t h4) fc2_cover

end Cert.KernelIdeal.Fr

end
-- ==== Proof.KI.KValue.lean ====
import proofs.«421092_j39041252721056_4_alg».proof.Proof.KI.Kept
import proofs.«421092_j39041252721056_4_alg».proof.Proof.KI.HostVal
import proofs.«421092_j39041252721056_4_alg».proof.Proof.KI.EmbedArr0
import proofs.«421092_j39041252721056_4_alg».proof.Proof.KI.EmbedArr1
import proofs.«421092_j39041252721056_4_alg».proof.Proof.KI.FcArr2
import proofs.«421092_j39041252721056_4_alg».proof.Proof.KI.FcArr3

set_option maxRecDepth 16384

noncomputable section

namespace Cert.KernelIdeal.Fr

open Idealize.ShloMosaic Idealize.ShloMosaic.TcCoe Idealize.SL.Sem Cert.KernelIdeal Cert.KernelIdeal.Gen Cert.KernelIdeal.Val

variable {F : FTy → Type} [FloatOps F]

variable (m : (ℓ : Loc nD τ sig) → Buf (Elt F) ℓ) (ρ : Dev nD → PrngReg)

def Wm (c : Dev nD) : Vec F S5x1024x64 .f32 :=
  shapeCast S5x1024x64 (Host.dotGeneral dot_S5x4_S4x65536_S5x65536_1_0_0_1_n_n none (m ((c : Thread nD τ).loc main_arg8))
    (shapeCast S4x65536 (m ((c : Thread nD τ).loc main_arg9)) shapeCasts_S4x1024x64_S4x65536)) shapeCasts_S5x65536_S5x1024x64

theorem V1_v2 (c : Dev nD) : V1 m ρ c main_v2 = Wm m c := after_pre_v2 (W0 m ρ c)

theorem V7_v177 (c : Dev nD) : V7 m ρ c main_v177 = shapeCast S5x192x256 (m ((c : Thread nD τ).loc main_arg10)) shapeCasts_S960x256_S5x192x256 := by
  show mid (W3 m ρ c) (Proc.devRef .tc main_v177) = _
  rw [mid_v177, kept3 m ρ main_arg10 (by decide)]
theorem V7_v178 (c : Dev nD) : V7 m ρ c main_v178 = shapeCast S1x256 (m ((c : Thread nD τ).loc main_arg11)) shapeCasts_S256_S1x256 := by
  show mid (W3 m ρ c) (Proc.devRef .tc main_v178) = _
  rw [mid_v178, kept3 m ρ main_arg11 (by decide)]

theorem kernel_v179 (c : Dev nD) : W9 m ρ c (Proc.devRef .tc main_v179)
    = fcG2 (aggAll (embedG1 (Wm m c) (m ((c : Thread nD τ).loc main_arg1)) (m ((c : Thread nD τ).loc main_arg6))) (m ((c : Thread nD τ).loc main_arg3)) (m ((c : Thread nD τ).loc main_arg2)))
        (m ((c : Thread nD τ).loc main_arg5)) (shapeCast S5x192x256 (m ((c : Thread nD τ).loc main_arg10)) shapeCasts_S960x256_S5x192x256) (shapeCast S1x256 (m ((c : Thread nD τ).loc main_arg11)) shapeCasts_S256_S1x256) := by
  rw [W9_v179, fc2_final, (show V7 m ρ c main_arg5 = _ from kept7 m ρ main_arg5 (by decide) c), V7_v177, V7_v178]
  show fcG2 (mid (W3 m ρ c) (Proc.devRef .tc main_v176)) _ _ _ = _
  rw [mid_v176, W3_v4, embed1_final, V2_v2, V1_v2, (show V2 m ρ c main_arg1 = _ from kept2 m ρ main_arg1 (by decide) c), (show V2 m ρ c main_arg6 = _ from kept2 m ρ main_arg6 (by decide) c),
    kept3 m ρ main_arg3 (by decide), kept3 m ρ main_arg2 (by decide)]

theorem kernel_v180 (c : Dev nD) : W9 m ρ c (Proc.devRef .tc main_v180)
    = fcG3 (aggAll (embedG0 (Wm m c) (m ((c : Thread nD τ).loc main_arg0)) (m ((c : Thread nD τ).loc main_arg4))) (m ((c : Thread nD τ).loc main_arg2)) (m ((c : Thread nD τ).loc main_arg3)))
        (m ((c : Thread nD τ).loc main_arg7)) (shapeCast S5x192x256 (m ((c : Thread nD τ).loc main_arg10)) shapeCasts_S960x256_S5x192x256) (shapeCast S1x256 (m ((c : Thread nD τ).loc main_arg11)) shapeCasts_S256_S1x256) := by
  rw [W9_v180, fc3_final, V8_v90, (show V8 m ρ c main_arg7 = _ from kept8 m ρ main_arg7 (by decide) c), V8_v177, V7_v177, V8_v178, V7_v178]
  show fcG3 (mid (W3 m ρ c) (Proc.devRef .tc main_v90)) _ _ _ = _
  rw [mid_v90, W3_v3, embed0_final, V1_v2, (show V1 m ρ c main_arg0 = _ from kept1 m ρ main_arg0 (by decide) c), (show V1 m ρ c main_arg4 = _ from kept1 m ρ main_arg4 (by decide) c),
    kept3 m ρ main_arg2 (by decide), kept3 m ρ main_arg3 (by decide)]

end Cert.KernelIdeal.Fr

end
-- ==== Proof.LibDotPlain.lean ====
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

theorem getElem_zero_of_eq_singleton {α : Type} {l : List α} {c : α} (h : l = [c]) (hp : 0 < l.length) : l[0] = c := by
  subst h; rfl

theorem contr_rank_one {sl sr so : Shape} (d : DotDims sl sr so) {c : Fin sl.rank} (hlc : d.lhsContracting = [c]) :
    d.contr.rank = 1 := by
  rw [d.rank_contr, hlc]; rfl

theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

private theorem val_congr {s : Shape} (j : s.Idx) (p q : Nat) (hp : p < s.rank) (hq : q < s.rank) (h : p = q) :
    (j ⟨p, hp⟩).val = (j ⟨q, hq⟩).val := by
  subst h; rfl

theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

end Cert.DotPlain

end
-- ==== Proof.KI.PayVal.lean ====
import proofs.«421092_j39041252721056_4_alg».proof.Proof.Gen.KernelIdeal.Skeleton
import proofs.«421092_j39041252721056_4_alg».proof.Proof.LibDotPlain
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option maxRecDepth 16384

noncomputable section

namespace Cert.KernelIdeal.Val

open Idealize.ShloMosaic Idealize.ShloMosaic.ValueIdx Idealize.SL.Sem
open Cert.KernelIdeal Cert.KernelIdeal.Gen
open scoped BigOperators

section Generic
variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem concat3_apply (x0 x1 x2 : S2000x64.Idx → α)
    (h : Shape.Concatenates (([⟨S2000x64, x0⟩, ⟨S2000x64, x1⟩, ⟨S2000x64, x2⟩] : List ((s : Shape) × (s.Idx → α))).map (·.1)) S2000x192 1)
    (p : Fin 2000) (j : Fin 192) :
    concatenate S2000x192 1 [⟨S2000x64, x0⟩, ⟨S2000x64, x1⟩, ⟨S2000x64, x2⟩] h (ix2 p j)
      = (![x0, x1, x2] ⟨j.val / 64, by have := j.isLt; omega⟩) (ix2 p ⟨j.val % 64, Nat.mod_lt _ (by decide)⟩) :=
  concatenate_ofFn_apply (t := S2000x192) (s₁ := S2000x64) 1 ![x0, x1, x2] h rfl 64 rfl (ix2 p j)
    ⟨j.val / 64, by have := j.isLt; omega⟩ rfl (ix2 p ⟨j.val % 64, Nat.mod_lt _ (by decide)⟩) rfl
    (fun b hb => by
      match b, hb with
      | ⟨0, _⟩, _ => rfl
      | ⟨1, _⟩, hb => exact absurd (Fin.ext rfl) hb)

end Generic

theorem onehot_scalar (x y : BitVec 32) :
    ((((IntOp.cmpi .eq x y).setWidth 32).toInt : ℝ) : EReal) = if x = y then (1 : EReal) else 0 := by
  have hc : IntOp.cmpi .eq x y = BitVec.ofBool (x == y) := rfl
  rw [hc]
  by_cases h : x = y
  · rw [if_pos h, show (x == y) = true from beq_iff_eq.2 h,
      show ((BitVec.ofBool true).setWidth 32).toInt = 1 from by decide, Int.cast_one, EReal.coe_one]
  · rw [if_neg h, show (x == y) = false from beq_eq_false_iff_ne.2 h,
      show ((BitVec.ofBool false).setWidth 32).toInt = 0 from by decide, Int.cast_zero, EReal.coe_zero]

theorem onehot_apply {R N : ℕ} (col : IVec ⟨2, ![R, 1]⟩ 32) (hI : (⟨2, ![R, N]⟩ : Shape).Iotas .tc 32 [1])
    (hB : (⟨2, ![R, 1]⟩ : Shape).Broadcasts ⟨2, ![R, N]⟩) (h132 : 1 < 32) (hlt : FTy.bits .bf16 < FTy.bits .f32)
    (p : Fin R) (κ : Fin N) :
    (truncf .bf16 (sitofp .f32 (extui 32 (cmpi .eq (iota .tc ⟨2, ![R, N]⟩ 32 [1] hI) (broadcastTo ⟨2, ![R, N]⟩ col hB)) h132)
        : FVec Ideal ⟨2, ![R, N]⟩ .f32) hlt : FVec Ideal ⟨2, ![R, N]⟩ .bf16) (ix2 p κ)
      = if BitVec.ofNat 32 κ.val = col (ix2 p (0 : Fin 1)) then (1 : EReal) else 0 := by
  show ((((IntOp.cmpi .eq (iota .tc ⟨2, ![R, N]⟩ 32 [1] hI (ix2 p κ)) (broadcastTo ⟨2, ![R, N]⟩ col hB (ix2 p κ))).setWidth 32).toInt : ℝ) : EReal) = _
  rw [iota_single_apply, broadcastTo_a1_ab_apply]
  exact onehot_scalar _ _

def embCol (v0 : Vec Ideal S1x1024x64 .f32) (col : IVec S2000x1 32) : FVec Ideal S2000x64 .f32 :=
  matmul dot_S2000x1024_S1024x64_S2000x64_1_0_0_1_n_n none
    (truncf .bf16 (sitofp .f32 (extui 32 (cmpi .eq (iota .tc S2000x1024 32 [1] iota_S2000x1024_d1_w32)
      (broadcastTo S2000x1024 col broadcasts_S2000x1_S2000x1024)) natLt_1_32) : FVec Ideal S2000x1024 .f32) bitsLt_bf16_f32)
    (truncf .bf16 (shapeCast S1024x64 v0 shapeCasts_S1x1024x64_S1024x64 : FVec Ideal S1024x64 .f32) bitsLt_bf16_f32)
    (constant S2000x64 .f32 0x00000000#32)

theorem embCol_apply (v0 : Vec Ideal S1x1024x64 .f32) (col : IVec S2000x1 32) (p : Fin 2000) (c : Fin 64) :
    embCol v0 col (ix2 p c)
      = ∑ κ : Fin 1024, (if BitVec.ofNat 32 κ.val = col (ix2 p (0 : Fin 1)) then (1 : EReal) else 0) * v0 (ix3 (0 : Fin 1) κ c) := by
  unfold embCol
  refine (Cert.DotPlain.matmul_zero_rows_cols dot_S2000x1024_S1024x64_S2000x64_1_0_0_1_n_n rfl rfl rfl rfl rfl rfl none _ _ p c).trans ?_
  refine Finset.sum_congr rfl fun κ _ => ?_
  rw [onehot_apply, truncf_apply, shapeCast_1ab_ab_apply]

theorem embCols_apply (v0 : Vec Ideal S1x1024x64 .f32) (v3 : Vec Ideal S2000x3 .i32) (p : Fin 2000) (q : Fin 3) (c : Fin 64) :
    (![embCol v0 (extractStridedSlice S2000x1 ![0, 0] v3 slices_S2000x3_o0_0_S2000x1),
       embCol v0 (extractStridedSlice S2000x1 ![0, 1] v3 slices_S2000x3_o0_1_S2000x1),
       embCol v0 (extractStridedSlice S2000x1 ![0, 2] v3 slices_S2000x3_o0_2_S2000x1)] q) (ix2 p c)
      = ∑ κ : Fin 1024, (if BitVec.ofNat 32 κ.val = v3 (ix2 p q) then (1 : EReal) else 0) * v0 (ix3 (0 : Fin 1) κ c) := by
  match q with
  | ⟨0, _⟩ =>
    show embCol v0 _ (ix2 p c) = _
    rw [embCol_apply, slice2_axis1_apply 0 v3 _ p (0 : Fin 1) (0 : Fin 3) rfl]
    rfl
  | ⟨1, _⟩ =>
    show embCol v0 _ (ix2 p c) = _
    rw [embCol_apply, slice2_axis1_apply 1 v3 _ p (0 : Fin 1) (1 : Fin 3) rfl]
    rfl
  | ⟨2, _⟩ =>
    show embCol v0 _ (ix2 p c) = _
    rw [embCol_apply, slice2_axis1_apply 2 v3 _ p (0 : Fin 1) (2 : Fin 3) rfl]
    rfl

theorem toNat_lt_of_toInt (w : BitVec 32) (h0 : 0 ≤ w.toInt) (h1 : w.toInt < 1024) : w.toNat < 1024 := by
  rw [BitVec.toInt_eq_toNat_cond] at h0 h1
  have := w.isLt
  split at h0 <;> omega

theorem onehot_sum (w : BitVec 32) (h0 : 0 ≤ w.toInt) (h1 : w.toInt < 1024) (f : Fin 1024 → EReal) :
    (∑ κ : Fin 1024, (if BitVec.ofNat 32 κ.val = w then (1 : EReal) else 0) * f κ) = f ⟨w.toNat, toNat_lt_of_toInt w h0 h1⟩ := by
  have hlt := toNat_lt_of_toInt w h0 h1
  rw [Finset.sum_eq_single (⟨w.toNat, hlt⟩ : Fin 1024)]
  · rw [if_pos (BitVec.eq_of_toNat_eq (by rw [BitVec.toNat_ofNat]; exact Nat.mod_eq_of_lt (by omega))), one_mul]
  · intro κ _ hκ
    rw [if_neg, zero_mul]
    intro hEq
    apply hκ
    apply Fin.ext
    have := congrArg BitVec.toNat hEq
    rw [BitVec.toNat_ofNat, Nat.mod_eq_of_lt (by have := κ.isLt; omega)] at this
    exact this
  · intro hne; exact absurd (Finset.mem_univ _) hne

theorem k0_pay1_eq (v0 : Vec Ideal S1x1024x64 .f32) (v3 : Vec Ideal S2000x3 .i32) (v4 : Vec Ideal S2000x1 .f32) :
    k0_pay1 v0 v3 v4 = shapeCast S1x2000x192 (mulf (concatenate S2000x192 1
        [⟨S2000x64, embCol v0 (extractStridedSlice S2000x1 ![0, 0] v3 slices_S2000x3_o0_0_S2000x1)⟩,
         ⟨S2000x64, embCol v0 (extractStridedSlice S2000x1 ![0, 1] v3 slices_S2000x3_o0_1_S2000x1)⟩,
         ⟨S2000x64, embCol v0 (extractStridedSlice S2000x1 ![0, 2] v3 slices_S2000x3_o0_2_S2000x1)⟩]
        concatenates_S2000x64_S2000x64_S2000x64_S2000x192_d1)
      (broadcastTo S2000x192 v4 broadcasts_S2000x1_S2000x192)) shapeCasts_S2000x192_S1x2000x192 := rfl

theorem k0_pay1_apply (v0 : Vec Ideal S1x1024x64 .f32) (v3 : Vec Ideal S2000x3 .i32) (v4 : Vec Ideal S2000x1 .f32)
    (p : Fin 2000) (j : Fin 192) :
    k0_pay1 v0 v3 v4 (ix3 (0 : Fin 1) p j)
      = (∑ κ : Fin 1024, (if BitVec.ofNat 32 κ.val = v3 (ix2 p (⟨j.val / 64, by have := j.isLt; omega⟩ : Fin 3)) then (1 : EReal) else 0)
            * v0 (ix3 (0 : Fin 1) κ (⟨j.val % 64, Nat.mod_lt _ (by decide)⟩ : Fin 64)))
          * v4 (ix2 p (0 : Fin 1)) := by
  rw [k0_pay1_eq, shapeCast_ab_1ab_apply, mulf_apply, broadcastTo_a1_ab_apply, concat3_apply, embCols_apply]

theorem k0_pay1_inrange (v0 : Vec Ideal S1x1024x64 .f32) (v3 : Vec Ideal S2000x3 .i32) (v4 : Vec Ideal S2000x1 .f32)
    (p : Fin 2000) (j : Fin 192) (w : BitVec 32) (hw : w = v3 (ix2 p (⟨j.val / 64, by have := j.isLt; omega⟩ : Fin 3)))
    (h0 : 0 ≤ w.toInt) (h1 : w.toInt < 1024) :
    k0_pay1 v0 v3 v4 (ix3 (0 : Fin 1) p j)
      = v0 (ix3 (0 : Fin 1) (⟨w.toNat, toNat_lt_of_toInt w h0 h1⟩ : Fin 1024) (⟨j.val % 64, Nat.mod_lt _ (by decide)⟩ : Fin 64))
          * v4 (ix2 p (0 : Fin 1)) := by
  rw [k0_pay1_apply, ← hw, onehot_sum w h0 h1]

theorem k2_pay1_apply (p : Fin 2000) (o : Fin 256) : (k2_pay1 (F := Ideal)) (ix2 p o) = 0 := by
  unfold k2_pay1
  rw [shapeCast_self, broadcast_apply]
  exact Ideal.ofBits_zero_f32

theorem k2_pay2_apply (v3 : Vec Ideal S1x2000x192 .f32) (v5 : Vec Ideal S2000x1 .f32) (v6 : Vec Ideal S1x192x256 .f32)
    (v12 : Vec Ideal S2000x256 .f32) (p : Fin 2000) (o : Fin 256) :
    k2_pay2 v3 v5 v6 v12 (ix2 p o)
      = v12 (ix2 p o) + ∑ j : Fin 192, (v3 (ix3 (0 : Fin 1) p j) * v5 (ix2 p (0 : Fin 1))) * v6 (ix3 (0 : Fin 1) j o) := by
  unfold k2_pay2
  rw [shapeCast_self, addf_apply]
  refine congrArg (v12 (ix2 p o) + ·) ?_
  refine (Cert.DotPlain.matmul_zero_rows_cols dot_S2000x192_S192x256_S2000x256_1_0_0_1_n_n rfl rfl rfl rfl rfl rfl none _ _ p o).trans ?_
  refine Finset.sum_congr rfl fun j _ => ?_
  rw [truncf_apply, mulf_apply, shapeCast_1ab_ab_apply, broadcastTo_a1_ab_apply, truncf_apply, shapeCast_1ab_ab_apply]

theorem k2_pay3_apply (v21 : Vec Ideal S2000x256 .f32) (v22 : Vec Ideal S1x256 .f32) (p : Fin 2000) (o : Fin 256) :
    k2_pay3 v21 v22 (ix2 p o) = v21 (ix2 p o) + v22 (ix2 (0 : Fin 1) o) := by
  unfold k2_pay3
  rw [addf_apply, broadcastTo_1b_ab_apply, shapeCast_self]

end Cert.KernelIdeal.Val

end
-- ==== Proof.KI.EmbedVal.lean ====
import proofs.«421092_j39041252721056_4_alg».proof.Proof.KI.PayVal
import proofs.«421092_j39041252721056_4_alg».proof.Proof.KI.EmbedArr0
import proofs.«421092_j39041252721056_4_alg».proof.Proof.KI.EmbedArr1

set_option maxRecDepth 16384

noncomputable section

namespace Cert.KernelIdeal.Val

open Idealize.ShloMosaic Idealize.ShloMosaic.ValueIdx Idealize.SL.Sem
open Cert.KernelIdeal Cert.KernelIdeal.Gen
open scoped BigOperators

-- Row n is row n mod 2000 of tile n / 2000, whose rows start at 2000 * (n / 2000): the body's value there is read at row n of the arrays.
theorem embedG0_inrange (W : Vec Ideal S5x1024x64 .f32) (feat : Vec Ideal S50000x3 .i32) (cj : Vec Ideal S50000x1 .f32)
    (r : Fin 5) (n : Fin 50000) (j : Fin 192)
    (h0 : 0 ≤ (feat (ix2 n (⟨j.val / 64, by have := j.isLt; omega⟩ : Fin 3)) : BitVec 32).toInt)
    (h1 : (feat (ix2 n (⟨j.val / 64, by have := j.isLt; omega⟩ : Fin 3)) : BitVec 32).toInt < 1024) :
    Cert.KernelIdeal.Fr.embedG0 (F := Ideal) W feat cj (ix3 r n j)
      = W (ix3 r (⟨(feat (ix2 n (⟨j.val / 64, by have := j.isLt; omega⟩ : Fin 3)) : BitVec 32).toNat, toNat_lt_of_toInt _ h0 h1⟩ : Fin 1024)
            (⟨j.val % 64, Nat.mod_lt _ (by decide)⟩ : Fin 64))
          * cj (ix2 n (0 : Fin 1)) := by
  have hlt : 2000 * (n.val / 2000) + n.val % 2000 < 50000 := by rw [Nat.div_add_mod]; exact n.isLt
  have hn : (⟨2000 * (n.val / 2000) + n.val % 2000, hlt⟩ : Fin 50000) = n := Fin.ext (Nat.div_add_mod n.val 2000)
  have hj : j.val / 64 < 3 := by have := j.isLt; omega
  unfold Cert.KernelIdeal.Fr.embedG0
  refine (k0_pay1_inrange _ _ _ (⟨n.val % 2000, Nat.mod_lt _ (by decide)⟩ : Fin 2000) j
    (feat (ix2 n (⟨j.val / 64, hj⟩ : Fin 3)))
    (congrArg (fun m : Fin 50000 => feat (ix2 m (⟨j.val / 64, hj⟩ : Fin 3))) hn.symm) h0 h1).trans ?_
  exact congrArg (fun m : Fin 50000 =>
    W (ix3 r (⟨(feat (ix2 n (⟨j.val / 64, hj⟩ : Fin 3)) : BitVec 32).toNat, toNat_lt_of_toInt _ h0 h1⟩ : Fin 1024)
        (⟨j.val % 64, Nat.mod_lt _ (by decide)⟩ : Fin 64)) * cj (ix2 m (0 : Fin 1))) hn

theorem embedG1_inrange (W : Vec Ideal S5x1024x64 .f32) (feat : Vec Ideal S50000x3 .i32) (cj : Vec Ideal S50000x1 .f32)
    (r : Fin 5) (n : Fin 50000) (j : Fin 192)
    (h0 : 0 ≤ (feat (ix2 n (⟨j.val / 64, by have := j.isLt; omega⟩ : Fin 3)) : BitVec 32).toInt)
    (h1 : (feat (ix2 n (⟨j.val / 64, by have := j.isLt; omega⟩ : Fin 3)) : BitVec 32).toInt < 1024) :
    Cert.KernelIdeal.Fr.embedG1 (F := Ideal) W feat cj (ix3 r n j)
      = W (ix3 r (⟨(feat (ix2 n (⟨j.val / 64, by have := j.isLt; omega⟩ : Fin 3)) : BitVec 32).toNat, toNat_lt_of_toInt _ h0 h1⟩ : Fin 1024)
            (⟨j.val % 64, Nat.mod_lt _ (by decide)⟩ : Fin 64))
          * cj (ix2 n (0 : Fin 1)) :=
  embedG0_inrange W feat cj r n j h0 h1

end Cert.KernelIdeal.Val

end
-- ==== Proof.KI.FcVal.lean ====
import proofs.«421092_j39041252721056_4_alg».proof.Proof.KI.FcArrDefs2
import proofs.«421092_j39041252721056_4_alg».proof.Proof.KI.PayVal

set_option maxRecDepth 16384

noncomputable section

namespace Cert.KernelIdeal.Val

open Idealize.ShloMosaic Idealize.ShloMosaic.ValueIdx Idealize.SL.Sem
open Cert.KernelIdeal Cert.KernelIdeal.Gen
open Cert.KernelIdeal.Fr (fcH2 fcC2 fcW2 fcAcc2 fcG2)
open scoped BigOperators

-- One relation's step at (p, o) of a tile adds the relation's term at the array row n the tile's row p is.
theorem fcAcc2_step (H : Vec Ideal S5x50000x192 .f32) (ci : Vec Ideal S50000x1 .f32) (w3 : Vec Ideal S5x192x256 .f32)
    (tile : Fin 25) (r : Fin 5) (acc : Vec Ideal S2000x256 .f32) (p : Fin 2000) (o : Fin 256) (n : Fin 50000)
    (hn : n.val = 2000 * tile.val + p.val) :
    k2_pay2 (fcH2 H tile r) (fcC2 ci tile) (fcW2 w3 r) acc (ix2 p o)
      = acc (ix2 p o) + ∑ j : Fin 192, (H (ix3 r n j) * ci (ix2 n (0 : Fin 1))) * w3 (ix3 r j o) := by
  have e : (⟨2000 * tile.val + p.val, by have := tile.isLt; have := p.isLt; omega⟩ : Fin 50000) = n := Fin.ext hn.symm
  rw [k2_pay2_apply, ← e]

theorem fcG2_apply (H : Vec Ideal S5x50000x192 .f32) (ci : Vec Ideal S50000x1 .f32) (w3 : Vec Ideal S5x192x256 .f32)
    (b2 : Vec Ideal S1x256 .f32) (n : Fin 50000) (o : Fin 256) :
    fcG2 (F := Ideal) H ci w3 b2 (ix2 n o)
      = (((((0 + ∑ j : Fin 192, (H (ix3 (0 : Fin 5) n j) * ci (ix2 n (0 : Fin 1))) * w3 (ix3 (0 : Fin 5) j o))
          + ∑ j : Fin 192, (H (ix3 (1 : Fin 5) n j) * ci (ix2 n (0 : Fin 1))) * w3 (ix3 (1 : Fin 5) j o))
          + ∑ j : Fin 192, (H (ix3 (2 : Fin 5) n j) * ci (ix2 n (0 : Fin 1))) * w3 (ix3 (2 : Fin 5) j o))
          + ∑ j : Fin 192, (H (ix3 (3 : Fin 5) n j) * ci (ix2 n (0 : Fin 1))) * w3 (ix3 (3 : Fin 5) j o))
          + ∑ j : Fin 192, (H (ix3 (4 : Fin 5) n j) * ci (ix2 n (0 : Fin 1))) * w3 (ix3 (4 : Fin 5) j o))
        + b2 (ix2 (0 : Fin 1) o) := by
  have hn : n.val = 2000 * (n.val / 2000) + n.val % 2000 := (Nat.div_add_mod _ _).symm
  show k2_pay3 (fcAcc2 H ci w3 (⟨n.val / 2000, _⟩ : Fin 25) 4 _) b2 (ix2 (⟨n.val % 2000, _⟩ : Fin 2000) o) = _
  rw [k2_pay3_apply]
  repeat rw [fcAcc2, fcAcc2_step H ci w3 _ _ _ _ o n hn]
  rw [k2_pay1_apply]
  rfl

end Cert.KernelIdeal.Val

end
-- ==== Proof.KI.FcVal3.lean ====
import proofs.«421092_j39041252721056_4_alg».proof.Proof.KI.FcArrDefs3
import proofs.«421092_j39041252721056_4_alg».proof.Proof.KI.FcVal

set_option maxRecDepth 16384

noncomputable section

namespace Cert.KernelIdeal.Val

open Idealize.ShloMosaic Idealize.ShloMosaic.ValueIdx Idealize.SL.Sem
open Cert.KernelIdeal Cert.KernelIdeal.Gen
open Cert.KernelIdeal.Fr (fcG3)
open scoped BigOperators

theorem fcG3_apply (H : Vec Ideal S5x50000x192 .f32) (ci : Vec Ideal S50000x1 .f32) (w3 : Vec Ideal S5x192x256 .f32)
    (b2 : Vec Ideal S1x256 .f32) (n : Fin 50000) (o : Fin 256) :
    fcG3 (F := Ideal) H ci w3 b2 (ix2 n o)
      = (((((0 + ∑ j : Fin 192, (H (ix3 (0 : Fin 5) n j) * ci (ix2 n (0 : Fin 1))) * w3 (ix3 (0 : Fin 5) j o))
          + ∑ j : Fin 192, (H (ix3 (1 : Fin 5) n j) * ci (ix2 n (0 : Fin 1))) * w3 (ix3 (1 : Fin 5) j o))
          + ∑ j : Fin 192, (H (ix3 (2 : Fin 5) n j) * ci (ix2 n (0 : Fin 1))) * w3 (ix3 (2 : Fin 5) j o))
          + ∑ j : Fin 192, (H (ix3 (3 : Fin 5) n j) * ci (ix2 n (0 : Fin 1))) * w3 (ix3 (3 : Fin 5) j o))
          + ∑ j : Fin 192, (H (ix3 (4 : Fin 5) n j) * ci (ix2 n (0 : Fin 1))) * w3 (ix3 (4 : Fin 5) j o))
        + b2 (ix2 (0 : Fin 1) o) :=
  fcG2_apply H ci w3 b2 n o

end Cert.KernelIdeal.Val

end
-- ==== Proof.LibScatterGather.lean ====
import Idealize.ShloMosaic.PureOps.Ideal
import Idealize.ShloMosaic.Lib.ValueIdx

noncomputable section

namespace Cert.ScatterGather

open Idealize.ShloMosaic Idealize.ShloMosaic.ValueIdx

def rowW (N : Nat) (hN : 0 < N) {w : Nat} (x : BitVec w) : Fin N := ⟨min x.toInt.toNat (N - 1), by omega⟩

-- A coordinate of a rank-2 index, read on an axis that lies in a one-element list of axes.
theorem ix2_val_of_mem {n0 n1 : Nat} (a : Fin n0) (b : Fin n1) {l : List (Fin 2)} {X : Fin 2} (hX : X ∈ l) :
    (l = [0] → ((ix2 a b : (⟨2, ![n0, n1]⟩ : Shape).Idx) X).val = a.val)
      ∧ (l = [1] → ((ix2 a b : (⟨2, ![n0, n1]⟩ : Shape).Idx) X).val = b.val) := by
  constructor <;> (intro h; rw [h] at hX; obtain rfl := List.mem_singleton.mp hX; rfl)

-- A row gather reads, at (e, j), column j of the row that the e-th index word names (signed, clamped).
theorem gather_rows_apply {α : Type} {N H E w : Nat} (hN : 0 < N)
    (d : GatherDims ⟨2, ![N, H]⟩ ⟨2, ![E, 1]⟩ ⟨2, ![E, H]⟩)
    (hoff : d.offsetDims = [1]) (hcoll : d.collapsedSliceDims = [0]) (hob : d.operandBatchingDims = [])
    (hsim : d.startIndexMap = [0]) (hivd : d.indexVectorDim = 1)
    (x : (⟨2, ![N, H]⟩ : Shape).Idx → α) (idx : IVec ⟨2, ![E, 1]⟩ w) (e : Fin E) (j : Fin H) :
    Host.gather d x idx (ix2 e j) = x (ix2 (rowW N hN (idx (ix2 e 0))) j) := by
  have hk : d.sKept = [1] := by
    show (List.finRange 2).filter (fun a => a ∉ d.collapsedSliceDims ++ d.operandBatchingDims) = [1]
    rw [hcoll, hob]
    exact (by decide : (List.finRange 2).filter (fun a : Fin 2 => a ∉ [(0 : Fin 2)] ++ []) = [(1 : Fin 2)])
  have hbd : d.batchDims = [0] := by
    show (List.finRange 2).filter (fun a => a ∉ d.offsetDims) = [0]
    rw [hoff]
    exact (by decide : (List.finRange 2).filter (fun a : Fin 2 => a ∉ [(1 : Fin 2)]) = [(0 : Fin 2)])
  have hb : ∀ a : Fin 2, a ∉ d.operandBatchingDims := fun a => by rw [hob]; exact List.not_mem_nil
  have hsi : ∀ c : Fin d.startIndexMap.length, d.siIdx (ix2 e j) c = ix2 e 0 := fun c => by
    funext b
    match b with
    | ⟨0, _⟩ =>
      unfold GatherDims.siIdx
      rw [dif_neg (by rw [hivd]; simp)]
      unfold GatherDims.siCoord
      apply Fin.ext
      simp only [Fin.val_cast]
      exact (ix2_val_of_mem e j (List.getElem_mem _)).1 hbd
    | ⟨1, _⟩ =>
      unfold GatherDims.siIdx
      rw [dif_pos (by rw [hivd])]
      apply Fin.ext
      show c.val = 0
      have hlen : d.startIndexMap.length = 1 := by rw [hsim]; rfl
      have hc := c.isLt
      omega
  have h0 : d.start (ix2 e j) idx 0 = min (idx (ix2 e 0)).toInt.toNat (N - 1) := by
    have hsl : d.sliceSizes 0 = 1 := d.slice_collapsed 0 (by rw [hcoll]; exact List.mem_singleton.mpr rfl)
    unfold GatherDims.start
    rw [dif_pos (by rw [hsim]; exact List.mem_singleton.mpr rfl), hsi]
    show min (idx (ix2 e 0)).toInt.toNat (N - d.sliceSizes 0) = _
    rw [hsl]
  have h1 : d.start (ix2 e j) idx 1 = 0 := by
    unfold GatherDims.start
    rw [dif_neg (by rw [hsim]; exact (by decide : (1 : Fin 2) ∉ [(0 : Fin 2)]))]
  have ho : d.offCoord (ix2 e j) 1 = j.val := by
    unfold GatherDims.offCoord
    rw [dif_pos (by rw [hk]; exact List.mem_singleton.mpr rfl)]
    exact (ix2_val_of_mem e j (List.getElem_mem _)).2 hoff
  unfold Host.gather
  congr 1
  funext a
  revert a
  refine Fin.forall_fin_two.2 ⟨Fin.ext ?_, Fin.ext ?_⟩
  · show d.start (ix2 e j) idx 0 + d.batchCoord (ix2 e j) 0 + d.offCoord (ix2 e j) 0 = min (idx (ix2 e 0)).toInt.toNat (N - 1)
    rw [GatherDims.batchCoord_eq_zero _ _ _ (hb 0), GatherDims.offCoord_eq_zero _ _ _ (by rw [hk]; exact (by decide : (0 : Fin 2) ∉ [(1 : Fin 2)])), h0]
    rfl
  · show d.start (ix2 e j) idx 1 + d.batchCoord (ix2 e j) 1 + d.offCoord (ix2 e j) 1 = j.val
    rw [GatherDims.batchCoord_eq_zero _ _ _ (hb 1), ho, h1]
    omega

end Cert.ScatterGather

end
-- ==== Proof.RI.RefLayout.lean ====
import Idealize.ShloMosaic.PureOps.Ideal
import Idealize.ShloMosaic.Lib.ValueIdx
import Idealize.ShloMosaic.Lib.Pipeline.Value

noncomputable section

namespace Cert.RefLayout

open Idealize.ShloMosaic Idealize.ShloMosaic.ValueIdx

variable {α : Type}

theorem bcast_vec_col_apply {N : Nat} (dims : Fin 1 → Fin 2) (hd : dims 0 = 0)
    (h : (⟨1, ![N]⟩ : Shape).BroadcastsInDim ⟨2, ![N, 1]⟩ dims)
    (x : (⟨1, ![N]⟩ : Shape).Idx → α) (n : Fin N) :
    broadcastInDim ⟨2, ![N, 1]⟩ dims h x (ix2 n 0) = x (ix1 n) := by
  refine broadcastInDim_apply dims h x (ix2 n 0) (ix1 n) (fun a => ?_)
  match a with
  | ⟨0, _⟩ =>
    have hn := n.isLt
    show n.val = if N = 1 then 0 else ((ix2 n (0 : Fin 1) : (⟨2, ![N, 1]⟩ : Shape).Idx) (dims 0)).val
    rw [hd]
    show n.val = if N = 1 then 0 else n.val
    split <;> omega

theorem bcast_col_rows_apply {N H : Nat} (dims : Fin 2 → Fin 2) (hd0 : dims 0 = 0)
    (h : (⟨2, ![N, 1]⟩ : Shape).BroadcastsInDim ⟨2, ![N, H]⟩ dims)
    (x : (⟨2, ![N, 1]⟩ : Shape).Idx → α) (n : Fin N) (j : Fin H) :
    broadcastInDim ⟨2, ![N, H]⟩ dims h x (ix2 n j) = x (ix2 n 0) := by
  refine broadcastInDim_apply dims h x (ix2 n j) (ix2 n 0) (fun a => ?_)
  match a with
  | ⟨0, _⟩ =>
    have hn := n.isLt
    show n.val = if N = 1 then 0 else ((ix2 n j : (⟨2, ![N, H]⟩ : Shape).Idx) (dims 0)).val
    rw [hd0]
    show n.val = if N = 1 then 0 else n.val
    split <;> omega
  | ⟨1, _⟩ =>
    show (0 : Nat) = if (1 : Nat) = 1 then 0 else ((ix2 n j : (⟨2, ![N, H]⟩ : Shape).Idx) (dims 1)).val
    rw [if_pos rfl]

theorem bias_bcast_apply {N : Nat} (d1 : Fin 1 → Fin 2) (hd1 : d1 0 = 1) (d2 : Fin 2 → Fin 2) (hd21 : d2 1 = 1)
    (h1 : (⟨1, ![256]⟩ : Shape).BroadcastsInDim ⟨2, ![1, 256]⟩ d1)
    (h2 : (⟨2, ![1, 256]⟩ : Shape).BroadcastsInDim ⟨2, ![N, 256]⟩ d2)
    (b : (⟨1, ![256]⟩ : Shape).Idx → α) (n : Fin N) (o : Fin 256) :
    broadcastInDim ⟨2, ![N, 256]⟩ d2 h2 (broadcastInDim ⟨2, ![1, 256]⟩ d1 h1 b) (ix2 n o) = b (ix1 o) := by
  refine (broadcastInDim_apply d2 h2 _ (ix2 n o) (ix2 0 o) (fun a => ?_)).trans ?_
  · match a with
    | ⟨0, _⟩ =>
      show (0 : Nat) = if (1 : Nat) = 1 then 0 else ((ix2 n o : (⟨2, ![N, 256]⟩ : Shape).Idx) (d2 0)).val
      rw [if_pos rfl]
    | ⟨1, _⟩ =>
      show o.val = if (256 : Nat) = 1 then 0 else ((ix2 n o : (⟨2, ![N, 256]⟩ : Shape).Idx) (d2 1)).val
      rw [hd21, if_neg (by decide)]
  · refine broadcastInDim_apply d1 h1 b (ix2 0 o) (ix1 o) (fun a => ?_)
    match a with
    | ⟨0, _⟩ =>
      show o.val = if (256 : Nat) = 1 then 0 else ((ix2 (0 : Fin 1) o : (⟨2, ![1, 256]⟩ : Shape).Idx) (d1 0)).val
      rw [hd1, if_neg (by decide)]

theorem col_of_three_apply {N : Nat} (c : Nat) (hc3 : c < 3)
    (hs : (⟨2, ![N, 3]⟩ : Shape).Slices ![0, c] ⟨2, ![N, 1]⟩)
    (hc : (⟨2, ![N, 1]⟩ : Shape).ShapeCasts ⟨1, ![N]⟩)
    (A : (⟨2, ![N, 3]⟩ : Shape).Idx → α) (n : Fin N) :
    shapeCast ⟨1, ![N]⟩ (extractStridedSlice ⟨2, ![N, 1]⟩ ![0, c] A hs) hc (ix1 n) = A (ix2 n ⟨c, hc3⟩) := by
  refine (shapeCast_apply _ hc (ix1 n) (ix2 n 0) ?_).trans ?_
  · rw [Shape.rowMajor_val_two, Shape.rowMajor_val_one]
    show n.val * 1 + 0 = n.val
    omega
  · refine extractStridedSlice_apply _ A hs (ix2 n 0) (ix2 n ⟨c, hc3⟩) (fun a => ?_)
    match a with
    | ⟨0, _⟩ => show n.val = 0 + n.val; omega
    | ⟨1, _⟩ => show c = c + 0; omega

theorem rel_table_apply {R A B : Nat} (r : Nat) (hr : r < R)
    (hs : (⟨3, ![R, A, B]⟩ : Shape).Slices ![r, 0, 0] ⟨3, ![1, A, B]⟩)
    (hc : (⟨3, ![1, A, B]⟩ : Shape).ShapeCasts ⟨2, ![A, B]⟩)
    (W : (⟨3, ![R, A, B]⟩ : Shape).Idx → α) (a : Fin A) (b : Fin B) :
    shapeCast ⟨2, ![A, B]⟩ (extractStridedSlice ⟨3, ![1, A, B]⟩ ![r, 0, 0] W hs) hc (ix2 a b)
      = W (ix3 ⟨r, hr⟩ a b) := by
  refine (shapeCast_apply _ hc (ix2 a b) (ix3 0 a b) ?_).trans ?_
  · rw [Shape.rowMajor_val_three, Shape.rowMajor_val_two]
    show (0 * A + a.val) * B + b.val = a.val * B + b.val
    rw [Nat.zero_mul, Nat.zero_add]
  · refine extractStridedSlice_apply _ W hs (ix3 0 a b) (ix3 ⟨r, hr⟩ a b) (fun x => ?_)
    match x with
    | ⟨0, _⟩ => show r = r + 0; omega
    | ⟨1, _⟩ => show a.val = 0 + a.val; omega
    | ⟨2, _⟩ => show b.val = 0 + b.val; omega

theorem concat3_cols_apply {N : Nat} (x : Fin 3 → (⟨2, ![N, 64]⟩ : Shape).Idx → α)
    (h : Shape.Concatenates [(⟨2, ![N, 64]⟩ : Shape), ⟨2, ![N, 64]⟩, ⟨2, ![N, 64]⟩] ⟨2, ![N, 192]⟩ 1)
    (n : Fin N) (j : Fin 192) :
    concatenate ⟨2, ![N, 192]⟩ 1 [⟨⟨2, ![N, 64]⟩, x 0⟩, ⟨⟨2, ![N, 64]⟩, x 1⟩, ⟨⟨2, ![N, 64]⟩, x 2⟩] h (ix2 n j)
      = x ⟨j.val / 64, by have := j.isLt; omega⟩ (ix2 n ⟨j.val % 64, Nat.mod_lt _ (by decide)⟩) := by
  exact concatenate_ofFn_apply (t := ⟨2, ![N, 192]⟩) (s₁ := ⟨2, ![N, 64]⟩) 1 x h rfl 64 rfl (ix2 n j)
    ⟨j.val / 64, by have := j.isLt; omega⟩ rfl (ix2 n ⟨j.val % 64, Nat.mod_lt _ (by decide)⟩) rfl
    (fun b hb => by
      match b with
      | ⟨0, _⟩ => rfl
      | ⟨1, _⟩ => exact absurd rfl hb)

theorem wrap_nonneg (w K : BitVec 32) (h : 0 ≤ w.toInt) :
    Scalar.select (IntOp.cmpi .slt w 0#32) (IntOp.addi w K) w = w := by
  have hs : w.slt 0#32 = false := by
    have h0 : (0#32 : BitVec 32).toInt = 0 := by decide
    simp only [BitVec.slt, h0]
    exact decide_eq_false (by omega)
  have hc : IntOp.cmpi .slt w 0#32 = 0#1 := by
    show BitVec.ofBool (w.slt 0#32) = 0#1
    rw [hs]; rfl
  rw [hc]
  exact select_zero _ _

theorem toInt_toNat_of_range (w : BitVec 32) (K : Nat) (h0 : 0 ≤ w.toInt) (h1 : w.toInt < (K : Int)) :
    w.toInt.toNat = w.toNat ∧ w.toNat < K := by
  have hc := BitVec.toInt_eq_toNat_cond w
  have hlt := w.isLt
  split at hc <;> omega

end Cert.RefLayout

end
-- ==== Proof.RI.RefTable.lean ====
import proofs.«421092_j39041252721056_4_alg».proof.Proof.Gen.ReferenceIdeal
import proofs.«421092_j39041252721056_4_alg».proof.Proof.LibScatterGather
import proofs.«421092_j39041252721056_4_alg».proof.Proof.RI.RefLayout

noncomputable section

namespace Cert.ReferenceIdeal.RefValue

open Cert.ReferenceIdeal Cert.ReferenceIdeal.Gen Idealize.ShloMosaic Idealize.ShloMosaic.ValueIdx
open Cert.RefLayout Cert.ScatterGather

theorem slices_featCol (c : Fin 3) : S50000x3.Slices ![0, c.val] S50000x1 :=
  match c with
  | ⟨0, _⟩ => slices_S50000x3_S50000x1_0_0
  | ⟨1, _⟩ => slices_S50000x3_S50000x1_0_1
  | ⟨2, _⟩ => slices_S50000x3_S50000x1_0_2

theorem slices_relTable (r : Fin 5) : S5x1024x64.Slices ![r.val, 0, 0] S1x1024x64 :=
  match r with
  | ⟨0, _⟩ => slices_S5x1024x64_S1x1024x64_0_0_0
  | ⟨1, _⟩ => slices_S5x1024x64_S1x1024x64_1_0_0
  | ⟨2, _⟩ => slices_S5x1024x64_S1x1024x64_2_0_0
  | ⟨3, _⟩ => slices_S5x1024x64_S1x1024x64_3_0_0
  | ⟨4, _⟩ => slices_S5x1024x64_S1x1024x64_4_0_0

theorem slices_edgeRow (r : Fin 5) : S5x500000.Slices ![r.val, 0] S1x500000 :=
  match r with
  | ⟨0, _⟩ => slices_S5x500000_S1x500000_0_0
  | ⟨1, _⟩ => slices_S5x500000_S1x500000_1_0
  | ⟨2, _⟩ => slices_S5x500000_S1x500000_2_0
  | ⟨3, _⟩ => slices_S5x500000_S1x500000_3_0
  | ⟨4, _⟩ => slices_S5x500000_S1x500000_4_0

def featCol (A : IVec S50000x3 32) (c : Fin 3) : IVec S50000 32 :=
  shapeCast _ (extractStridedSlice S50000x1 ![0, c.val] A (slices_featCol c)) shapeCasts_S50000x1_S50000

def edgeRow (A : IVec S5x500000 32) (r : Fin 5) : IVec S500000 32 :=
  shapeCast _ (extractStridedSlice S1x500000 ![r.val, 0] A (slices_edgeRow r)) shapeCasts_S1x500000_S500000

def relTable (W : FVec Ideal S5x1024x64 .f32) (r : Fin 5) : FVec Ideal S1024x64 .f32 :=
  shapeCast _ (extractStridedSlice S1x1024x64 ![r.val, 0, 0] W (slices_relTable r)) shapeCasts_S1x1024x64_S1024x64

def wrapFeat (x : IVec S50000 32) : IVec S50000 32 :=
  select (cmpi .slt x (broadcastInDim S50000 ![] bcast_S_S50000 (constantI S_ 32 0#32)))
    (addi x (broadcastInDim S50000 ![] bcast_S_S50000 (constantI S_ 32 1024#32))) x

def wrapEdge (x : IVec S500000 32) : IVec S500000 32 :=
  select (cmpi .slt x (broadcastInDim S500000 ![] bcast_S_S500000 (constantI S_ 32 0#32)))
    (addi x (broadcastInDim S500000 ![] bcast_S_S500000 (constantI S_ 32 50000#32))) x

def embedCol (Wr : FVec Ideal S1024x64 .f32) (A : IVec S50000x3 32) (c : Fin 3) : FVec Ideal S50000x64 .f32 :=
  Host.gather gather_S1024x64_S50000x1_S50000x64_1_0_n_n_0_1_164 Wr
    (broadcastInDim S50000x1 ![0] bcast_S50000_S50000x1_0 (wrapFeat (featCol A c)))

def tblOf (Wr : FVec Ideal S1024x64 .f32) (A : IVec S50000x3 32) (cj : FVec Ideal S50000x1 .f32) :
    FVec Ideal S50000x192 .f32 :=
  mulf (concatenate S50000x192 1
      [⟨S50000x64, embedCol Wr A 0⟩, ⟨S50000x64, embedCol Wr A 1⟩, ⟨S50000x64, embedCol Wr A 2⟩]
      concatenates_S50000x64_S50000x64_S50000x64_S50000x192_d1)
    (broadcastInDim S50000x192 ![0, 1] bcast_S50000x1_S50000x192_0_1 cj)

def aggOf (T : FVec Ideal S50000x192 .f32) (sidx gidx : IVec S500000 32) : FVec Ideal S50000x192 .f32 :=
  Host.scatterAdd scatter_S50000x192_S500000x1_S500000x192_1_0_0_1
    (broadcastInDim S50000x192 ![] bcast_S_S50000x192 (constant S_ .f32 0x00000000#32))
    (broadcastInDim S500000x1 ![0] bcast_S500000_S500000x1_0 sidx)
    (Host.gather gather_S50000x192_S500000x1_S500000x192_1_0_n_n_0_1_1192 T
      (broadcastInDim S500000x1 ![0] bcast_S500000_S500000x1_0 (wrapEdge gidx)))

theorem embedCol_apply (Wr : FVec Ideal S1024x64 .f32) (A : IVec S50000x3 32) (c : Fin 3) (n : Fin 50000) (q : Fin 64)
    (h0 : 0 ≤ (A (ix2 n c)).toInt) (h1 : (A (ix2 n c)).toInt < 1024) :
    embedCol Wr A c (ix2 n q) = Wr (ix2 ⟨(A (ix2 n c)).toNat, (toInt_toNat_of_range _ 1024 h0 h1).2⟩ q) := by
  obtain ⟨hT, hlt⟩ := toInt_toNat_of_range _ 1024 h0 h1
  have hf : featCol A c (ix1 n) = A (ix2 n c) :=
    col_of_three_apply c.val c.isLt (slices_featCol c) shapeCasts_S50000x1_S50000 A n
  have hw : (broadcastInDim S50000x1 ![0] bcast_S50000_S50000x1_0 (wrapFeat (featCol A c))) (ix2 n 0)
      = A (ix2 n c) := by
    refine (bcast_vec_col_apply _ rfl bcast_S50000_S50000x1_0 (wrapFeat (featCol A c)) n).trans ?_
    show Scalar.select (IntOp.cmpi .slt (featCol A c (ix1 n)) 0#32) (IntOp.addi (featCol A c (ix1 n)) 1024#32)
      (featCol A c (ix1 n)) = _
    rw [hf]
    exact wrap_nonneg _ _ h0
  unfold embedCol
  refine (gather_rows_apply (by decide : 0 < 1024) gather_S1024x64_S50000x1_S50000x64_1_0_n_n_0_1_164
    rfl rfl rfl rfl rfl Wr _ n q).trans ?_
  rw [hw]
  refine congrArg (fun a => Wr (ix2 a q)) (Fin.ext ?_)
  show min (A (ix2 n c)).toInt.toNat (1024 - 1) = (A (ix2 n c)).toNat
  rw [hT]
  omega

theorem tblOf_apply (W : FVec Ideal S5x1024x64 .f32) (r : Fin 5) (A : IVec S50000x3 32) (cj : FVec Ideal S50000x1 .f32)
    (n : Fin 50000) (j : Fin 192)
    (hfeat : ∀ c : Fin 3, 0 ≤ (A (ix2 n c)).toInt ∧ (A (ix2 n c)).toInt < 1024) :
    tblOf (relTable W r) A cj (ix2 n j)
      = W (ix3 r ⟨(A (ix2 n ⟨j.val / 64, by have := j.isLt; omega⟩)).toNat,
            (toInt_toNat_of_range _ 1024 (hfeat _).1 (hfeat _).2).2⟩ ⟨j.val % 64, Nat.mod_lt _ (by decide)⟩)
        * cj (ix2 n 0) := by
  have hj := j.isLt
  have hq : j.val / 64 < 3 := by omega
  have hm : j.val % 64 < 64 := Nat.mod_lt _ (by decide)
  have e1 := concat3_cols_apply (fun c => embedCol (relTable W r) A c)
    concatenates_S50000x64_S50000x64_S50000x64_S50000x192_d1 n j
  have e2 := embedCol_apply (relTable W r) A ⟨j.val / 64, hq⟩ n ⟨j.val % 64, hm⟩ (hfeat _).1 (hfeat _).2
  have e3 := rel_table_apply r.val r.isLt (slices_relTable r) shapeCasts_S1x1024x64_S1024x64 W
    ⟨(A (ix2 n ⟨j.val / 64, hq⟩)).toNat, (toInt_toNat_of_range _ 1024 (hfeat _).1 (hfeat _).2).2⟩ ⟨j.val % 64, hm⟩
  have e4 := bcast_col_rows_apply (![0, 1]) rfl bcast_S50000x1_S50000x192_0_1 cj n j
  exact congrArg₂ (· * ·) (e1.trans (e2.trans e3)) e4

end Cert.ReferenceIdeal.RefValue

end
-- ==== Proof.BR.TblEq.lean ====
import proofs.«421092_j39041252721056_4_alg».proof.Proof.Gen.KernelIdeal.Launch
import proofs.«421092_j39041252721056_4_alg».proof.Proof.RI.RefTable

noncomputable section

namespace Cert.Bridge

open Idealize.ShloMosaic Idealize.ShloMosaic.ValueIdx Cert.ReferenceIdeal.RefValue

-- An embedding array, entrywise: the table row a feature word in range names, times the node's scale.
def EmbedSpec (G : FVec Ideal Cert.KernelIdeal.S5x1024x64 .f32 → IVec Cert.KernelIdeal.S50000x3 32 →
    FVec Ideal Cert.KernelIdeal.S50000x1 .f32 → FVec Ideal Cert.KernelIdeal.S5x50000x192 .f32) : Prop :=
  ∀ W feat cj (r : Fin 5) (n : Fin 50000) (j : Fin 192)
    (h0 : 0 ≤ (feat (ix2 n ⟨j.val / 64, by have := j.isLt; omega⟩)).toInt)
    (h1 : (feat (ix2 n ⟨j.val / 64, by have := j.isLt; omega⟩)).toInt < 1024),
    G W feat cj (ix3 r n j)
      = W (ix3 r ⟨(feat (ix2 n ⟨j.val / 64, by have := j.isLt; omega⟩)).toNat, (Cert.RefLayout.toInt_toNat_of_range _ 1024 h0 h1).2⟩
          ⟨j.val % 64, Nat.mod_lt _ (by decide)⟩) * cj (ix2 n 0)

theorem tbl_eq {G} (hG : EmbedSpec G) (W : FVec Ideal Cert.KernelIdeal.S5x1024x64 .f32)
    (feat : IVec Cert.KernelIdeal.S50000x3 32) (cj : FVec Ideal Cert.KernelIdeal.S50000x1 .f32) (r : Fin 5)
    (hfeat : ∀ (n : Fin 50000) (c : Fin 3), 0 ≤ (feat (ix2 n c)).toInt ∧ (feat (ix2 n c)).toInt < 1024) :
    (fun i : Cert.KernelIdeal.S50000x192.Idx => G W feat cj (ix3 r (i 0) (i 1))) = tblOf (relTable W r) feat cj := by
  funext i
  obtain ⟨n, j, rfl⟩ : ∃ (n : Fin 50000) (j : Fin 192), i = ix2 n j := ⟨i 0, i 1, eq_ix2 i⟩
  exact (hG W feat cj r n j (hfeat n _).1 (hfeat n _).2).trans (tblOf_apply W r feat cj n j (hfeat n)).symm

end Cert.Bridge

end
-- ==== Proof.BR.AggEq.lean ====
import proofs.«421092_j39041252721056_4_alg».proof.Proof.KI.HostDefs
import proofs.«421092_j39041252721056_4_alg».proof.Proof.RI.RefTable
import Idealize.ShloMosaic.Lib.Pipeline.Value
import Idealize.ShloMosaic.Lib.ValueIdx

noncomputable section

namespace Cert.Bridge

open Idealize.ShloMosaic Idealize.ShloMosaic.ValueIdx

theorem agg_eq (T : FVec Ideal Cert.KernelIdeal.S50000x192 .f32) (g s : IVec Cert.KernelIdeal.S500000 32) :
    Cert.KernelIdeal.Val.aggK (F := Ideal) T g s = Cert.ReferenceIdeal.RefValue.aggOf T s g := by
  unfold Cert.KernelIdeal.Val.aggK Cert.KernelIdeal.Val.scatterK Cert.KernelIdeal.Val.gatherK
    Cert.KernelIdeal.Val.zerosTbl Cert.KernelIdeal.Val.wrapCol Cert.KernelIdeal.Val.col
    Cert.ReferenceIdeal.RefValue.aggOf Cert.ReferenceIdeal.RefValue.wrapEdge
  rfl

theorem rowOf_eq (A : IVec Cert.KernelIdeal.S5x500000 32) (r : Fin 5) :
    Cert.KernelIdeal.Val.rowOf A r = Cert.ReferenceIdeal.RefValue.edgeRow A r :=
  match r with
  | ⟨0, _⟩ => rfl
  | ⟨1, _⟩ => rfl
  | ⟨2, _⟩ => rfl
  | ⟨3, _⟩ => rfl
  | ⟨4, _⟩ => rfl

theorem sliceTbl_apply (x : FVec Ideal Cert.KernelIdeal.S5x50000x192 .f32) (r : Fin 5) (n : Fin 50000) (j : Fin 192) :
    Cert.KernelIdeal.Val.sliceTbl x r (ix2 n j) = x (ix3 r n j) :=
  match r with
  | ⟨0, _⟩ => Cert.RefLayout.rel_table_apply 0 (by decide) _ _ x n j
  | ⟨1, _⟩ => Cert.RefLayout.rel_table_apply 1 (by decide) _ _ x n j
  | ⟨2, _⟩ => Cert.RefLayout.rel_table_apply 2 (by decide) _ _ x n j
  | ⟨3, _⟩ => Cert.RefLayout.rel_table_apply 3 (by decide) _ _ x n j
  | ⟨4, _⟩ => Cert.RefLayout.rel_table_apply 4 (by decide) _ _ x n j

theorem sliceTbl_eq (x : FVec Ideal Cert.KernelIdeal.S5x50000x192 .f32) (r : Fin 5) :
    Cert.KernelIdeal.Val.sliceTbl x r = fun i : Cert.KernelIdeal.S50000x192.Idx => x (ix3 r (i 0) (i 1)) := by
  funext i
  obtain ⟨n, j, rfl⟩ : ∃ (n : Fin 50000) (j : Fin 192), i = ix2 n j := ⟨i 0, i 1, eq_ix2 i⟩
  exact sliceTbl_apply x r n j

theorem aggAll_apply (x : FVec Ideal Cert.KernelIdeal.S5x50000x192 .f32) (g s : IVec Cert.KernelIdeal.S5x500000 32)
    (r : Fin 5) (n : Fin 50000) (j : Fin 192) :
    Cert.KernelIdeal.Val.aggAll (F := Ideal) x g s (ix3 r n j)
      = Cert.KernelIdeal.Val.aggK (Cert.KernelIdeal.Val.sliceTbl x r) (Cert.KernelIdeal.Val.rowOf g r)
          (Cert.KernelIdeal.Val.rowOf s r) (ix2 n j) := by
  unfold Cert.KernelIdeal.Val.aggAll Cert.KernelIdeal.Val.stack5
  refine (concatenate_ofFn_unit_apply (t := ⟨3, ![5, 50000, 192]⟩) (s₁ := ⟨3, ![1, 50000, 192]⟩) 0
    (fun q : Fin 5 => Cert.KernelIdeal.Val.lift1 (Cert.KernelIdeal.Val.aggK (Cert.KernelIdeal.Val.sliceTbl x q)
      (Cert.KernelIdeal.Val.rowOf g q) (Cert.KernelIdeal.Val.rowOf s q))) _ rfl rfl (ix3 r n j) r rfl (ix3 0 n j)
    (fun b hb => by
      match b with
      | ⟨0, _⟩ => exact absurd rfl hb
      | ⟨1, _⟩ => rfl
      | ⟨2, _⟩ => rfl)).trans ?_
  refine broadcastInDim_apply _ _ _ (ix3 0 n j) (ix2 n j) (fun a => ?_)
  match a with
  | ⟨0, _⟩ => show n.val = if (50000 : Nat) = 1 then 0 else n.val; rw [if_neg (by decide)]
  | ⟨1, _⟩ => show j.val = if (192 : Nat) = 1 then 0 else j.val; rw [if_neg (by decide)]

theorem reshape_fcw_apply (x : FVec Ideal Cert.KernelIdeal.S960x256 .f32)
    {h : Cert.KernelIdeal.S960x256.ShapeCasts Cert.KernelIdeal.S5x192x256} (r : Fin 5) (j : Fin 192) (o : Fin 256) :
    shapeCast Cert.KernelIdeal.S5x192x256 x h (ix3 r j o)
      = x (ix2 (⟨192 * r.val + j.val, by have := r.isLt; have := j.isLt; omega⟩ : Fin 960) o) := by
  refine shapeCast_apply x h (ix3 r j o) (ix2 (⟨192 * r.val + j.val, by have := r.isLt; have := j.isLt; omega⟩ : Fin 960) o) ?_
  rw [Shape.rowMajor_val_three, Shape.rowMajor_val_two]
  show (192 * r.val + j.val) * 256 + o.val = (r.val * 192 + j.val) * 256 + o.val
  omega

theorem reshape_fcb_apply (x : FVec Ideal Cert.KernelIdeal.S256 .f32)
    {h : Cert.KernelIdeal.S256.ShapeCasts Cert.KernelIdeal.S1x256} (o : Fin 256) :
    shapeCast Cert.KernelIdeal.S1x256 x h (ix2 0 o) = x (ix1 o) := by
  refine shapeCast_apply x h (ix2 0 o) (ix1 o) ?_
  rw [Shape.rowMajor_val_one, Shape.rowMajor_val_two]
  show o.val = 0 * 256 + o.val
  omega

end Cert.Bridge

end
-- ==== Proof.RI.RefFc.lean ====
import proofs.«421092_j39041252721056_4_alg».proof.Proof.Gen.ReferenceIdeal
import proofs.«421092_j39041252721056_4_alg».proof.Proof.LibDotPlain
import proofs.«421092_j39041252721056_4_alg».proof.Proof.RI.RefLayout

noncomputable section

namespace Cert.ReferenceIdeal.RefValue

open Cert.ReferenceIdeal Cert.ReferenceIdeal.Gen Idealize.ShloMosaic Idealize.ShloMosaic.ValueIdx
open Cert.RefLayout Cert.DotPlain
open scoped BigOperators

def slabOf (agg : FVec Ideal S50000x192 .f32) (ci : FVec Ideal S50000x1 .f32) : FVec Ideal S50000x1x192 .f32 :=
  broadcastInDim S50000x1x192 ![0, 2] bcast_S50000x192_S50000x1x192_0_2
    (mulf agg (broadcastInDim S50000x192 ![0, 1] bcast_S50000x1_S50000x192_0_1 ci))

def stackOf (agg : Fin 5 → FVec Ideal S50000x192 .f32) (ci : FVec Ideal S50000x1 .f32) : FVec Ideal S50000x5x192 .f32 :=
  concatenate S50000x5x192 1
    [⟨S50000x1x192, slabOf (agg 0) ci⟩, ⟨S50000x1x192, slabOf (agg 1) ci⟩, ⟨S50000x1x192, slabOf (agg 2) ci⟩,
     ⟨S50000x1x192, slabOf (agg 3) ci⟩, ⟨S50000x1x192, slabOf (agg 4) ci⟩]
    concatenates_S50000x1x192_S50000x1x192_S50000x1x192_S50000x1x192_S50000x1x192_S50000x5x192_d1

def fcOf (agg : Fin 5 → FVec Ideal S50000x192 .f32) (ci : FVec Ideal S50000x1 .f32)
    (w : FVec Ideal S960x256 .f32) (b : FVec Ideal S256 .f32) : FVec Ideal S50000x256 .f32 :=
  addf (Host.dotGeneral dot_S50000x960_S960x256_S50000x256_1_0_0_1_n_n none
      (shapeCast _ (stackOf agg ci) shapeCasts_S50000x5x192_S50000x960) w)
    (broadcastInDim S50000x256 ![0, 1] bcast_S1x256_S50000x256_0_1 (broadcastInDim S1x256 ![1] bcast_S256_S1x256_1 b))

theorem stackOf_flat_apply (agg : Fin 5 → FVec Ideal S50000x192 .f32) (ci : FVec Ideal S50000x1 .f32)
    (n : Fin 50000) (k : Fin 960) :
    shapeCast S50000x960 (stackOf agg ci) shapeCasts_S50000x5x192_S50000x960 (ix2 n k)
      = agg ⟨k.val / 192, by have := k.isLt; omega⟩ (ix2 n ⟨k.val % 192, Nat.mod_lt _ (by decide)⟩) * ci (ix2 n 0) := by
  have hk := k.isLt
  have hq : k.val / 192 < 5 := by omega
  have hm : k.val % 192 < 192 := Nat.mod_lt _ (by decide)
  refine (shapeCast_apply _ shapeCasts_S50000x5x192_S50000x960 (ix2 n k)
    (ix3 n ⟨k.val / 192, hq⟩ ⟨k.val % 192, hm⟩) ?_).trans ?_
  · rw [Shape.rowMajor_val_three, Shape.rowMajor_val_two]
    show (n.val * 5 + k.val / 192) * 192 + k.val % 192 = n.val * 960 + k.val
    omega
  refine (concatenate_ofFn_unit_apply (t := S50000x5x192) (s₁ := S50000x1x192) 1 (fun r => slabOf (agg r) ci) _ rfl rfl
    (ix3 n ⟨k.val / 192, hq⟩ ⟨k.val % 192, hm⟩) ⟨k.val / 192, hq⟩ rfl (ix3 n 0 ⟨k.val % 192, hm⟩)
    (fun b hb => by
      match b with
      | ⟨0, _⟩ => rfl
      | ⟨1, _⟩ => exact absurd rfl hb
      | ⟨2, _⟩ => rfl)).trans ?_
  refine (broadcastInDim_apply _ _ _ (ix3 n 0 ⟨k.val % 192, hm⟩) (ix2 n ⟨k.val % 192, hm⟩) (fun a => ?_)).trans ?_
  · match a with
    | ⟨0, _⟩ => show n.val = if (50000 : Nat) = 1 then 0 else n.val; rw [if_neg (by decide)]
    | ⟨1, _⟩ => show k.val % 192 = if (192 : Nat) = 1 then 0 else k.val % 192; rw [if_neg (by decide)]
  exact congrArg (agg _ _ * ·) (bcast_col_rows_apply (![0, 1]) rfl bcast_S50000x1_S50000x192_0_1 ci n _)

theorem fcOf_apply (agg : Fin 5 → FVec Ideal S50000x192 .f32) (ci : FVec Ideal S50000x1 .f32)
    (w : FVec Ideal S960x256 .f32) (b : FVec Ideal S256 .f32) (n : Fin 50000) (o : Fin 256) :
    fcOf agg ci w b (ix2 n o)
      = (∑ k : Fin 960, (agg ⟨k.val / 192, by have := k.isLt; omega⟩ (ix2 n ⟨k.val % 192, Nat.mod_lt _ (by decide)⟩)
            * ci (ix2 n 0)) * w (ix2 k o)) + b (ix1 o) := by
  have hdot : Host.dotGeneral dot_S50000x960_S960x256_S50000x256_1_0_0_1_n_n none
      (shapeCast _ (stackOf agg ci) shapeCasts_S50000x5x192_S50000x960) w (ix2 n o)
      = ∑ k : Fin 960, (agg ⟨k.val / 192, by have := k.isLt; omega⟩ (ix2 n ⟨k.val % 192, Nat.mod_lt _ (by decide)⟩)
            * ci (ix2 n 0)) * w (ix2 k o) := by
    refine (dotGeneral_rows_cols dot_S50000x960_S960x256_S50000x256_1_0_0_1_n_n rfl rfl rfl rfl rfl rfl none _
      (shapeCast S50000x960 (stackOf agg ci) shapeCasts_S50000x5x192_S50000x960) w n o).trans ?_
    exact Finset.sum_congr rfl (fun k _ => congrArg (· * w (ix2 k o)) (stackOf_flat_apply agg ci n k))
  have hbias : broadcastInDim S50000x256 ![0, 1] bcast_S1x256_S50000x256_0_1
      (broadcastInDim S1x256 ![1] bcast_S256_S1x256_1 b) (ix2 n o) = b (ix1 o) :=
    bias_bcast_apply ![1] rfl ![0, 1] rfl bcast_S256_S1x256_1 bcast_S1x256_S50000x256_0_1 b n o
  exact (addf_apply _ _ _).trans (congrArg₂ (· + ·) hdot hbias)

end Cert.ReferenceIdeal.RefValue

end
-- ==== Proof.FcSum.lean ====
import Mathlib.Algebra.BigOperators.Fin
import Mathlib.Data.Fintype.BigOperators

namespace Cert.FcSum

open scoped BigOperators

def blk (k : Fin 960) : Fin 5 := ⟨k.val / 192, by have := k.isLt; omega⟩
def plc (k : Fin 960) : Fin 192 := ⟨k.val % 192, Nat.mod_lt _ (by decide)⟩

def acc5 {M : Type*} [AddCommMonoid M] (f : Fin 5 → Fin 192 → M) : M :=
  ((((0 + ∑ j, f 0 j) + ∑ j, f 1 j) + ∑ j, f 2 j) + ∑ j, f 3 j) + ∑ j, f 4 j

-- 960 = 5 · 192: the sum over all columns, regrouped by block, is the five block sums added in order.
theorem acc_eq_sum {M : Type*} [AddCommMonoid M] (f : Fin 5 → Fin 192 → M) :
    acc5 f = ∑ k : Fin 960, f (blk k) (plc k) := by
  have h : ∀ t r, f (blk (finProdFinEquiv (t, r))) (plc (finProdFinEquiv (t, r))) = f t r := fun t r => by
    have := r.isLt
    congr 1 <;> apply Fin.ext
    · show (r.val + 192 * t.val) / 192 = t.val
      omega
    · show (r.val + 192 * t.val) % 192 = r.val
      omega
  rw [← Equiv.sum_comp (finProdFinEquiv (m := 5) (n := 192)) fun k => f (blk k) (plc k), Fintype.sum_prod_type]
  simp only [h]
  rw [acc5, Fin.sum_univ_five, zero_add]

end Cert.FcSum
-- ==== Proof.BR.FcBridge.lean ====
import proofs.«421092_j39041252721056_4_alg».proof.Proof.BR.TblEq
import proofs.«421092_j39041252721056_4_alg».proof.Proof.BR.AggEq
import proofs.«421092_j39041252721056_4_alg».proof.Proof.RI.RefFc
import proofs.«421092_j39041252721056_4_alg».proof.Proof.FcSum

noncomputable section

namespace Cert.Bridge

open Idealize.ShloMosaic Idealize.ShloMosaic.ValueIdx Cert.ReferenceIdeal.RefValue Cert.KernelIdeal.Val
open scoped BigOperators

-- A projection array, entrywise: the five relations' 192-term sums added in order from zero, plus the bias.
def FcSpec (fc : FVec Ideal Cert.KernelIdeal.S5x50000x192 .f32 → FVec Ideal Cert.KernelIdeal.S50000x1 .f32 →
    FVec Ideal Cert.KernelIdeal.S5x192x256 .f32 → FVec Ideal Cert.KernelIdeal.S1x256 .f32 →
    FVec Ideal Cert.KernelIdeal.S50000x256 .f32) : Prop :=
  ∀ H ci w3 b2 (n : Fin 50000) (o : Fin 256), fc H ci w3 b2 (ix2 n o)
    = Cert.FcSum.acc5 (fun r j => (H (ix3 r n j) * ci (ix2 n 0)) * w3 (ix3 r j o)) + b2 (ix2 0 o)

-- Both programs' last stage is one sum of 960 products over one aggregate of one node table.
theorem fc_bridge {G fc} (hG : EmbedSpec G) (hfc : FcSpec fc) (W : FVec Ideal Cert.KernelIdeal.S5x1024x64 .f32)
    (feat : IVec Cert.KernelIdeal.S50000x3 32) (cj ci : FVec Ideal Cert.KernelIdeal.S50000x1 .f32)
    (g s : IVec Cert.KernelIdeal.S5x500000 32) (fcw : FVec Ideal Cert.KernelIdeal.S960x256 .f32)
    (fcb : FVec Ideal Cert.KernelIdeal.S256 .f32)
    (hfeat : ∀ (n : Fin 50000) (c : Fin 3), 0 ≤ (feat (ix2 n c)).toInt ∧ (feat (ix2 n c)).toInt < 1024) :
    fc (aggAll (F := Ideal) (G W feat cj) g s) ci
        (shapeCast Cert.KernelIdeal.S5x192x256 fcw Cert.KernelIdeal.Gen.shapeCasts_S960x256_S5x192x256)
        (shapeCast Cert.KernelIdeal.S1x256 fcb Cert.KernelIdeal.Gen.shapeCasts_S256_S1x256)
      = fcOf (fun r => aggOf (tblOf (relTable W r) feat cj) (edgeRow s r) (edgeRow g r)) ci fcw fcb := by
  funext i
  obtain ⟨n, o, rfl⟩ : ∃ (n : Fin 50000) (o : Fin 256), i = ix2 n o := ⟨i 0, i 1, eq_ix2 i⟩
  rw [hfc _ _ _ _ n o, fcOf_apply, reshape_fcb_apply]
  refine congrArg (· + fcb (ix1 o)) ((Cert.FcSum.acc_eq_sum _).trans (Finset.sum_congr rfl fun k _ => ?_))
  rw [aggAll_apply, agg_eq, rowOf_eq, rowOf_eq, sliceTbl_eq, tbl_eq hG W feat cj _ hfeat, reshape_fcw_apply]
  have hk : (⟨192 * (Cert.FcSum.blk k).val + (Cert.FcSum.plc k).val, by
      have := k.isLt; show 192 * (k.val / 192) + k.val % 192 < 960; omega⟩ : Fin 960) = k :=
    Fin.ext (Nat.div_add_mod k.val 192)
  rw [hk]
  rfl

end Cert.Bridge

end
-- ==== Proof.RI.RefValue.lean ====
import proofs.«421092_j39041252721056_4_alg».proof.Proof.Gen.ReferenceIdeal.Run
import proofs.«421092_j39041252721056_4_alg».proof.Proof.RI.RefTable
import proofs.«421092_j39041252721056_4_alg».proof.Proof.RI.RefFc

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo
open Idealize.ShloMosaic.ValueIdx Cert.RefLayout
open scoped BigOperators

abbrev drugFeat (V0 : Valuation τ sig (Elt Ideal)) : IVec S50000x3 32 := V0 (Proc.devRef .tc main_arg0)
abbrev disFeat (V0 : Valuation τ sig (Elt Ideal)) : IVec S50000x3 32 := V0 (Proc.devRef .tc main_arg1)
abbrev srcEnds (V0 : Valuation τ sig (Elt Ideal)) : IVec S5x500000 32 := V0 (Proc.devRef .tc main_arg2)
abbrev dstEnds (V0 : Valuation τ sig (Elt Ideal)) : IVec S5x500000 32 := V0 (Proc.devRef .tc main_arg3)
abbrev cjDrug (V0 : Valuation τ sig (Elt Ideal)) : FVec Ideal S50000x1 .f32 := V0 (Proc.devRef .tc main_arg4)
abbrev ciDrug (V0 : Valuation τ sig (Elt Ideal)) : FVec Ideal S50000x1 .f32 := V0 (Proc.devRef .tc main_arg5)
abbrev cjDis (V0 : Valuation τ sig (Elt Ideal)) : FVec Ideal S50000x1 .f32 := V0 (Proc.devRef .tc main_arg6)
abbrev ciDis (V0 : Valuation τ sig (Elt Ideal)) : FVec Ideal S50000x1 .f32 := V0 (Proc.devRef .tc main_arg7)
abbrev fcW (V0 : Valuation τ sig (Elt Ideal)) : FVec Ideal S960x256 .f32 := V0 (Proc.devRef .tc main_arg10)
abbrev fcB (V0 : Valuation τ sig (Elt Ideal)) : FVec Ideal S256 .f32 := V0 (Proc.devRef .tc main_arg11)
abbrev relW (V0 : Valuation τ sig (Elt Ideal)) : FVec Ideal S5x1024x64 .f32 := res_main_v2 V0

def tbl_drug (V0 : Valuation τ sig (Elt Ideal)) (r : Fin 5) : FVec Ideal S50000x192 .f32 :=
  tblOf (relTable (relW V0) r) (disFeat V0) (cjDis V0)

def agg_drug (V0 : Valuation τ sig (Elt Ideal)) (r : Fin 5) : FVec Ideal S50000x192 .f32 :=
  aggOf (tbl_drug V0 r) (edgeRow (srcEnds V0) r) (edgeRow (dstEnds V0) r)

def tbl_dis (V0 : Valuation τ sig (Elt Ideal)) (r : Fin 5) : FVec Ideal S50000x192 .f32 :=
  tblOf (relTable (relW V0) r) (drugFeat V0) (cjDrug V0)

def agg_dis (V0 : Valuation τ sig (Elt Ideal)) (r : Fin 5) : FVec Ideal S50000x192 .f32 :=
  aggOf (tbl_dis V0 r) (edgeRow (dstEnds V0) r) (edgeRow (srcEnds V0) r)

theorem ref_drug_eq (V0 : Valuation τ sig (Elt Ideal)) :
    addf (Host.dotGeneral (φ₁ := .f32) (φ₂ := .f32) dot_S50000x960_S960x256_S50000x256_1_0_0_1_n_n none
        (shapeCast _ (res_main_v478 V0) shapeCasts_S50000x5x192_S50000x960) (V0 (Proc.devRef .tc main_arg10)))
      (broadcastInDim S50000x256 ![0, 1] bcast_S1x256_S50000x256_0_1
        (broadcastInDim S1x256 ![1] bcast_S256_S1x256_1 (V0 (Proc.devRef .tc main_arg11))))
      = fcOf (agg_drug V0) (ciDrug V0) (fcW V0) (fcB V0) := rfl

theorem ref_dis_eq (V0 : Valuation τ sig (Elt Ideal)) :
    addf (Host.dotGeneral (φ₁ := .f32) (φ₂ := .f32) dot_S50000x960_S960x256_S50000x256_1_0_0_1_n_n none
        (shapeCast _ (res_main_v485 V0) shapeCasts_S50000x5x192_S50000x960) (V0 (Proc.devRef .tc main_arg10)))
      (broadcastInDim S50000x256 ![0, 1] bcast_S1x256_S50000x256_0_1
        (broadcastInDim S1x256 ![1] bcast_S256_S1x256_1 (V0 (Proc.devRef .tc main_arg11))))
      = fcOf (agg_dis V0) (ciDis V0) (fcW V0) (fcB V0) := rfl

end Cert.ReferenceIdeal.RefValue

end
-- ==== Proof.PreRange.lean ====
import proofs.«421092_j39041252721056_4_alg».proof.Pre_finite_inputs
import Idealize.ShloMosaic.Lib.ReduceAll

noncomputable section

namespace Cert.PreRange

open Idealize.ShloMosaic Cert.Pre_finite_inputs

variable {F : FTy → Type} [FloatOps F] [Cert.Pre_finite_inputs.Facts]

def InRange (w : BitVec 32) : Prop := 0 ≤ w.toInt ∧ w.toInt < 1024

theorem inRange_of_bits (w : BitVec 32)
    (h : IntOp.andi (IntOp.cmpi .sge w 0#32) (IntOp.cmpi .slt w 1024#32) = 1#1) : InRange w := by
  obtain ⟨h0, h1⟩ := IntOp.andi_eq_one.1 h
  rw [IntOp.cmpi_sge] at h0
  rw [IntOp.cmpi_slt] at h1
  have z : (0#32 : BitVec 32).toInt = 0 := by decide
  have k : (1024#32 : BitVec 32).toInt = 1024 := by decide
  rw [z] at h0
  rw [k] at h1
  exact ⟨h0, h1⟩

instance : Subsingleton S_.Idx := ⟨fun a b => funext fun d => d.elim0⟩

theorem feat_in_range (a0 a1 : IVec S50000x3 32) (a2 a3 : IVec S5x500000 32) (a4 a5 a6 a7 : FVec F S50000x1 .f32)
    (a8 : FVec F S5x4 .f32) (a9 : FVec F S4x1024x64 .f32) (a10 : FVec F S960x256 .f32) (a11 : FVec F S256 .f32)
    (h : fn (F := F) a0 a1 a2 a3 a4 a5 a6 a7 a8 a9 a10 a11 = fun _ => 1#1) :
    (∀ i, InRange (a0 i)) ∧ (∀ i, InRange (a1 i)) := by
  have e := congrFun h (fun d => d.elim0)
  unfold fn at e
  dsimp only at e
  unfold fn_part1 at e
  dsimp only at e
  unfold fn_part2 at e
  dsimp only at e
  unfold fn_part3 at e
  dsimp only at e
  obtain ⟨e0, e1⟩ := IntOp.andi_eq_one.1 (show IntOp.andi _ _ = 1#1 from e)
  obtain ⟨-, e0'⟩ := IntOp.andi_eq_one.1 (show IntOp.andi _ _ = 1#1 from e0)
  exact ⟨fun i => inRange_of_bits (a0 i) (Host.reduce_andi_all _ _ _ _ _ e0' i),
    fun i => inRange_of_bits (a1 i) (Host.reduce_andi_all _ _ _ _ _ e1 i)⟩

end Cert.PreRange

end
-- ==== Proof.BR.Final.lean ====
import proofs.«421092_j39041252721056_4_alg».proof.Defs
import proofs.«421092_j39041252721056_4_alg».proof.Proof.KI.KValue
import proofs.«421092_j39041252721056_4_alg».proof.Proof.KI.EmbedVal
import proofs.«421092_j39041252721056_4_alg».proof.Proof.KI.FcVal
import proofs.«421092_j39041252721056_4_alg».proof.Proof.KI.FcVal3
import proofs.«421092_j39041252721056_4_alg».proof.Proof.BR.FcBridge
import proofs.«421092_j39041252721056_4_alg».proof.Proof.RI.RefValue
import proofs.«421092_j39041252721056_4_alg».proof.Proof.PreRange
import proofs.«421092_j39041252721056_4_alg».proof.Proof.Gen.Pre_finite_inputs

set_option maxRecDepth 16384

noncomputable section

namespace Cert.Bridge

open Idealize.ShloMosaic Idealize.ShloMosaic.TcCoe Idealize.SL.Sem Idealize.ShloMosaic.StableHlo
open Idealize.ShloMosaic.ValueIdx

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

theorem relW_eq (c : Dev Cert.KernelIdeal.nD)
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v2 (F := Ideal) (launchContents m' c) = Cert.KernelIdeal.Fr.Wm (F := Ideal) m c :=
  congrArg₂ (fun (a8 : FVec Ideal Cert.KernelIdeal.S5x4 .f32) (a9 : FVec Ideal Cert.KernelIdeal.S4x1024x64 .f32) =>
    shapeCast Cert.KernelIdeal.S5x1024x64 (Host.dotGeneral Cert.KernelIdeal.dot_S5x4_S4x65536_S5x65536_1_0_0_1_n_n none a8
      (shapeCast Cert.KernelIdeal.S4x65536 a9 Cert.KernelIdeal.Gen.shapeCasts_S4x1024x64_S4x65536))
      Cert.KernelIdeal.Gen.shapeCasts_S5x65536_S5x1024x64) h8 h9

omit m ρ m' in
theorem fc_congr {W W' : FVec Ideal Cert.KernelIdeal.S5x1024x64 .f32} {f f' : IVec Cert.KernelIdeal.S50000x3 32}
    {cj cj' ci ci' : FVec Ideal Cert.KernelIdeal.S50000x1 .f32} {s s' g g' : IVec Cert.KernelIdeal.S5x500000 32}
    {w w' : FVec Ideal Cert.KernelIdeal.S960x256 .f32} {b b' : FVec Ideal Cert.KernelIdeal.S256 .f32}
    (hW : W = W') (hf : f = f') (hcj : cj = cj') (hs : s = s') (hg : g = g') (hci : ci = ci') (hw : w = w') (hb : b = b') :
    Cert.ReferenceIdeal.RefValue.fcOf (fun r => Cert.ReferenceIdeal.RefValue.aggOf
        (Cert.ReferenceIdeal.RefValue.tblOf (Cert.ReferenceIdeal.RefValue.relTable W r) f cj)
        (Cert.ReferenceIdeal.RefValue.edgeRow s r) (Cert.ReferenceIdeal.RefValue.edgeRow g r)) ci w b
      = Cert.ReferenceIdeal.RefValue.fcOf (fun r => Cert.ReferenceIdeal.RefValue.aggOf
        (Cert.ReferenceIdeal.RefValue.tblOf (Cert.ReferenceIdeal.RefValue.relTable W' r) f' cj')
        (Cert.ReferenceIdeal.RefValue.edgeRow s' r) (Cert.ReferenceIdeal.RefValue.edgeRow g' r)) ci' w' b' := by
  subst_vars; rfl

theorem drug_value (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    addf (Host.dotGeneral (φ₁ := .f32) (φ₂ := .f32) Cert.ReferenceIdeal.dot_S50000x960_S960x256_S50000x256_1_0_0_1_n_n none
        (shapeCast _ (Cert.ReferenceIdeal.Value.res_main_v478 (launchContents m' c)) Cert.ReferenceIdeal.Gen.shapeCasts_S50000x5x192_S50000x960)
        ((launchContents m' c) (Proc.devRef .tc Cert.ReferenceIdeal.main_arg10)))
      (broadcastInDim Cert.ReferenceIdeal.S50000x256 ![0, 1] Cert.ReferenceIdeal.Gen.bcast_S1x256_S50000x256_0_1
        (broadcastInDim Cert.ReferenceIdeal.S1x256 ![1] Cert.ReferenceIdeal.Gen.bcast_S256_S1x256_1 ((launchContents m' c) (Proc.devRef .tc Cert.ReferenceIdeal.main_arg11))))
      = Cert.KernelIdeal.Fr.W9 m ρ c (Proc.devRef .tc Cert.KernelIdeal.main_v179) := by
  obtain ⟨-, hf1⟩ := Cert.PreRange.feat_in_range (F := Ideal) _ _ _ _ _ _ _ _ _ _ _ _ (hpre c)
  rw [Cert.KernelIdeal.Fr.kernel_v179, Cert.ReferenceIdeal.RefValue.ref_drug_eq,
    fc_bridge Cert.KernelIdeal.Val.embedG1_inrange Cert.KernelIdeal.Val.fcG2_apply _ _ _ _ _ _ _ _ (fun n c' => hf1 (ix2 n c'))]
  exact fc_congr (relW_eq m m' c h8 h9) h1 h6 h2 h3 h5 h10 h11

theorem dis_value (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    addf (Host.dotGeneral (φ₁ := .f32) (φ₂ := .f32) Cert.ReferenceIdeal.dot_S50000x960_S960x256_S50000x256_1_0_0_1_n_n none
        (shapeCast _ (Cert.ReferenceIdeal.Value.res_main_v485 (launchContents m' c)) Cert.ReferenceIdeal.Gen.shapeCasts_S50000x5x192_S50000x960)
        ((launchContents m' c) (Proc.devRef .tc Cert.ReferenceIdeal.main_arg10)))
      (broadcastInDim Cert.ReferenceIdeal.S50000x256 ![0, 1] Cert.ReferenceIdeal.Gen.bcast_S1x256_S50000x256_0_1
        (broadcastInDim Cert.ReferenceIdeal.S1x256 ![1] Cert.ReferenceIdeal.Gen.bcast_S256_S1x256_1 ((launchContents m' c) (Proc.devRef .tc Cert.ReferenceIdeal.main_arg11))))
      = Cert.KernelIdeal.Fr.W9 m ρ c (Proc.devRef .tc Cert.KernelIdeal.main_v180) := by
  obtain ⟨hf0, -⟩ := Cert.PreRange.feat_in_range (F := Ideal) _ _ _ _ _ _ _ _ _ _ _ _ (hpre c)
  rw [Cert.KernelIdeal.Fr.kernel_v180, Cert.ReferenceIdeal.RefValue.ref_dis_eq,
    fc_bridge Cert.KernelIdeal.Val.embedG0_inrange Cert.KernelIdeal.Val.fcG3_apply _ _ _ _ _ _ _ _ (fun n c' => hf0 (ix2 n c'))]
  exact fc_congr (relW_eq m m' c h8 h9) h0 h4 h3 h2 h7 h10 h11

end Cert.Bridge

end
-- ==== Proof.lean ====
import proofs.«421092_j39041252721056_4_alg».proof.Defs
import proofs.«421092_j39041252721056_4_alg».proof.Proof.Gen.Kernel
import proofs.«421092_j39041252721056_4_alg».proof.Proof.Gen.KernelIdeal
import proofs.«421092_j39041252721056_4_alg».proof.Proof.Gen.ReferenceIdeal
import proofs.«421092_j39041252721056_4_alg».proof.Proof.Gen.Pre_finite_inputs
import proofs.«421092_j39041252721056_4_alg».proof.Proof.K.Kept
import proofs.«421092_j39041252721056_4_alg».proof.Proof.KI.Kept
import proofs.«421092_j39041252721056_4_alg».proof.Proof.BR.Final
import Idealize.ShloMosaic.Adequacy
import Idealize.ShloMosaic.Init

set_option maxRecDepth 16384

noncomputable section

namespace Cert.Proof

open Idealize.ShloMosaic Idealize.ShloMosaic.TcCoe Idealize.SL.Sem

/-- No segment of the program writes an argument array, so the run's final memory has each as launched. -/
theorem frame_k : Cert.frame_Kernel := fun m ρ _ => (θ_run Cert.Kernel.defs _ _).mono (fun r h c => by
  have k := fun b hb => (h c _ (Cert.Kernel.Fr.unsc b hb)).trans (Cert.Kernel.Fr.kept9 m ρ b hb c)
  exact ⟨k _ (by decide), k _ (by decide), k _ (by decide), k _ (by decide), k _ (by decide), k _ (by decide), k _ (by decide), k _ (by decide), k _ (by decide), k _ (by decide), k _ (by decide), k _ (by decide)⟩) (Cert.Kernel.Fr.run_all m ρ)

theorem frame_ki : Cert.frame_KernelIdeal := fun m ρ _ => (θ_run Cert.KernelIdeal.defs _ _).mono (fun r h c => by
  have k := fun b hb => (h c _ (Cert.KernelIdeal.Fr.unsc b hb)).trans (Cert.KernelIdeal.Fr.kept9 m ρ b hb c)
  exact ⟨k _ (by decide), k _ (by decide), k _ (by decide), k _ (by decide), k _ (by decide), k _ (by decide), k _ (by decide), k _ (by decide), k _ (by decide), k _ (by decide), k _ (by decide), k _ (by decide)⟩) (Cert.KernelIdeal.Fr.run_all m ρ)

theorem frame_ri : Cert.frame_ReferenceIdeal := fun m ρ _ =>
  (θ_run Cert.ReferenceIdeal.defs _ _).mono (fun _ h c => (h c).2.2) (Cert.ReferenceIdeal.Value.run (F := Ideal) m ρ)

theorem algebraic : Cert.algebraic_KernelIdeal_ReferenceIdeal := by
  intro m ρ m' ρ' hpre hagree
  refine ⟨fun c => Cert.KernelIdeal.Fr.W9 m ρ c (Proc.devRef .tc Cert.KernelIdeal.main_v179),
    fun c => Cert.KernelIdeal.Fr.W9 m ρ c (Proc.devRef .tc Cert.KernelIdeal.main_v180), ?_, ?_⟩
  · refine (θ_run Cert.KernelIdeal.defs _ _).mono (fun r h c => ?_) (Cert.KernelIdeal.Fr.run_all (F := Ideal) m ρ)
    have k := fun b hb => (h c _ (Cert.KernelIdeal.Fr.unsc b hb)).trans (Cert.KernelIdeal.Fr.kept9 m ρ b hb c)
    exact ⟨h c _ (Cert.KernelIdeal.Fr.mem_uc Cert.KernelIdeal.main_v179 (by decide)), h c _ (Cert.KernelIdeal.Fr.mem_uc Cert.KernelIdeal.main_v180 (by decide)),
      k _ (by decide), k _ (by decide), k _ (by decide), k _ (by decide), k _ (by decide), k _ (by decide), k _ (by decide), k _ (by decide), k _ (by decide), k _ (by decide), k _ (by decide), k _ (by decide)⟩
  · refine (θ_run Cert.ReferenceIdeal.defs _ _).mono (fun r h c => ?_) (Cert.ReferenceIdeal.Value.run (F := Ideal) m' ρ')
    obtain ⟨hv0, hv1, hargs⟩ := h c
    obtain ⟨ha0, ha1, ha2, ha3, ha4, ha5, ha6, ha7, ha8, ha9, ha10, ha11⟩ := hagree c
    exact ⟨hv0.trans (Cert.Bridge.drug_value m ρ m' hpre c ha0 ha1 ha2 ha3 ha4 ha5 ha6 ha7 ha8 ha9 ha10 ha11),
      hv1.trans (Cert.Bridge.dis_value m ρ m' hpre c ha0 ha1 ha2 ha3 ha4 ha5 ha6 ha7 ha8 ha9 ha10 ha11), hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
